-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000x1024 : Shape := ⟨2, ![5000, 1024]⟩
abbrev S232x1024 : Shape := ⟨2, ![232, 1024]⟩
abbrev S232 : Shape := ⟨1, ![232]⟩
abbrev S256x232 : Shape := ⟨2, ![256, 232]⟩
abbrev S256 : Shape := ⟨1, ![256]⟩
abbrev S232x256 : Shape := ⟨2, ![232, 256]⟩
abbrev S100000x768 : Shape := ⟨2, ![100000, 768]⟩
abbrev S232x768 : Shape := ⟨2, ![232, 768]⟩
abbrev S2x232 : Shape := ⟨2, ![2, 232]⟩
abbrev S2 : Shape := ⟨1, ![2]⟩
abbrev S2x131072 : Shape := ⟨2, ![2, 131072]⟩
abbrev S16384 : Shape := ⟨1, ![16384]⟩
abbrev S_ : Shape := ⟨0, ![]⟩

class Facts : Prop where
  bcast_S_S5000x1024 : S_.BroadcastsInDim S5000x1024 (![] : Fin 0 → Fin S5000x1024.rank)
  reducesTo_S5000x1024_S_d0_1 : S5000x1024.ReducesTo [0, 1] S_
  h_S_ : 0 < S_.numel
  bcast_S_S232x1024 : S_.BroadcastsInDim S232x1024 (![] : Fin 0 → Fin S232x1024.rank)
  reducesTo_S232x1024_S_d0_1 : S232x1024.ReducesTo [0, 1] S_
  bcast_S_S232 : S_.BroadcastsInDim S232 (![] : Fin 0 → Fin S232.rank)
  reducesTo_S232_S_d0 : S232.ReducesTo [0] S_
  bcast_S_S256x232 : S_.BroadcastsInDim S256x232 (![] : Fin 0 → Fin S256x232.rank)
  reducesTo_S256x232_S_d0_1 : S256x232.ReducesTo [0, 1] S_
  bcast_S_S256 : S_.BroadcastsInDim S256 (![] : Fin 0 → Fin S256.rank)
  reducesTo_S256_S_d0 : S256.ReducesTo [0] S_
  bcast_S_S232x256 : S_.BroadcastsInDim S232x256 (![] : Fin 0 → Fin S232x256.rank)
  reducesTo_S232x256_S_d0_1 : S232x256.ReducesTo [0, 1] S_
  bcast_S_S100000x768 : S_.BroadcastsInDim S100000x768 (![] : Fin 0 → Fin S100000x768.rank)
  reducesTo_S100000x768_S_d0_1 : S100000x768.ReducesTo [0, 1] S_
  bcast_S_S232x768 : S_.BroadcastsInDim S232x768 (![] : Fin 0 → Fin S232x768.rank)
  reducesTo_S232x768_S_d0_1 : S232x768.ReducesTo [0, 1] S_
  bcast_S_S2x232 : S_.BroadcastsInDim S2x232 (![] : Fin 0 → Fin S2x232.rank)
  reducesTo_S2x232_S_d0_1 : S2x232.ReducesTo [0, 1] S_
  bcast_S_S2 : S_.BroadcastsInDim S2 (![] : Fin 0 → Fin S2.rank)
  reducesTo_S2_S_d0 : S2.ReducesTo [0] S_
  bcast_S_S2x131072 : S_.BroadcastsInDim S2x131072 (![] : Fin 0 → Fin S2x131072.rank)
  reducesTo_S2x131072_S_d0_1 : S2x131072.ReducesTo [0, 1] S_

variable [Facts]

def fn_part4 {F : FTy → Type} [FloatOps F] (main_arg14 : IVec S2x131072 32) (main_v63 : IVec S_ 1) (main_v67 : IVec S_ 1) : IVec S_ 1 :=
  let main_v68 : IVec S_ 1 := andi main_v63 main_v67
  let main_c_26 : IVec S_ 32 := constantI S_ 32 0#32
  let main_v69 : IVec S2x131072 32 := broadcastInDim S2x131072 ![] bcast_S_S2x131072 main_c_26
  let main_v70 : IVec S2x131072 1 := cmpi .sge main_arg14 main_v69
  let main_c_27 : IVec S_ 1 := constantI S_ 1 1#1
  let main_v71 : IVec S_ 1 := (fun x v => Host.reduce IntOp.andi x v reducesTo_S2x131072_S_d0_1 h_S_) main_v70 main_c_27
  let main_v72 : IVec S_ 1 := andi main_v68 main_v71
  let main_c_28 : IVec S_ 32 := constantI S_ 32 4096#32
  let main_v73 : IVec S2x131072 32 := broadcastInDim S2x131072 ![] bcast_S_S2x131072 main_c_28
  let main_v74 : IVec S2x131072 1 := cmpi .slt main_arg14 main_v73
  let main_c_29 : IVec S_ 1 := constantI S_ 1 1#1
  let main_v75 : IVec S_ 1 := (fun x v => Host.reduce IntOp.andi x v reducesTo_S2x131072_S_d0_1 h_S_) main_v74 main_c_29
  let main_v76 : IVec S_ 1 := andi main_v72 main_v75
  main_v76

def fn_part3 {F : FTy → Type} [FloatOps F] (main_arg11 : FVec F S232 .f32) (main_arg12 : FVec F S2x232 .f32) (main_arg13 : FVec F S2 .f32) (main_arg14 : IVec S2x131072 32) (main_v48 : IVec S_ 1) (main_v49 : FVec F S232x768 .f32) (main_v50 : FVec F S232x768 .f32) : IVec S_ 1 :=
  let main_v51 : IVec S232x768 1 := cmpf .olt main_v49 main_v50
  let main_c_19 : IVec S_ 1 := constantI S_ 1 1#1
  let main_v52 : IVec S_ 1 := (fun x v => Host.reduce IntOp.andi x v reducesTo_S232x768_S_d0_1 h_S_) main_v51 main_c_19
  let main_v53 : IVec S_ 1 := andi main_v48 main_v52
  let main_v54 : FVec F S232 .f32 := Host.absf main_arg11
  let main_cst_20 : FVec F S_ .f32 := constant S_ .f32 0x7F800000#32
  let main_v55 : FVec F S232 .f32 := broadcastInDim S232 ![] bcast_S_S232 main_cst_20
  let main_v56 : IVec S232 1 := cmpf .olt main_v54 main_v55
  let main_c_21 : IVec S_ 1 := constantI S_ 1 1#1
  let main_v57 : IVec S_ 1 := (fun x v => Host.reduce IntOp.andi x v reducesTo_S232_S_d0 h_S_) main_v56 main_c_21
  let main_v58 : IVec S_ 1 := andi main_v53 main_v57
  let main_v59 : FVec F S2x232 .f32 := Host.absf main_arg12
  let main_cst_22 : FVec F S_ .f32 := constant S_ .f32 0x7F800000#32
  let main_v60 : FVec F S2x232 .f32 := broadcastInDim S2x232 ![] bcast_S_S2x232 main_cst_22
  let main_v61 : IVec S2x232 1 := cmpf .olt main_v59 main_v60
  let main_c_23 : IVec S_ 1 := constantI S_ 1 1#1
  let main_v62 : IVec S_ 1 := (fun x v => Host.reduce IntOp.andi x v reducesTo_S2x232_S_d0_1 h_S_) main_v61 main_c_23
  let main_v63 : IVec S_ 1 := andi main_v58 main_v62
  let main_v64 : FVec F S2 .f32 := Host.absf main_arg13
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_arg14 main_v63 main_v67

def fn_part2 {F : FTy → Type} [FloatOps F] (main_arg7 : FVec F S232 .f32) (main_arg8 : FVec F S232x256 .f32) (main_arg9 : FVec F S100000x768 .f32) (main_arg10 : FVec F S232x768 .f32) (main_arg11 : FVec F S232 .f32) (main_arg12 : FVec F S2x232 .f32) (main_arg13 : FVec F S2 .f32) (main_arg14 : IVec S2x131072 32) (main_v33 : IVec S_ 1) : IVec S_ 1 :=
  let main_v34 : FVec F S232 .f32 := Host.absf main_arg7
  let main_cst_12 : FVec F S_ .f32 := constant S_ .f32 0x7F800000#32
  let main_v35 : FVec F S232 .f32 := broadcastInDim S232 ![] bcast_S_S232 main_cst_12
  let main_v36 : IVec S232 1 := cmpf .olt main_v34 main_v35
  let main_c_13 : IVec S_ 1 := constantI S_ 1 1#1
  let main_v37 : IVec S_ 1 := (fun x v => Host.reduce IntOp.andi x v reducesTo_S232_S_d0 h_S_) main_v36 main_c_13
  let main_v38 : IVec S_ 1 := andi main_v33 main_v37
  let main_v39 : FVec F S232x256 .f32 := Host.absf main_arg8
  let main_cst_14 : FVec F S_ .f32 := constant S_ .f32 0x7F800000#32
  let main_v40 : FVec F S232x256 .f32 := broadcastInDim S232x256 ![] bcast_S_S232x256 main_cst_14
  let main_v41 : IVec S232x256 1 := cmpf .olt main_v39 main_v40
  let main_c_15 : IVec S_ 1 := constantI S_ 1 1#1
  let main_v42 : IVec S_ 1 := (fun x v => Host.reduce IntOp.andi x v reducesTo_S232x256_S_d0_1 h_S_) main_v41 main_c_15
  let main_v43 : IVec S_ 1 := andi main_v38 main_v42
  let main_v44 : FVec F S100000x768 .f32 := Host.absf main_arg9
  let main_cst_16 : FVec F S_ .f32 := constant S_ .f32 0x7F800000#32
  let main_v45 : FVec F S100000x768 .f32 := broadcastInDim S100000x768 ![] bcast_S_S100000x768 main_cst_16
  let main_v46 : IVec S100000x768 1 := cmpf .olt main_v44 main_v45
  let main_c_17 : IVec S_ 1 := constantI S_ 1 1#1
  let main_v47 : IVec S_ 1 := (fun x v => Host.reduce IntOp.andi x v reducesTo_S100000x768_S_d0_1 h_S_) main_v46 main_c_17
  let main_v48 : IVec S_ 1 := andi main_v43 main_v47
  let main_v49 : FVec F S232x768 .f32 := Host.absf main_arg10
  let main_cst_18 : FVec F S_ .f32 := constant S_ .f32 0x7F800000#32
  let main_v50 : FVec F S232x768 .f32 := broadcastInDim S232x768 ![] bcast_S_S232x768 main_cst_18
  fn_part3 (F := F) main_arg11 main_arg12 main_arg13 main_arg14 main_v48 main_v49 main_v50

def fn_part1 {F : FTy → Type} [FloatOps F] (main_arg4 : FVec F S256 .f32) (main_arg5 : FVec F S256x232 .f32) (main_arg6 : FVec F S232x256 .f32) (main_arg7 : FVec F S232 .f32) (main_arg8 : FVec F S232x256 .f32) (main_arg9 : FVec F S100000x768 .f32) (main_arg10 : FVec F S232x768 .f32) (main_arg11 : FVec F S232 .f32) (main_arg12 : FVec F S2x232 .f32) (main_arg13 : FVec F S2 .f32) (main_arg14 : IVec S2x131072 32) (main_v13 : IVec S_ 1) (main_v16 : IVec S256x232 1) : IVec S_ 1 :=
  let main_c_5 : IVec S_ 1 := constantI S_ 1 1#1
  let main_v17 : IVec S_ 1 := (fun x v => Host.reduce IntOp.andi x v reducesTo_S256x232_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x232 .f32 := Host.absf main_arg5
  let main_cst_8 : FVec F S_ .f32 := constant S_ .f32 0x7F800000#32
  let main_v25 : FVec F S256x232 .f32 := broadcastInDim S256x232 ![] bcast_S_S256x232 main_cst_8
  let main_v26 : IVec S256x232 1 := cmpf .olt main_v24 main_v25
  let main_c_9 : IVec S_ 1 := constantI S_ 1 1#1
  let main_v27 : IVec S_ 1 := (fun x v => Host.reduce IntOp.andi x v reducesTo_S256x232_S_d0_1 h_S_) main_v26 main_c_9
  let main_v28 : IVec S_ 1 := andi main_v23 main_v27
  let main_v29 : FVec F S232x256 .f32 := Host.absf main_arg6
  let main_cst_10 : FVec F S_ .f32 := constant S_ .f32 0x7F800000#32
  let main_v30 : FVec F S232x256 .f32 := broadcastInDim S232x256 ![] bcast_S_S232x256 main_cst_10
  let main_v31 : IVec S232x256 1 := cmpf .olt main_v29 main_v30
  let main_c_11 : IVec S_ 1 := constantI S_ 1 1#1
  let main_v32 : IVec S_ 1 := (fun x v => Host.reduce IntOp.andi x v reducesTo_S232x256_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S5000x1024 .f32) (main_arg1 : FVec F S232x1024 .f32) (main_arg2 : FVec F S232 .f32) (main_arg3 : FVec F S256x232 .f32) (main_arg4 : FVec F S256 .f32) (main_arg5 : FVec F S256x232 .f32) (main_arg6 : FVec F S232x256 .f32) (main_arg7 : FVec F S232 .f32) (main_arg8 : FVec F S232x256 .f32) (main_arg9 : FVec F S100000x768 .f32) (main_arg10 : FVec F S232x768 .f32) (main_arg11 : FVec F S232 .f32) (main_arg12 : FVec F S2x232 .f32) (main_arg13 : FVec F S2 .f32) (main_arg14 : IVec S2x131072 32) (main_arg15 : IVec S16384 32) (main_arg16 : IVec S16384 32) : IVec S_ 1 :=
  let main_v0 : FVec F S5000x1024 .f32 := Host.absf main_arg0
  let main_cst : FVec F S_ .f32 := constant S_ .f32 0x7F800000#32
  let main_v1 : FVec F S5000x1024 .f32 := broadcastInDim S5000x1024 ![] bcast_S_S5000x1024 main_cst
  let main_v2 : IVec S5000x1024 1 := cmpf .olt main_v0 main_v1
  let main_c : IVec S_ 1 := constantI S_ 1 1#1
  let main_v3 : IVec S_ 1 := (fun x v => Host.reduce IntOp.andi x v reducesTo_S5000x1024_S_d0_1 h_S_) main_v2 main_c
  let main_v4 : FVec F S232x1024 .f32 := Host.absf main_arg1
  let main_cst_0 : FVec F S_ .f32 := constant S_ .f32 0x7F800000#32
  let main_v5 : FVec F S232x1024 .f32 := broadcastInDim S232x1024 ![] bcast_S_S232x1024 main_cst_0
  let main_v6 : IVec S232x1024 1 := cmpf .olt main_v4 main_v5
  let main_c_1 : IVec S_ 1 := constantI S_ 1 1#1
  let main_v7 : IVec S_ 1 := (fun x v => Host.reduce IntOp.andi x v reducesTo_S232x1024_S_d0_1 h_S_) main_v6 main_c_1
  let main_v8 : IVec S_ 1 := andi main_v3 main_v7
  let main_v9 : FVec F S232 .f32 := Host.absf main_arg2
  let main_cst_2 : FVec F S_ .f32 := constant S_ .f32 0x7F800000#32
  let main_v10 : FVec F S232 .f32 := broadcastInDim S232 ![] bcast_S_S232 main_cst_2
  let main_v11 : IVec S232 1 := cmpf .olt main_v9 main_v10
  let main_c_3 : IVec S_ 1 := constantI S_ 1 1#1
  let main_v12 : IVec S_ 1 := (fun x v => Host.reduce IntOp.andi x v reducesTo_S232_S_d0 h_S_) main_v11 main_c_3
  let main_v13 : IVec S_ 1 := andi main_v8 main_v12
  let main_v14 : FVec F S256x232 .f32 := Host.absf main_arg3
  let main_cst_4 : FVec F S_ .f32 := constant S_ .f32 0x7F800000#32
  let main_v15 : FVec F S256x232 .f32 := broadcastInDim S256x232 ![] bcast_S_S256x232 main_cst_4
  let main_v16 : IVec S256x232 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S5000x1024 : Shape := ⟨2, ![5000, 1024]⟩
abbrev S232x1024 : Shape := ⟨2, ![232, 1024]⟩
abbrev S232 : Shape := ⟨1, ![232]⟩
abbrev S256x232 : Shape := ⟨2, ![256, 232]⟩
abbrev S256 : Shape := ⟨1, ![256]⟩
abbrev S232x256 : Shape := ⟨2, ![232, 256]⟩
abbrev S100000x768 : Shape := ⟨2, ![100000, 768]⟩
abbrev S232x768 : Shape := ⟨2, ![232, 768]⟩
abbrev S2x232 : Shape := ⟨2, ![2, 232]⟩
abbrev S2 : Shape := ⟨1, ![2]⟩
abbrev S2x131072 : Shape := ⟨2, ![2, 131072]⟩
abbrev S16384 : Shape := ⟨1, ![16384]⟩
abbrev S1x131072 : Shape := ⟨2, ![1, 131072]⟩
abbrev S131072 : Shape := ⟨1, ![131072]⟩
abbrev S_ : Shape := ⟨0, ![]⟩
abbrev S16777216 : Shape := ⟨1, ![16777216]⟩
abbrev S131072x1 : Shape := ⟨2, ![131072, 1]⟩
abbrev S4096x4096 : Shape := ⟨2, ![4096, 4096]⟩
abbrev S4096 : Shape := ⟨1, ![4096]⟩
abbrev S4096x1 : Shape := ⟨2, ![4096, 1]⟩
abbrev S4096x1024 : Shape := ⟨2, ![4096, 1024]⟩
abbrev S1024x232 : Shape := ⟨2, ![1024, 232]⟩
abbrev S1x232 : Shape := ⟨2, ![1, 232]⟩
abbrev S4096x232 : Shape := ⟨2, ![4096, 232]⟩
abbrev S1024x1024 : Shape := ⟨2, ![1024, 1024]⟩
abbrev S1x256 : Shape := ⟨2, ![1, 256]⟩
abbrev S4096x256 : Shape := ⟨2, ![4096, 256]⟩
abbrev S1024x256 : Shape := ⟨2, ![1024, 256]⟩
abbrev S16384x1 : Shape := ⟨2, ![16384, 1]⟩
abbrev S16384x232 : Shape := ⟨2, ![16384, 232]⟩
abbrev S16384x768 : Shape := ⟨2, ![16384, 768]⟩
abbrev S768x232 : Shape := ⟨2, ![768, 232]⟩
abbrev S1024x768 : Shape := ⟨2, ![1024, 768]⟩
abbrev S232x2 : Shape := ⟨2, ![232, 2]⟩
abbrev S1x2 : Shape := ⟨2, ![1, 2]⟩
abbrev S16384x2 : Shape := ⟨2, ![16384, 2]⟩
abbrev S2048x232 : Shape := ⟨2, ![2048, 232]⟩
abbrev S2048x2 : Shape := ⟨2, ![2048, 2]⟩

abbrev nBuf : Space → Nat
  | .hbm => 88
  | .vmem => 52
  | .smem => 0
  | _ => 0

abbrev bufTy : (tb : Table) → Fin (tcTables nBuf tb) → BufTy
  | .hbm, ⟨0, _⟩ => ⟨S5000x1024, .f32⟩
  | .hbm, ⟨1, _⟩ => ⟨S232x1024, .f32⟩
  | .hbm, ⟨2, _⟩ => ⟨S232, .f32⟩
  | .hbm, ⟨3, _⟩ => ⟨S256x232, .f32⟩
  | .hbm, ⟨4, _⟩ => ⟨S256, .f32⟩
  | .hbm, ⟨5, _⟩ => ⟨S256x232, .f32⟩
  | .hbm, ⟨6, _⟩ => ⟨S232x256, .f32⟩
  | .hbm, ⟨7, _⟩ => ⟨S232, .f32⟩
  | .hbm, ⟨8, _⟩ => ⟨S232x256, .f32⟩
  | .hbm, ⟨9, _⟩ => ⟨S100000x768, .f32⟩
  | .hbm, ⟨10, _⟩ => ⟨S232x768, .f32⟩
  | .hbm, ⟨11, _⟩ => ⟨S232, .f32⟩
  | .hbm, ⟨12, _⟩ => ⟨S2x232, .f32⟩
  | .hbm, ⟨13, _⟩ => ⟨S2, .f32⟩
  | .hbm, ⟨14, _⟩ => ⟨S2x131072, .i32⟩
  | .hbm, ⟨15, _⟩ => ⟨S16384, .i32⟩
  | .hbm, ⟨16, _⟩ => ⟨S16384, .i32⟩
  | .hbm, ⟨17, _⟩ => ⟨S1x131072, .i32⟩
  | .hbm, ⟨18, _⟩ => ⟨S131072, .i32⟩
  | .hbm, ⟨19, _⟩ => ⟨S1x131072, .i32⟩
  | .hbm, ⟨20, _⟩ => ⟨S131072, .i32⟩
  | .hbm, ⟨21, _⟩ => ⟨S_, .i32⟩
  | .hbm, ⟨22, _⟩ => ⟨S131072, .i32⟩
  | .hbm, ⟨23, _⟩ => ⟨S131072, .i32⟩
  | .hbm, ⟨24, _⟩ => ⟨S131072, .i32⟩
  | .hbm, ⟨25, _⟩ => ⟨S_, .f32⟩
  | .hbm, ⟨26, _⟩ => ⟨S16777216, .f32⟩
  | .hbm, ⟨27, _⟩ => ⟨S_, .i32⟩
  | .hbm, ⟨28, _⟩ => ⟨S131072, .i32⟩
  | .hbm, ⟨29, _⟩ => ⟨S131072, .i1⟩
  | .hbm, ⟨30, _⟩ => ⟨S_, .i32⟩
  | .hbm, ⟨31, _⟩ => ⟨S131072, .i32⟩
  | .hbm, ⟨32, _⟩ => ⟨S131072, .i32⟩
  | .hbm, ⟨33, _⟩ => ⟨S131072, .i32⟩
  | .hbm, ⟨34, _⟩ => ⟨S131072x1, .i32⟩
  | .hbm, ⟨35, _⟩ => ⟨S_, .f32⟩
  | .hbm, ⟨36, _⟩ => ⟨S131072, .f32⟩
  | .hbm, ⟨37, _⟩ => ⟨S16777216, .f32⟩
  | .hbm, ⟨38, _⟩ => ⟨S4096x4096, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1, .f32⟩
  | .hbm, ⟨45, _⟩ => ⟨S4096x4096, .f32⟩
  | .hbm, ⟨46, _⟩ => ⟨S4096x4096, .f32⟩
  | .hbm, ⟨47, _⟩ => ⟨S4096x4096, .bf16⟩
  | .hbm, ⟨48, _⟩ => ⟨S4096x1024, .f32⟩
  | .hbm, ⟨49, _⟩ => ⟨S1024x232, .f32⟩
  | .hbm, ⟨50, _⟩ => ⟨S1x232, .f32⟩
  | .hbm, ⟨51, _⟩ => ⟨S4096x232, .f32⟩
  | .hbm, ⟨52, _⟩ => ⟨S4096x232, .bf16⟩
  | .hbm, ⟨53, _⟩ => ⟨S4096x232, .f32⟩
  | .hbm, ⟨54, _⟩ => ⟨S232x256, .f32⟩
  | .hbm, ⟨55, _⟩ => ⟨S232x256, .f32⟩
  | .hbm, ⟨56, _⟩ => ⟨S1x256, .f32⟩
  | .hbm, ⟨57, _⟩ => ⟨S4096x256, .f32⟩
  | .hbm, ⟨58, _⟩ => ⟨S4096x256, .bf16⟩
  | .hbm, ⟨59, _⟩ => ⟨S4096x256, .f32⟩
  | .hbm, ⟨60, _⟩ => ⟨S256x232, .f32⟩
  | .hbm, ⟨61, _⟩ => ⟨S256x232, .f32⟩
  | .hbm, ⟨62, _⟩ => ⟨S1x232, .f32⟩
  | .hbm, ⟨63, _⟩ => ⟨S4096x232, .f32⟩
  | .hbm, ⟨64, _⟩ => ⟨S_, .i32⟩
  | .hbm, ⟨65, _⟩ => ⟨S16384, .i32⟩
  | .hbm, ⟨66, _⟩ => ⟨S16384, .i1⟩
  | .hbm, ⟨67, _⟩ => ⟨S_, .i32⟩
  | .hbm, ⟨68, _⟩ => ⟨S16384, .i32⟩
  | .hbm, ⟨69, _⟩ => ⟨S16384, .i32⟩
  | .hbm, ⟨70, _⟩ => ⟨S16384, .i32⟩
  | .hbm, ⟨71, _⟩ => ⟨S16384x1, .i32⟩
  | .hbm, ⟨72, _⟩ => ⟨S16384x232, .f32⟩
  | .hbm, ⟨73, _⟩ => ⟨S_, .i32⟩
  | .hbm, ⟨74, _⟩ => ⟨S16384, .i32⟩
  | .hbm, ⟨75, _⟩ => ⟨S16384, .i1⟩
  | .hbm, ⟨76, _⟩ => ⟨S_, .i32⟩
  | .hbm, ⟨77, _⟩ => ⟨S16384, .i32⟩
  | .hbm, ⟨78, _⟩ => ⟨S16384, .i32⟩
  | .hbm, ⟨79, _⟩ => ⟨S16384, .i32⟩
  | .hbm, ⟨80, _⟩ => ⟨S16384x1, .i32⟩
  | .hbm, ⟨81, _⟩ => ⟨S16384x768, .f32⟩
  | .hbm, ⟨82, _⟩ => ⟨S768x232, .f32⟩
  | .hbm, ⟨83, _⟩ => ⟨S1x232, .f32⟩
  | .hbm, ⟨84, _⟩ => ⟨S16384x232, .f32⟩
  | .hbm, ⟨85, _⟩ => ⟨S232x2, .f32⟩
  | .hbm, ⟨86, _⟩ => ⟨S1x2, .f32⟩
  | .hbm, ⟨87, _⟩ => ⟨S16384x2, .f32⟩
  | .local _ .vmem, ⟨0, _⟩ => ⟨S1024x1024, .f32⟩
  | .local _ .vmem, ⟨1, _⟩ => ⟨S1024x1024, .f32⟩
  | .local _ .vmem, ⟨2, _⟩ => ⟨S1024x232, .f32⟩
  | .local _ .vmem, ⟨3, _⟩ => ⟨S1x232, .f32⟩
  | .local _ .vmem, ⟨4, _⟩ => ⟨S1024x232, .f32⟩
  | .local _ .vmem, ⟨5, _⟩ => ⟨S1024x232, .f32⟩
  | .local _ .vmem, ⟨6, _⟩ => ⟨S1024x1024, .bf16⟩
  | .local _ .vmem, ⟨7, _⟩ => ⟨S1024x1024, .bf16⟩
  | .local _ .vmem, ⟨8, _⟩ => ⟨S1024x232, .bf16⟩
  | .local _ .vmem, ⟨9, _⟩ => ⟨S1024x232, .bf16⟩
  | .local _ .vmem, ⟨10, _⟩ => ⟨S1024x232, .f32⟩
  | .local _ .vmem, ⟨11, _⟩ => ⟨S1024x232, .f32⟩
  | .local _ .vmem, ⟨12, _⟩ => ⟨S1024x232, .f32⟩
  | .local _ .vmem, ⟨13, _⟩ => ⟨S1024x232, .f32⟩
  | .local _ .vmem, ⟨14, _⟩ => ⟨S1024x232, .f32⟩
  | .local _ .vmem, ⟨15, _⟩ => ⟨S1024x232, .f32⟩
  | .local _ .vmem, ⟨16, _⟩ => ⟨S1024x232, .f32⟩
  | .local _ .vmem, ⟨17, _⟩ => ⟨S232x256, .f32⟩
  | .local _ .vmem, ⟨18, _⟩ => ⟨S232x256, .f32⟩
  | .local _ .vmem, ⟨19, _⟩ => ⟨S1x256, .f32⟩
  | .local _ .vmem, ⟨20, _⟩ => ⟨S1024x256, .f32⟩
  | .local _ .vmem, ⟨21, _⟩ => ⟨S1024x256, .f32⟩
  | .local _ .vmem, ⟨22, _⟩ => ⟨S1024x1024, .bf16⟩
  | .local _ .vmem, ⟨23, _⟩ => ⟨S1024x1024, .bf16⟩
  | .local _ .vmem, ⟨24, _⟩ => ⟨S1024x256, .bf16⟩
  | .local _ .vmem, ⟨25, _⟩ => ⟨S1024x256, .bf16⟩
  | .local _ .vmem, ⟨26, _⟩ => ⟨S1024x256, .f32⟩
  | .local _ .vmem, ⟨27, _⟩ => ⟨S1024x256, .f32⟩
  | .local _ .vmem, ⟨28, _⟩ => ⟨S1024x256, .f32⟩
  | .local _ .vmem, ⟨29, _⟩ => ⟨S1024x256, .f32⟩
  | .local _ .vmem, ⟨30, _⟩ => ⟨S1024x256, .f32⟩
  | .local _ .vmem, ⟨31, _⟩ => ⟨S1024x256, .f32⟩
  | .local _ .vmem, ⟨32, _⟩ => ⟨S1024x256, .f32⟩
  | .local _ .vmem, ⟨33, _⟩ => ⟨S256x232, .f32⟩
  | .local _ .vmem, ⟨34, _⟩ => ⟨S256x232, .f32⟩
  | .local _ .vmem, ⟨35, _⟩ => ⟨S1x232, .f32⟩
  | .local _ .vmem, ⟨36, _⟩ => ⟨S1024x232, .f32⟩
  | .local _ .vmem, ⟨37, _⟩ => ⟨S1024x232, .f32⟩
  | .local _ .vmem, ⟨38, _⟩ => ⟨S1024x768, .f32⟩
  | .local _ .vmem, ⟨39, _⟩ => ⟨S1024x768, .f32⟩
  | .local _ .vmem, ⟨40, _⟩ => ⟨S768x232, .f32⟩
  | .local _ .vmem, ⟨41, _⟩ => ⟨S1x232, .f32⟩
  | .local _ .vmem, ⟨42, _⟩ => ⟨S1024x232, .f32⟩
  | .local _ .vmem, ⟨43, _⟩ => ⟨S1024x232, .f32⟩
  | .local _ .vmem, ⟨44, _⟩ => ⟨S2048x232, .f32⟩
  | .local _ .vmem, ⟨45, _⟩ => ⟨S2048x232, .f32⟩
  | .local _ .vmem, ⟨46, _⟩ => ⟨S2048x232, .f32⟩
  | .local _ .vmem, ⟨47, _⟩ => ⟨S2048x232, .f32⟩
  | .local _ .vmem, ⟨48, _⟩ => ⟨S232x2, .f32⟩
  | .local _ .vmem, ⟨49, _⟩ => ⟨S1x2, .f32⟩
  | .local _ .vmem, ⟨50, _⟩ => ⟨S2048x2, .f32⟩
  | .local _ .vmem, ⟨51, _⟩ => ⟨S2048x2, .f32⟩
  | _, _ => ⟨S5000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_c_0 : Ref sig .tc := ⟨.hbm, 27, rfl⟩
abbrev main_v8 : Ref sig .tc := ⟨.hbm, 28, rfl⟩
abbrev main_v9 : Ref sig .tc := ⟨.hbm, 29, rfl⟩
abbrev main_c_1 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_3 : Ref sig .tc := ⟨.hbm, 39, rfl⟩
abbrev main_v17 : Ref sig .tc := ⟨.hbm, 40, rfl⟩
abbrev main_cst_4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_5 : Ref sig .tc := ⟨.hbm, 64, rfl⟩
abbrev main_v40 : Ref sig .tc := ⟨.hbm, 65, rfl⟩
abbrev main_v41 : Ref sig .tc := ⟨.hbm, 66, rfl⟩
abbrev main_c_6 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_7 : Ref sig .tc := ⟨.hbm, 73, rfl⟩
abbrev main_v47 : Ref sig .tc := ⟨.hbm, 74, rfl⟩
abbrev main_v48 : Ref sig .tc := ⟨.hbm, 75, rfl⟩
abbrev main_c_8 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_scratch0 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg5_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg3_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg4_0 : Ref sig .tc := ⟨.vmem, 50, rfl⟩
abbrev cc6_stg4_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem5_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem4_0 : DmaSem sig := 48
abbrev cc6_sem4_1 : DmaSem sig := 49

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x232 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x232 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x232 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x232 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x232 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x232 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x232 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S232x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S232x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![4, 4], ![false, false]⟩

def k3_cond2 (i : grid3.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1024x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x232 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x232 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x232 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1024x232 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x768 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S768x232 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x232 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1024x232 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x232 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2048x232 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S232x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2048x2 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S_S16777216 : S_.BroadcastsInDim S16777216 (![] : Fin 0 → Fin S16777216.rank)
  bcast_S131072_S131072x1_0 : S131072.BroadcastsInDim S131072x1 (![0] : Fin 1 → Fin S131072x1.rank)
  shapeCasts_S16777216_S4096x4096 : S16777216.ShapeCasts S4096x4096
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bitsLt_bf16_f32 : FTy.bits .bf16 < FTy.bits .f32
  slices_S5000x1024_S4096x1024_0_0 : S5000x1024.Slices ![0, 0] S4096x1024
  transposes_S232x1024_S1024x232_1_0 : S232x1024.Transposes [1, 0] S1024x232
  shapeCasts_S232_S1x232 : S232.ShapeCasts S1x232
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x232_S1024x232_0_0 : ∀ a, (![0, 0] : Fin 2 → Nat) a + S1024x232.size a ≤ S1024x232.size a
  h_S1024x232 : 0 < S1024x232.numel
  shapeCasts_S1024x232_S1024x232 : S1024x232.ShapeCasts S1024x232
  inb_S1x232_S1x232_0_0 : ∀ a, (![0, 0] : Fin 2 → Nat) a + S1x232.size a ≤ S1x232.size a
  h_S1x232 : 0 < S1x232.numel
  shapeCasts_S1x232_S1x232 : S1x232.ShapeCasts S1x232
  broadcasts_S1x232_S1024x232 : S1x232.Broadcasts S1024x232
  transposes_S256x232_S232x256_1_0 : S256x232.Transposes [1, 0] S232x256
  shapeCasts_S256_S1x256 : S256.ShapeCasts S1x256
  inb_S232x256_S232x256_0_0 : ∀ a, (![0, 0] : Fin 2 → Nat) a + S232x256.size a ≤ S232x256.size a
  h_S232x256 : 0 < S232x256.numel
  shapeCasts_S232x256_S232x256 : S232x256.ShapeCasts S232x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S232x256_S256x232_1_0 : S232x256.Transposes [1, 0] S256x232
  inb_S256x232_S256x232_0_0 : ∀ a, (![0, 0] : Fin 2 → Nat) a + S256x232.size a ≤ S256x232.size a
  h_S256x232 : 0 < S256x232.numel
  shapeCasts_S256x232_S256x232 : S256x232.ShapeCasts S256x232
  bcast_S_S16384 : S_.BroadcastsInDim S16384 (![] : Fin 0 → Fin S16384.rank)
  bcast_S16384_S16384x1_0 : S16384.BroadcastsInDim S16384x1 (![0] : Fin 1 → Fin S16384x1.rank)
  transposes_S232x768_S768x232_1_0 : S232x768.Transposes [1, 0] S768x232
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768x232_S768x232_0_0 : ∀ a, (![0, 0] : Fin 2 → Nat) a + S768x232.size a ≤ S768x232.size a
  h_S768x232 : 0 < S768x232.numel
  shapeCasts_S768x232_S768x232 : S768x232.ShapeCasts S768x232
  transposes_S2x232_S232x2_1_0 : S2x232.Transposes [1, 0] S232x2
  shapeCasts_S2_S1x2 : S2.ShapeCasts S1x2
  inb_S2048x232_S2048x232_0_0 : ∀ a, (![0, 0] : Fin 2 → Nat) a + S2048x232.size a ≤ S2048x232.size a
  h_S2048x232 : 0 < S2048x232.numel
  shapeCasts_S2048x232_S2048x232 : S2048x232.ShapeCasts S2048x232
  inb_S232x2_S232x2_0_0 : ∀ a, (![0, 0] : Fin 2 → Nat) a + S232x2.size a ≤ S232x2.size a
  h_S232x2 : 0 < S232x2.numel
  shapeCasts_S232x2_S232x2 : S232x2.ShapeCasts S232x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2048x2 : S1x2.Broadcasts S2048x2
  inb_S2048x2_S2048x2_0_0 : ∀ a, (![0, 0] : Fin 2 → Nat) a + S2048x2.size a ≤ S2048x2.size a
  h_S2048x2 : 0 < S2048x2.numel
  scatter_S16777216_S131072x1_S131072_n_0_0_1_wf : ScatterDims.WF S16777216 S131072x1 S131072 [] [0] [0] 1
  dot_S1024x1024_S1024x232_S1024x232_1_0_0_1_n_n_wf : DotDims.WF S1024x1024 S1024x232 S1024x232 [1] [0] [0] [1] [] []
  dot_S1024x232_S232x256_S1024x256_1_0_0_1_n_n_wf : DotDims.WF S1024x232 S232x256 S1024x256 [1] [0] [0] [1] [] []
  dot_S1024x1024_S1024x256_S1024x256_1_0_0_1_n_n_wf : DotDims.WF S1024x1024 S1024x256 S1024x256 [1] [0] [0] [1] [] []
  dot_S1024x256_S256x232_S1024x232_1_0_0_1_n_n_wf : DotDims.WF S1024x256 S256x232 S1024x232 [1] [0] [0] [1] [] []
  gather_S4096x232_S16384x1_S16384x232_1_0_n_n_0_1_1232_wf : GatherDims.WF S4096x232 S16384x1 S16384x232 [1] [0] [] [0] [] 1 ![1, 232]
  gather_S100000x768_S16384x1_S16384x768_1_0_n_n_0_1_1768_wf : GatherDims.WF S100000x768 S16384x1 S16384x768 [1] [0] [] [0] [] 1 ![1, 768]
  dot_S1024x768_S768x232_S1024x232_1_0_0_1_n_n_wf : DotDims.WF S1024x768 S768x232 S1024x232 [1] [0] [0] [1] [] []
  dot_S2048x232_S232x2_S2048x2_1_0_0_1_n_n_wf : DotDims.WF S2048x232 S232x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x232.size a ≤ S1024x232.size a
  hwx0_1 : ∀ i : grid0.Coords, EltTy.bits .f32 = 32 ∨ (Rect.block (s := S1024x232) S1024x232.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x232.size a ≤ S1x232.size a
  hwx0_2 : ∀ i : grid0.Coords, EltTy.bits .f32 = 32 ∨ (Rect.block (s := S1x232) S1x232.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x232.size a ≤ S4096x232.size a
  hwx0_3 : ∀ i : grid0.Coords, EltTy.bits .f32 = 32 ∨ (Rect.block (s := S4096x232) S1024x232.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .bf16 = 32 ∨ (Rect.block (s := S4096x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x232.size a ≤ S4096x232.size a
  hwx1_1 : ∀ i : grid1.Coords, EltTy.bits .bf16 = 32 ∨ (Rect.block (s := S4096x232) S1024x232.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x232.size a ≤ S4096x232.size a
  hwx1_2 : ∀ i : grid1.Coords, EltTy.bits .f32 = 32 ∨ (Rect.block (s := S4096x232) S1024x232.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x232.size a ≤ S4096x232.size a
  hwx2_0 : ∀ i : grid2.Coords, EltTy.bits .f32 = 32 ∨ (Rect.block (s := S4096x232) S1024x232.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x232.size a ≤ S4096x232.size a
  hwx2_1 : ∀ i : grid2.Coords, EltTy.bits .f32 = 32 ∨ (Rect.block (s := S4096x232) S1024x232.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S232x256.size a ≤ S232x256.size a
  hwx2_2 : ∀ i : grid2.Coords, EltTy.bits .f32 = 32 ∨ (Rect.block (s := S232x256) S232x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S232x256.size a ≤ S232x256.size a
  hwx2_3 : ∀ i : grid2.Coords, EltTy.bits .f32 = 32 ∨ (Rect.block (s := S232x256) S232x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x256.size a ≤ S4096x256.size a
  hwx2_5 : ∀ i : grid2.Coords, EltTy.bits .f32 = 32 ∨ (Rect.block (s := S4096x256) S1024x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S4096x4096.size a
  hwx3_0 : ∀ i : grid3.Coords, EltTy.bits .bf16 = 32 ∨ (Rect.block (s := S4096x4096) S1024x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x256.size a ≤ S4096x256.size a
  hwx3_1 : ∀ i : grid3.Coords, EltTy.bits .bf16 = 32 ∨ (Rect.block (s := S4096x256) S1024x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x256.size a ≤ S4096x256.size a
  hwx3_2 : ∀ i : grid3.Coords, EltTy.bits .f32 = 32 ∨ (Rect.block (s := S4096x256) S1024x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x256.size a ≤ S4096x256.size a
  hwx4_0 : ∀ i : grid4.Coords, EltTy.bits .f32 = 32 ∨ (Rect.block (s := S4096x256) S1024x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x256.size a ≤ S4096x256.size a
  hwx4_1 : ∀ i : grid4.Coords, EltTy.bits .f32 = 32 ∨ (Rect.block (s := S4096x256) S1024x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x232.size a ≤ S256x232.size a
  hwx4_2 : ∀ i : grid4.Coords, EltTy.bits .f32 = 32 ∨ (Rect.block (s := S256x232) S256x232.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x232.size a ≤ S256x232.size a
  hwx4_3 : ∀ i : grid4.Coords, EltTy.bits .f32 = 32 ∨ (Rect.block (s := S256x232) S256x232.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x232.size a ≤ S1x232.size a
  hwx4_4 : ∀ i : grid4.Coords, EltTy.bits .f32 = 32 ∨ (Rect.block (s := S1x232) S1x232.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1024x232.size a ≤ S4096x232.size a
  hwx4_5 : ∀ i : grid4.Coords, EltTy.bits .f32 = 32 ∨ (Rect.block (s := S4096x232) S1024x232.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x768.size a ≤ S16384x768.size a
  hwx5_0 : ∀ i : grid5.Coords, EltTy.bits .f32 = 32 ∨ (Rect.block (s := S16384x768) S1024x768.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S768x232.size a ≤ S768x232.size a
  hwx5_1 : ∀ i : grid5.Coords, EltTy.bits .f32 = 32 ∨ (Rect.block (s := S768x232) S768x232.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x232.size a ≤ S1x232.size a
  hwx5_2 : ∀ i : grid5.Coords, EltTy.bits .f32 = 32 ∨ (Rect.block (s := S1x232) S1x232.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x232.size a ≤ S16384x232.size a
  hwx5_3 : ∀ i : grid5.Coords, EltTy.bits .f32 = 32 ∨ (Rect.block (s := S16384x232) S1024x232.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x232.size a ≤ S16384x232.size a
  hwx6_0 : ∀ i : grid6.Coords, EltTy.bits .f32 = 32 ∨ (Rect.block (s := S16384x232) S2048x232.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2048x232.size a ≤ S16384x232.size a
  hwx6_1 : ∀ i : grid6.Coords, EltTy.bits .f32 = 32 ∨ (Rect.block (s := S16384x232) S2048x232.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S232x2.size a ≤ S232x2.size a
  hwx6_2 : ∀ i : grid6.Coords, EltTy.bits .f32 = 32 ∨ (Rect.block (s := S232x2) S232x2.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x2.size a ≤ S1x2.size a
  hwx6_3 : ∀ i : grid6.Coords, EltTy.bits .f32 = 32 ∨ (Rect.block (s := S1x2) S1x2.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2048x2.size a ≤ S16384x2.size a
  hwx6_4 : ∀ i : grid6.Coords, EltTy.bits .f32 = 32 ∨ (Rect.block (s := S16384x2) S2048x2.size (cc6_transform_4 i) (hinb6_4 i)).WholeWords (EltTy.packing .f32)

variable [Facts₀]

def scatter_S16777216_S131072x1_S131072_n_0_0_1 : ScatterDims S16777216 S131072x1 S131072 where
  updateWindowDims := []
  insertedWindowDims := [0]
  scatterDimsToOperandDims := [0]
  indexVectorDim := 1
  wf := scatter_S16777216_S131072x1_S131072_n_0_0_1_wf
def dot_S1024x1024_S1024x232_S1024x232_1_0_0_1_n_n : DotDims S1024x1024 S1024x232 S1024x232 where
  lhsContracting := [1]
  rhsContracting := [0]
  lhsNonContracting := [0]
  rhsNonContracting := [1]
  lhsBatch := []
  rhsBatch := []
  wf := dot_S1024x1024_S1024x232_S1024x232_1_0_0_1_n_n_wf
def dot_S1024x232_S232x256_S1024x256_1_0_0_1_n_n : DotDims S1024x232 S232x256 S1024x256 where
  lhsContracting := [1]
  rhsContracting := [0]
  lhsNonContracting := [0]
  rhsNonContracting := [1]
  lhsBatch := []
  rhsBatch := []
  wf := dot_S1024x232_S232x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x232_S1024x232_1_0_0_1_n_n : DotDims S1024x256 S256x232 S1024x232 where
  lhsContracting := [1]
  rhsContracting := [0]
  lhsNonContracting := [0]
  rhsNonContracting := [1]
  lhsBatch := []
  rhsBatch := []
  wf := dot_S1024x256_S256x232_S1024x232_1_0_0_1_n_n_wf
def gather_S4096x232_S16384x1_S16384x232_1_0_n_n_0_1_1232 : GatherDims S4096x232 S16384x1 S16384x232 where
  offsetDims := [1]
  collapsedSliceDims := [0]
  operandBatchingDims := []
  startIndicesBatchingDims := []
  startIndexMap := [0]
  indexVectorDim := 1
  sliceSizes := ![1, 232]
  wf := gather_S4096x232_S16384x1_S16384x232_1_0_n_n_0_1_1232_wf
def gather_S100000x768_S16384x1_S16384x768_1_0_n_n_0_1_1768 : GatherDims S100000x768 S16384x1 S16384x768 where
  offsetDims := [1]
  collapsedSliceDims := [0]
  operandBatchingDims := []
  startIndicesBatchingDims := []
  startIndexMap := [0]
  indexVectorDim := 1
  sliceSizes := ![1, 768]
  wf := gather_S100000x768_S16384x1_S16384x768_1_0_n_n_0_1_1768_wf
def dot_S1024x768_S768x232_S1024x232_1_0_0_1_n_n : DotDims S1024x768 S768x232 S1024x232 where
  lhsContracting := [1]
  rhsContracting := [0]
  lhsNonContracting := [0]
  rhsNonContracting := [1]
  lhsBatch := []
  rhsBatch := []
  wf := dot_S1024x768_S768x232_S1024x232_1_0_0_1_n_n_wf
def dot_S2048x232_S232x2_S2048x2_1_0_0_1_n_n : DotDims S2048x232 S232x2 S2048x2 where
  lhsContracting := [1]
  rhsContracting := [0]
  lhsNonContracting := [0]
  rhsNonContracting := [1]
  lhsBatch := []
  rhsBatch := []
  wf := dot_S2048x232_S232x2_S2048x2_1_0_0_1_n_n_wf

abbrev win0_0 : Pipeline.Window sig grid0 :=
  Pipeline.Window.ofSpec (Memref.whole main_v24) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S1024x232.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x232.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1024x232.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1024x232.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1024x232.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v29) S1024x232.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S1024x232.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S232x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S232x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v32) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v33) S1024x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v23) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S1024x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v35) S1024x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v35) S1024x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v33) S1024x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v36) S256x232.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v37) S256x232.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v38) S1x232.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v39) S1024x232.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v53) S1024x768.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v54) S768x232.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v55) S1x232.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v56) S1024x232.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v46) S2048x232.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v56) S2048x232.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v57) S232x2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v58) S1x2.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v59) S2048x2.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S5000x1024 : Shape := ⟨2, ![5000, 1024]⟩
abbrev S232x1024 : Shape := ⟨2, ![232, 1024]⟩
abbrev S232 : Shape := ⟨1, ![232]⟩
abbrev S256x232 : Shape := ⟨2, ![256, 232]⟩
abbrev S256 : Shape := ⟨1, ![256]⟩
abbrev S232x256 : Shape := ⟨2, ![232, 256]⟩
abbrev S100000x768 : Shape := ⟨2, ![100000, 768]⟩
abbrev S232x768 : Shape := ⟨2, ![232, 768]⟩
abbrev S2x232 : Shape := ⟨2, ![2, 232]⟩
abbrev S2 : Shape := ⟨1, ![2]⟩
abbrev S2x131072 : Shape := ⟨2, ![2, 131072]⟩
abbrev S16384 : Shape := ⟨1, ![16384]⟩
abbrev S1024x232 : Shape := ⟨2, ![1024, 232]⟩
abbrev S5000x232 : Shape := ⟨2, ![5000, 232]⟩
abbrev S1x232 : Shape := ⟨2, ![1, 232]⟩
abbrev S4096x232 : Shape := ⟨2, ![4096, 232]⟩
abbrev S1x131072 : Shape := ⟨2, ![1, 131072]⟩
abbrev S131072 : Shape := ⟨1, ![131072]⟩
abbrev S_ : Shape := ⟨0, ![]⟩
abbrev S131072x1 : Shape := ⟨2, ![131072, 1]⟩
abbrev S131072x232 : Shape := ⟨2, ![131072, 232]⟩
abbrev S4096 : Shape := ⟨1, ![4096]⟩
abbrev S4096x1 : Shape := ⟨2, ![4096, 1]⟩
abbrev S4096x256 : Shape := ⟨2, ![4096, 256]⟩
abbrev S1x256 : Shape := ⟨2, ![1, 256]⟩
abbrev S131072x256 : Shape := ⟨2, ![131072, 256]⟩
abbrev S16384x1 : Shape := ⟨2, ![16384, 1]⟩
abbrev S16384x232 : Shape := ⟨2, ![16384, 232]⟩
abbrev S16384x768 : Shape := ⟨2, ![16384, 768]⟩
abbrev S768x232 : Shape := ⟨2, ![768, 232]⟩
abbrev S232x2 : Shape := ⟨2, ![232, 2]⟩
abbrev S16384x2 : Shape := ⟨2, ![16384, 2]⟩
abbrev S1x2 : Shape := ⟨2, ![1, 2]⟩

abbrev nBuf : Space → Nat
  | .hbm => 129
  | .vmem => 0
  | .smem => 0
  | _ => 0

abbrev hbmTy0_0 (i : Nat) : BufTy := match i % 128 with
  | 0 => ⟨S5000x1024, .f32⟩
  | 1 => ⟨S232x1024, .f32⟩
  | 2 => ⟨S232, .f32⟩
  | 3 => ⟨S256x232, .f32⟩
  | 4 => ⟨S256, .f32⟩
  | 5 => ⟨S256x232, .f32⟩
  | 6 => ⟨S232x256, .f32⟩
  | 7 => ⟨S232, .f32⟩
  | 8 => ⟨S232x256, .f32⟩
  | 9 => ⟨S100000x768, .f32⟩
  | 10 => ⟨S232x768, .f32⟩
  | 11 => ⟨S232, .f32⟩
  | 12 => ⟨S2x232, .f32⟩
  | 13 => ⟨S2, .f32⟩
  | 14 => ⟨S2x131072, .i32⟩
  | 15 => ⟨S16384, .i32⟩
  | 16 => ⟨S16384, .i32⟩
  | 17 => ⟨S1024x232, .f32⟩
  | 18 => ⟨S5000x232, .f32⟩
  | 19 => ⟨S1x232, .f32⟩
  | 20 => ⟨S5000x232, .f32⟩
  | 21 => ⟨S5000x232, .f32⟩
  | 22 => ⟨S4096x232, .f32⟩
  | 23 => ⟨S1x131072, .i32⟩
  | 24 => ⟨S131072, .i32⟩
  | 25 => ⟨S1x131072, .i32⟩
  | 26 => ⟨S131072, .i32⟩
  | 27 => ⟨S_, .i32⟩
  | 28 => ⟨S131072, .i32⟩
  | 29 => ⟨S131072, .i1⟩
  | 30 => ⟨S_, .i32⟩
  | 31 => ⟨S131072, .i32⟩
  | 32 => ⟨S131072, .i32⟩
  | 33 => ⟨S131072, .i32⟩
  | 34 => ⟨S131072x1, .i32⟩
  | 35 => ⟨S131072x232, .f32⟩
  | 36 => ⟨S_, .f32⟩
  | 37 => ⟨S4096x232, .f32⟩
  | 38 => ⟨S131072x1, .i32⟩
  | 39 => ⟨S4096x232, .f32⟩
  | 40 => ⟨S_, .f32⟩
  | 41 => ⟨S131072, .f32⟩
  | 42 => ⟨S_, .f32⟩
  | 43 => ⟨S4096, .f32⟩
  | 44 => ⟨S131072x1, .i32⟩
  | 45 => ⟨S4096, .f32⟩
  | 46 => ⟨S_, .f32⟩
  | 47 => ⟨S4096, .f32⟩
  | 48 => ⟨S4096, .f32⟩
  | 49 => ⟨S4096x1, .f32⟩
  | 50 => ⟨S4096x232, .f32⟩
  | 51 => ⟨S4096x232, .f32⟩
  | 52 => ⟨S232x256, .f32⟩
  | 53 => ⟨S4096x256, .f32⟩
  | 54 => ⟨S1x256, .f32⟩
  | 55 => ⟨S4096x256, .f32⟩
  | 56 => ⟨S4096x256, .f32⟩
  | 57 => ⟨S232x256, .f32⟩
  | 58 => ⟨S4096x256, .f32⟩
  | 59 => ⟨S4096x256, .f32⟩
  | 60 => ⟨S_, .f32⟩
  | 61 => ⟨S4096x256, .f32⟩
  | 62 => ⟨S4096x256, .f32⟩
  | 63 => ⟨S1x131072, .i32⟩
  | 64 => ⟨S131072, .i32⟩
  | 65 => ⟨S1x131072, .i32⟩
  | 66 => ⟨S131072, .i32⟩
  | 67 => ⟨S_, .i32⟩
  | 68 => ⟨S131072, .i32⟩
  | 69 => ⟨S131072, .i1⟩
  | 70 => ⟨S_, .i32⟩
  | 71 => ⟨S131072, .i32⟩
  | 72 => ⟨S131072, .i32⟩
  | 73 => ⟨S131072, .i32⟩
  | 74 => ⟨S131072x1, .i32⟩
  | 75 => ⟨S131072x256, .f32⟩
  | 76 => ⟨S_, .f32⟩
  | 77 => ⟨S4096x256, .f32⟩
  | 78 => ⟨S131072x1, .i32⟩
  | 79 => ⟨S4096x256, .f32⟩
  | 80 => ⟨S_, .f32⟩
  | 81 => ⟨S131072, .f32⟩
  | 82 => ⟨S_, .f32⟩
  | 83 => ⟨S4096, .f32⟩
  | 84 => ⟨S131072x1, .i32⟩
  | 85 => ⟨S4096, .f32⟩
  | 86 => ⟨S_, .f32⟩
  | 87 => ⟨S4096, .f32⟩
  | 88 => ⟨S4096, .f32⟩
  | 89 => ⟨S4096x1, .f32⟩
  | 90 => ⟨S4096x256, .f32⟩
  | 91 => ⟨S4096x256, .f32⟩
  | 92 => ⟨S256x232, .f32⟩
  | 93 => ⟨S4096x232, .f32⟩
  | 94 => ⟨S1x232, .f32⟩
  | 95 => ⟨S4096x232, .f32⟩
  | 96 => ⟨S4096x232, .f32⟩
  | 97 => ⟨S256x232, .f32⟩
  | 98 => ⟨S4096x232, .f32⟩
  | 99 => ⟨S4096x232, .f32⟩
  | 100 => ⟨S_, .i32⟩
  | 101 => ⟨S16384, .i32⟩
  | 102 => ⟨S16384, .i1⟩
  | 103 => ⟨S_, .i32⟩
  | 104 => ⟨S16384, .i32⟩
  | 105 => ⟨S16384, .i32⟩
  | 106 => ⟨S16384, .i32⟩
  | 107 => ⟨S16384x1, .i32⟩
  | 108 => ⟨S16384x232, .f32⟩
  | 109 => ⟨S_, .i32⟩
  | 110 => ⟨S16384, .i32⟩
  | 111 => ⟨S16384, .i1⟩
  | 112 => ⟨S_, .i32⟩
  | 113 => ⟨S16384, .i32⟩
  | 114 => ⟨S16384, .i32⟩
  | 115 => ⟨S16384, .i32⟩
  | 116 => ⟨S16384x1, .i32⟩
  | 117 => ⟨S16384x768, .f32⟩
  | 118 => ⟨S768x232, .f32⟩
  | 119 => ⟨S16384x232, .f32⟩
  | 120 => ⟨S1x232, .f32⟩
  | 121 => ⟨S16384x232, .f32⟩
  | 122 => ⟨S16384x232, .f32⟩
  | 123 => ⟨S16384x232, .f32⟩
  | 124 => ⟨S232x2, .f32⟩
  | 125 => ⟨S16384x2, .f32⟩
  | 126 => ⟨S1x2, .f32⟩
  | 127 => ⟨S16384x2, .f32⟩
  | _ => ⟨S5000x1024, .f32⟩

abbrev hbmTy0_1 (i : Nat) : BufTy := match i % 128 with
  | 0 => ⟨S16384x2, .f32⟩
  | _ => ⟨S5000x1024, .f32⟩

abbrev hbmTy (i : Nat) : BufTy := match i / 128 with
  | 0 => hbmTy0_0 i
  | 1 => hbmTy0_1 i
  | _ => ⟨S5000x1024, .f32⟩

abbrev bufTy : (tb : Table) → Fin (tcTables nBuf tb) → BufTy
  | .hbm, ⟨i, _⟩ => hbmTy i
  | _, _ => ⟨S5000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_1 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call0_cst : Ref sig .tc := ⟨.hbm, 60, rfl⟩
abbrev main_call0_v0 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_4 : Ref sig .tc := ⟨.hbm, 67, rfl⟩
abbrev main_v42 : Ref sig .tc := ⟨.hbm, 68, rfl⟩
abbrev main_v43 : Ref sig .tc := ⟨.hbm, 69, rfl⟩
abbrev main_c_5 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_6 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_7 : Ref sig .tc := ⟨.hbm, 80, rfl⟩
abbrev main_v52 : Ref sig .tc := ⟨.hbm, 81, rfl⟩
abbrev main_cst_8 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_9 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_10 : Ref sig .tc := ⟨.hbm, 100, rfl⟩
abbrev main_v69 : Ref sig .tc := ⟨.hbm, 101, rfl⟩
abbrev main_v70 : Ref sig .tc := ⟨.hbm, 102, rfl⟩
abbrev main_c_11 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_12 : Ref sig .tc := ⟨.hbm, 109, rfl⟩
abbrev main_v76 : Ref sig .tc := ⟨.hbm, 110, rfl⟩
abbrev main_v77 : Ref sig .tc := ⟨.hbm, 111, rfl⟩
abbrev main_c_13 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩

abbrev nD : Nat := 1
abbrev τ : Topo := Topo.v7x

variable {F : FTy → Type} [FloatOps F]

class Facts₀ : Prop where
  transposes_S232x1024_S1024x232_1_0 : S232x1024.Transposes [1, 0] S1024x232
  bcast_S232_S1x232_1 : S232.BroadcastsInDim S1x232 (![1] : Fin 1 → Fin S1x232.rank)
  bcast_S1x232_S5000x232_0_1 : S1x232.BroadcastsInDim S5000x232 (![0, 1] : Fin 2 → Fin S5000x232.rank)
  slices_S5000x232_S4096x232_0_0 : S5000x232.Slices ![0, 0] S4096x232
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  bcast_S_S4096x232 : S_.BroadcastsInDim S4096x232 (![] : Fin 0 → Fin S4096x232.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x232_0_1 : S4096x1.BroadcastsInDim S4096x232 (![0, 1] : Fin 2 → Fin S4096x232.rank)
  transposes_S256x232_S232x256_1_0 : S256x232.Transposes [1, 0] S232x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S4096x1_S4096x256_0_1 : S4096x1.BroadcastsInDim S4096x256 (![0, 1] : Fin 2 → Fin S4096x256.rank)
  transposes_S232x256_S256x232_1_0 : S232x256.Transposes [1, 0] S256x232
  bcast_S1x232_S4096x232_0_1 : S1x232.BroadcastsInDim S4096x232 (![0, 1] : Fin 2 → Fin S4096x232.rank)
  bcast_S_S16384 : S_.BroadcastsInDim S16384 (![] : Fin 0 → Fin S16384.rank)
  bcast_S16384_S16384x1_0 : S16384.BroadcastsInDim S16384x1 (![0] : Fin 1 → Fin S16384x1.rank)
  transposes_S232x768_S768x232_1_0 : S232x768.Transposes [1, 0] S768x232
  bcast_S1x232_S16384x232_0_1 : S1x232.BroadcastsInDim S16384x232 (![0, 1] : Fin 2 → Fin S16384x232.rank)
  transposes_S2x232_S232x2_1_0 : S2x232.Transposes [1, 0] S232x2
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  dot_S5000x1024_S1024x232_S5000x232_1_0_0_1_n_n_wf : DotDims.WF S5000x1024 S1024x232 S5000x232 [1] [0] [0] [1] [] []
  gather_S4096x232_S131072x1_S131072x232_1_0_n_n_0_1_1232_wf : GatherDims.WF S4096x232 S131072x1 S131072x232 [1] [0] [] [0] [] 1 ![1, 232]
  scatter_S4096x232_S131072x1_S131072x232_1_0_0_1_wf : ScatterDims.WF S4096x232 S131072x1 S131072x232 [1] [0] [0] 1
  scatter_S4096_S131072x1_S131072_n_0_0_1_wf : ScatterDims.WF S4096 S131072x1 S131072 [] [0] [0] 1
  dot_S4096x232_S232x256_S4096x256_1_0_0_1_n_n_wf : DotDims.WF S4096x232 S232x256 S4096x256 [1] [0] [0] [1] [] []
  gather_S4096x256_S131072x1_S131072x256_1_0_n_n_0_1_1256_wf : GatherDims.WF S4096x256 S131072x1 S131072x256 [1] [0] [] [0] [] 1 ![1, 256]
  scatter_S4096x256_S131072x1_S131072x256_1_0_0_1_wf : ScatterDims.WF S4096x256 S131072x1 S131072x256 [1] [0] [0] 1
  dot_S4096x256_S256x232_S4096x232_1_0_0_1_n_n_wf : DotDims.WF S4096x256 S256x232 S4096x232 [1] [0] [0] [1] [] []
  gather_S4096x232_S16384x1_S16384x232_1_0_n_n_0_1_1232_wf : GatherDims.WF S4096x232 S16384x1 S16384x232 [1] [0] [] [0] [] 1 ![1, 232]
  gather_S100000x768_S16384x1_S16384x768_1_0_n_n_0_1_1768_wf : GatherDims.WF S100000x768 S16384x1 S16384x768 [1] [0] [] [0] [] 1 ![1, 768]
  dot_S16384x768_S768x232_S16384x232_1_0_0_1_n_n_wf : DotDims.WF S16384x768 S768x232 S16384x232 [1] [0] [0] [1] [] []
  dot_S16384x232_S232x2_S16384x2_1_0_0_1_n_n_wf : DotDims.WF S16384x232 S232x2 S16384x2 [1] [0] [0] [1] [] []

variable [Facts₀]

def dot_S5000x1024_S1024x232_S5000x232_1_0_0_1_n_n : DotDims S5000x1024 S1024x232 S5000x232 where
  lhsContracting := [1]
  rhsContracting := [0]
  lhsNonContracting := [0]
  rhsNonContracting := [1]
  lhsBatch := []
  rhsBatch := []
  wf := dot_S5000x1024_S1024x232_S5000x232_1_0_0_1_n_n_wf
def gather_S4096x232_S131072x1_S131072x232_1_0_n_n_0_1_1232 : GatherDims S4096x232 S131072x1 S131072x232 where
  offsetDims := [1]
  collapsedSliceDims := [0]
  operandBatchingDims := []
  startIndicesBatchingDims := []
  startIndexMap := [0]
  indexVectorDim := 1
  sliceSizes := ![1, 232]
  wf := gather_S4096x232_S131072x1_S131072x232_1_0_n_n_0_1_1232_wf
def scatter_S4096x232_S131072x1_S131072x232_1_0_0_1 : ScatterDims S4096x232 S131072x1 S131072x232 where
  updateWindowDims := [1]
  insertedWindowDims := [0]
  scatterDimsToOperandDims := [0]
  indexVectorDim := 1
  wf := scatter_S4096x232_S131072x1_S131072x232_1_0_0_1_wf
def scatter_S4096_S131072x1_S131072_n_0_0_1 : ScatterDims S4096 S131072x1 S131072 where
  updateWindowDims := []
  insertedWindowDims := [0]
  scatterDimsToOperandDims := [0]
  indexVectorDim := 1
  wf := scatter_S4096_S131072x1_S131072_n_0_0_1_wf
def dot_S4096x232_S232x256_S4096x256_1_0_0_1_n_n : DotDims S4096x232 S232x256 S4096x256 where
  lhsContracting := [1]
  rhsContracting := [0]
  lhsNonContracting := [0]
  rhsNonContracting := [1]
  lhsBatch := []
  rhsBatch := []
  wf := dot_S4096x232_S232x256_S4096x256_1_0_0_1_n_n_wf
def gather_S4096x256_S131072x1_S131072x256_1_0_n_n_0_1_1256 : GatherDims S4096x256 S131072x1 S131072x256 where
  offsetDims := [1]
  collapsedSliceDims := [0]
  operandBatchingDims := []
  startIndicesBatchingDims := []
  startIndexMap := [0]
  indexVectorDim := 1
  sliceSizes := ![1, 256]
  wf := gather_S4096x256_S131072x1_S131072x256_1_0_n_n_0_1_1256_wf
def scatter_S4096x256_S131072x1_S131072x256_1_0_0_1 : ScatterDims S4096x256 S131072x1 S131072x256 where
  updateWindowDims := [1]
  insertedWindowDims := [0]
  scatterDimsToOperandDims := [0]
  indexVectorDim := 1
  wf := scatter_S4096x256_S131072x1_S131072x256_1_0_0_1_wf
def dot_S4096x256_S256x232_S4096x232_1_0_0_1_n_n : DotDims S4096x256 S256x232 S4096x232 where
  lhsContracting := [1]
  rhsContracting := [0]
  lhsNonContracting := [0]
  rhsNonContracting := [1]
  lhsBatch := []
  rhsBatch := []
  wf := dot_S4096x256_S256x232_S4096x232_1_0_0_1_n_n_wf
def gather_S4096x232_S16384x1_S16384x232_1_0_n_n_0_1_1232 : GatherDims S4096x232 S16384x1 S16384x232 where
  offsetDims := [1]
  collapsedSliceDims := [0]
  operandBatchingDims := []
  startIndicesBatchingDims := []
  startIndexMap := [0]
  indexVectorDim := 1
  sliceSizes := ![1, 232]
  wf := gather_S4096x232_S16384x1_S16384x232_1_0_n_n_0_1_1232_wf
def gather_S100000x768_S16384x1_S16384x768_1_0_n_n_0_1_1768 : GatherDims S100000x768 S16384x1 S16384x768 where
  offsetDims := [1]
  collapsedSliceDims := [0]
  operandBatchingDims := []
  startIndicesBatchingDims := []
  startIndexMap := [0]
  indexVectorDim := 1
  sliceSizes := ![1, 768]
  wf := gather_S100000x768_S16384x1_S16384x768_1_0_n_n_0_1_1768_wf
def dot_S16384x768_S768x232_S16384x232_1_0_0_1_n_n : DotDims S16384x768 S768x232 S16384x232 where
  lhsContracting := [1]
  rhsContracting := [0]
  lhsNonContracting := [0]
  rhsNonContracting := [1]
  lhsBatch := []
  rhsBatch := []
  wf := dot_S16384x768_S768x232_S16384x232_1_0_0_1_n_n_wf
def dot_S16384x232_S232x2_S16384x2_1_0_0_1_n_n : DotDims S16384x232 S232x2 S16384x2 where
  lhsContracting := [1]
  rhsContracting := [0]
  lhsNonContracting := [0]
  rhsNonContracting := [1]
  lhsBatch := []
  rhsBatch := []
  wf := dot_S16384x232_S232x2_S16384x2_1_0_0_1_n_n_wf

class Facts : Prop extends Facts₀ where

variable [Facts]
-- ==== Proof.SameText.lean ====
import proofs.«426456_j87411174408700_1_alg».proof.Defs

noncomputable section

open Idealize.ShloMosaic

namespace Cert.Proof.SameText

variable {F : FTy → Type} [FloatOps F] [hK : Cert.Kernel.Facts] [hI : Cert.KernelIdeal.Facts]

set_option maxHeartbeats 4000000 in
-- The program as printed and its idealization are one text: their kernels' body tables agree label by label,
theorem defs₀_eq : @Cert.Kernel.defs₀ F _ hK = @Cert.KernelIdeal.defs₀ F _ hI := by
  unfold Cert.Kernel.defs₀ Cert.KernelIdeal.defs₀
  refine congrArg _ (funext fun ℓ => ?_)
  match ℓ with
  | 0 => rfl
  | 1 => rfl
  | 2 => rfl
  | 3 => rfl
  | 4 => rfl
  | 5 => rfl
  | 6 => rfl
  | ⟨_ + 7, h⟩ => exact absurd h (Nat.not_lt.2 (Nat.le_add_left _ _))

set_option maxHeartbeats 4000000 in
-- and so do their whole body tables.
theorem defs_eq : @Cert.Kernel.defs F _ hK = @Cert.KernelIdeal.defs F _ hI := by
  unfold Cert.Kernel.defs Cert.KernelIdeal.defs
  rw [defs₀_eq (hI := hI)]
  rfl

end Cert.Proof.SameText

end
-- ==== Proof.IReg0.lean ====
import proofs.«426456_j87411174408700_1_alg».proof.Proof.LaunchKernelIdeal
import proofs.«426456_j87411174408700_1_alg».proof.Proof.Gen.KernelIdeal.Skeleton
import proofs.«426456_j87411174408700_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1024x1024 := Rect.unit (s := S1024x1024) ![0, 0] S1024x1024.size inb_S1024x1024_S1024x1024_0_0
abbrev r0_1 : Rect S1024x232 := Rect.unit (s := S1024x232) ![0, 0] S1024x232.size inb_S1024x232_S1024x232_0_0
abbrev r0_2 : Rect S1x232 := Rect.unit (s := S1x232) ![0, 0] S1x232.size inb_S1x232_S1x232_0_0
abbrev r0_3 : Rect S1024x232 := Rect.unit (s := S1024x232) ![0, 0] S1024x232.size inb_S1024x232_S1024x232_0_0

def out0_3 (x0 : Vec F S1024x1024 .f32) (x1 : Vec F S1024x232 .f32) (x2 : Vec F S1x232 .f32) : Vec F S1024x232 .f32 :=
  View.canon [⟨r0_3, k0_pay1 (View.ld x0 r0_0) (View.ld x1 r0_1) (View.ld x2 r0_2)⟩]

theorem cover0_3 (p0 : Vec F S1024x232 .f32) (y : S1024x232.Idx) :
    ∃ pc ∈ ([⟨r0_3, p0⟩] : List (View.Piece (Elt F) S1024x232 .f32)), y ∈ pc.1.set :=
  View.cover_of_tiled [⟨r0_3, p0⟩] S1024x232.size (by rfl) y

set_option maxHeartbeats 1000000 in
theorem sound_kernel0 (c : Dev nD) (E : Set ℕ) (i : grid0.Coords) (arg0 : Memref sig .tc .vmem S1024x1024 .f32) (harg0 : arg0.IsWhole) (arg1 : Memref sig .tc .vmem S1024x232 .f32) (harg1 : arg1.IsWhole) (arg2 : Memref sig .tc .vmem S1x232 .f32) (harg2 : arg2.IsWhole) (arg3 : Memref sig .tc .vmem S1024x232 .f32) (harg3 : arg3.IsWhole)
    (x0 : Vec F S1024x1024 .f32) (x1 : Vec F S1024x232 .f32) (x2 : Vec F S1x232 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__proj_kernel i arg0 harg0 arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Gen
-- ==== Proof.IDef1.lean ====
import proofs.«426456_j87411174408700_1_alg».proof.Proof.LaunchKernelIdeal
import proofs.«426456_j87411174408700_1_alg».proof.Proof.Gen.KernelIdeal.Skeleton
import proofs.«426456_j87411174408700_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def accAfter1 (c : Dev nD) : (n : Nat) → (h : n < cfg1.N) → Vec F S1024x232 .f32
  | 0, h => k1_pay2 (k1_pay1 (F := F)) (iblk1 V c 0 ⟨0, h⟩) (iblk1 V c 1 ⟨0, h⟩)
  | n + 1, h => k1_pay2 (if (n + 1) % 4 = 0 then k1_pay1 (F := F) else accAfter1 c n (Nat.lt_of_succ_lt h))
      (iblk1 V c 0 ⟨n + 1, h⟩) (iblk1 V c 1 ⟨n + 1, h⟩)

def accIn1 (c : Dev nD) (n : Nat) (h : n < cfg1.N) : Vec F S1024x232 .f32 :=
  if n % 4 = 0 then k1_pay1 (F := F) else
    match n, h with
    | 0, _ => k1_pay1 (F := F)
    | n + 1, h => accAfter1 V c n (Nat.lt_of_succ_lt h)

end Cert.KernelIdeal.Gen

end
-- ==== Proof.IReg1.lean ====
import proofs.«426456_j87411174408700_1_alg».proof.Proof.IDef1
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def k1_cond1 (i : grid1.Coords) : BitVec 1 :=
  let arg1 : BitVec 32 := BitVec.ofNat 32 (i 1).val
  let v0 : BitVec 1 := Scalar.cmpi .eq arg1 0#32
  let v1 : BitVec 32 := Scalar.extui v0
  let v2 : BitVec 1 := Scalar.cmpi .ne v1 0#32
  v2

abbrev cond1_0 (i : grid1.Coords) : Prop := k1_cond1 i = 1#1

theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1

theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel

theorem idleAt1_2 : ∀ t : Fin cfg1.N, cfg1.idle 2 (grid1.coords t) = true ↔ t.val % 4 ≠ 3 :=
  (by decide +kernel : ∀ t : Fin grid1.N, idle1 2 (grid1.coords t) = true ↔ t.val % 4 ≠ 3)

theorem hzR1 : (![0, 0] : Fin 2 → Nat) = fun _ => 0 := funext fun a => by fin_cases a <;> rfl

theorem coverR1 (p : Vec F S1024x232 .f32) (y : S1024x232.Idx) :
    ∃ pc ∈ ([⟨Rect.unit (s := S1024x232) ![0, 0] S1024x232.size inb_S1024x232_S1024x232_0_0, p⟩] : List (View.Piece (Elt F) S1024x232 .f32)), y ∈ pc.1.set :=
  ⟨_, List.mem_singleton_self _, View.mem_set_unit_zero hzR1 inb_S1024x232_S1024x232_0_0 y⟩

set_option maxHeartbeats 1000000 in
theorem kernelRun1_A (c : Dev nD) (i : grid1.Coords) (arg2 : Memref sig .tc .vmem S1024x1024 .bf16) (harg2 : arg2.IsWhole) (arg3 : Memref sig .tc .vmem S1024x232 .bf16) (harg3 : arg3.IsWhole) (arg4 : Memref sig .tc .vmem S1024x232 .f32) (harg4 : arg4.IsWhole) (arg5 : Memref sig .tc .vmem S1024x232 .f32) (harg5 : arg5.IsWhole)
    (hc0 : cond1_0 i) (hc1 : ¬cond1_1 i)
    (x0 : Vec F S1024x1024 .bf16) (x1 : Vec F S1024x232 .bf16) (y : Vec F S1024x232 .f32) (x : Vec F S1024x232 .f32)
    (z : Vec F S1024x232 .f32) (hz : k1_pay2 (k1_pay1 (F := F)) x0 x1 = z) :
      ∀ (E : Set ℕ) (K : PUnit → sProp 𝕄),
        iprop(owns (c : Thread nD τ) arg2 fullShare x0 ∗ owns (c : Thread nD τ) arg3 fullShare x1 ∗ owns (c : Thread nD τ) arg4 fullShare y ∗ owns (c : Thread nD τ) arg5 fullShare x
            ∗ (iprop(owns (c : Thread nD τ) arg2 fullShare x0 ∗ owns (c : Thread nD τ) arg3 fullShare x1 ∗ owns (c : Thread nD τ) arg4 fullShare y ∗ owns (c : Thread nD τ) arg5 fullShare z) -∗ K ⟨⟩))
          ⊢ wp frame (wpE (defs₀ (F := F)) Variants.none c none) E (cc1__agg_kernel i arg2 harg2 arg3 harg3 arg4 harg4 arg5 harg5) K := by
    intro E K
    subst hz
    simp only [cc1__agg_kernel_eq_skeleton]; unfold cc1__agg_kernel_skel
    unfold owns
    iintro ⟨⟨%f0, %hf0, H0⟩, ⟨%f1, %hf1, H1⟩, ⟨%f4, %hf4, H4⟩, ⟨%f5, -, H5⟩, Hk⟩
    obtain rfl := harg2.eq_unread hf0
    obtain rfl := harg3.eq_unread hf1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; isplitr; swap; · iexact H5
    ipureintro
    rw [View.read_writes_eq_canon _ _ _ (fun y => ⟨_, List.mem_cons_self, View.mem_set_unit_zero hzR1 inb_S1024x232_S1024x232_0_0 y⟩)]
    sl_unfold_words
    rw [View.canon_cons_unit_zero (S := S1024x232) hzR1, View.readCov_unit_zero (S := S1024x232) _ hzR1]
    simp only [View.readAt_eq_ld, harg2.read_unread, harg3.read_unread, harg5.read_unread, View.ld_unit_zero (S := S1024x232) hzR1, View.ld_unit_zero (S := S1024x1024) hzR1]

set_option maxHeartbeats 1000000 in
theorem kernelRun1_B (c : Dev nD) (i : grid1.Coords) (arg2 : Memref sig .tc .vmem S1024x1024 .bf16) (harg2 : arg2.IsWhole) (arg3 : Memref sig .tc .vmem S1024x232 .bf16) (harg3 : arg3.IsWhole) (arg4 : Memref sig .tc .vmem S1024x232 .f32) (harg4 : arg4.IsWhole) (arg5 : Memref sig .tc .vmem S1024x232 .f32) (harg5 : arg5.IsWhole)
    (hc0 : ¬cond1_0 i) (hc1 : ¬cond1_1 i)
    (x0 : Vec F S1024x1024 .bf16) (x1 : Vec F S1024x232 .bf16) (y : Vec F S1024x232 .f32) (x : Vec F S1024x232 .f32)
    (z : Vec F S1024x232 .f32) (hz : k1_pay2 x x0 x1 = z) :
      ∀ (E : Set ℕ) (K : PUnit → sProp 𝕄),
        iprop(owns (c : Thread nD τ) arg2 fullShare x0 ∗ owns (c : Thread nD τ) arg3 fullShare x1 ∗ owns (c : Thread nD τ) arg4 fullShare y ∗ owns (c : Thread nD τ) arg5 fullShare x
            ∗ (iprop(owns (c : Thread nD τ) arg2 fullShare x0 ∗ owns (c : Thread nD τ) arg3 fullShare x1 ∗ owns (c : Thread nD τ) arg4 fullShare y ∗ owns (c : Thread nD τ) arg5 fullShare z) -∗ K ⟨⟩))
          ⊢ wp frame (wpE (defs₀ (F := F)) Variants.none c none) E (cc1__agg_kernel i arg2 harg2 arg3 harg3 arg4 harg4 arg5 harg5) K := by
    intro E K
    subst hz
    simp only [cc1__agg_kernel_eq_skeleton]; unfold cc1__agg_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0
    obtain rfl := harg3.eq_unread hf1
    obtain rfl := harg5.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; isplitr; swap; · iexact H5
    ipureintro
    rw [View.read_writes_eq_canon _ _ _ (coverR1 _)]
    sl_unfold_words
    rw [View.canon_unit_zero hzR1]
    simp only [View.readAt_eq_ld, harg2.read_unread, harg3.read_unread, harg5.read_unread, View.ld_unit_zero (S := S1024x232) hzR1, View.ld_unit_zero (S := S1024x1024) hzR1]

set_option maxHeartbeats 1000000 in
theorem kernelRun1_C (c : Dev nD) (i : grid1.Coords) (arg2 : Memref sig .tc .vmem S1024x1024 .bf16) (harg2 : arg2.IsWhole) (arg3 : Memref sig .tc .vmem S1024x232 .bf16) (harg3 : arg3.IsWhole) (arg4 : Memref sig .tc .vmem S1024x232 .f32) (harg4 : arg4.IsWhole) (arg5 : Memref sig .tc .vmem S1024x232 .f32) (harg5 : arg5.IsWhole)
    (hc0 : ¬cond1_0 i) (hc1 : cond1_1 i)
    (x0 : Vec F S1024x1024 .bf16) (x1 : Vec F S1024x232 .bf16) (y : Vec F S1024x232 .f32) (x : Vec F S1024x232 .f32)
    (z : Vec F S1024x232 .f32) (hz : k1_pay2 x x0 x1 = z) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare x
            ∗ (iprop(owns (c : Thread nD τ) arg2 fullShare x0 ∗ owns (c : Thread nD τ) arg3 fullShare x1 ∗ owns (c : Thread nD τ) arg4 fullShare z ∗ owns (c : Thread nD τ) arg5 fullShare z) -∗ K ⟨⟩))
          ⊢ wp frame (wpE (defs₀ (F := F)) Variants.none c none) E (cc1__agg_kernel i arg2 harg2 arg3 harg3 arg4 harg4 arg5 harg5) K := by
    intro E K
    subst hz
    simp only [cc1__agg_kernel_eq_skeleton]; unfold cc1__agg_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0
    obtain rfl := harg3.eq_unread hf1
    obtain rfl := harg5.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; swap; · iexact H4
      ipureintro
      rw [View.read_writes_eq_canon _ _ _ (coverR1 _)]
      sl_unfold_words
      rw [View.canon_unit_zero hzR1, View.readCov_unit_zero (S := S1024x232) _ hzR1]
      simp only [View.readAt_eq_ld, harg2.read_unread, harg3.read_unread, harg5.read_unread, View.ld_unit_zero (S := S1024x232) hzR1, View.ld_unit_zero (S := S1024x1024) hzR1]
    iexists _; isplitr; swap; · iexact H5
    ipureintro
    sl_unfold_words
    rw [View.read_writes_eq_canon _ _ _ (coverR1 _), View.canon_unit_zero hzR1]
    simp only [View.readAt_eq_ld, harg2.read_unread, harg3.read_unread, harg5.read_unread, View.ld_unit_zero (S := S1024x232) hzR1, View.ld_unit_zero (S := S1024x1024) hzR1]

def accAt1 (c : Dev nD) (n : Nat) : Vec F S1024x232 .f32 :=
  if h : n < cfg1.N then accAfter1 V c n h else k1_pay1 (F := F)

theorem accAt1_of_lt (c : Dev nD) (n : Nat) (h : n < cfg1.N) : accAt1 V c n = accAfter1 V c n h := dif_pos h

theorem accAfter1_step (c : Dev nD) : ∀ (n : Nat) (h : n < cfg1.N), accAfter1 V c n h
      = k1_pay2 (if n % 4 = 0 then k1_pay1 (F := F) else accAt1 V c (n - 1)) (iblk1 V c 0 ⟨n, h⟩) (iblk1 V c 1 ⟨n, h⟩)
  | 0, h => by rw [accAfter1, if_pos (by decide)]
  | n + 1, h => by rw [accAfter1, Nat.add_sub_cancel, accAt1_of_lt V c n (Nat.lt_of_succ_lt h)]

theorem acc_next1 (c : Dev nD) (t : Fin cfg1.N) (x : Vec F S1024x232 .f32) (hx : t.val % 4 ≠ 0 → x = accAt1 V c (t.val - 1)) :
    k1_pay2 (if t.val % 4 = 0 then k1_pay1 (F := F) else x) (iblk1 V c 0 t) (iblk1 V c 1 t) = accAfter1 V c t.val t.isLt := by
  rw [accAfter1_step V c t.val t.isLt]
  by_cases h : t.val % 4 = 0
  · rw [if_pos h, if_pos h]
  · rw [if_neg h, if_neg h, hx h]

def Phi1 (c : Dev nD) (t : Fin (cfg1.N + 1)) : sProp 𝕄 :=
  iprop((∃ x : Vec F S1024x232 .f32, ⌜t.val % 4 ≠ 0 → x = accAt1 V c (t.val - 1)⌝
        ∗ owns (c : Thread nD τ) (Memref.whole cc1_scratch0 : Memref sig .tc .vmem S1024x232 .f32) fullShare x)
    ∗ Pipeline.scopedRestBut (Ix := Unit) (Name := ℕ) (U := UR sig nD τ) (Lvl := ℕ) (Val := Elt F) spec1 c [cc1_scratch0]
    ∗ ∃ r, prngReg c r)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAfter1 V c t.val t.isLt
  Φ t := Phi1 V c t
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAfter1 V c t.val t.isLt := by dsimp only [dat1]

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem Phi1_in (c : Dev nD) : Pipeline.ΦA (U := UR sig nD τ) spec1 c ⊢ ((dat1 V c).Φ 0 : sProp 𝕄) := by
  show Pipeline.ΦA (U := UR sig nD τ) spec1 c ⊢ Phi1 V c 0
  unfold Pipeline.ΦA Phi1
  rw [scopedRest1_split]
  iintro ⟨⟨⟨%f, Hf⟩, Hrest⟩, Hr⟩
  isplitl [Hf]
  · iexists f; isplitr
    · ipureintro; intro h; exact absurd rfl h
    ihave Hf' := (Entails.of_eq (owns_whole (c : Thread nD τ) cc1_scratch0 fullShare f).symm) $$ Hf
    iexact Hf'
  isplitl [Hrest]; · iexact Hrest
  iexact Hr

theorem Phi1_out (c : Dev nD) : ((dat1 V c).Φ (Fin.last _) : sProp 𝕄) ⊢ Pipeline.ΦA (U := UR sig nD τ) spec1 c := by
  show Phi1 V c (Fin.last _) ⊢ Pipeline.ΦA (U := UR sig nD τ) spec1 c
  unfold Pipeline.ΦA Phi1
  rw [scopedRest1_split]
  iintro ⟨⟨%x, -, Hs⟩, Hrest, Hr⟩
  isplitr [Hr]; swap; · iexact Hr
  isplitl [Hs]; swap; · iexact Hrest
  ihave Hs' := (Entails.of_eq (owns_whole (c : Thread nD τ) cc1_scratch0 fullShare x)) $$ Hs
  iexists x; iexact Hs'

theorem leaves1_2_idle (c : Dev nD) (t : Fin cfg1.N) (h : t.val % 4 ≠ 3) :
    (dat1 V c).leavesExact 2 t = iprop(∃ d, owns (c : Thread nD τ) (st1_2 t) fullShare ((dat1 V c).before 2 t d)) :=
  (dat1 V c).leavesExact_idle 2 t ((idleAt1_2 t).mpr h) (Bool.eq_false_iff.mpr fun hf => h ((flush1_2 t).mp hf))

theorem leaves1_2_live (c : Dev nD) (t : Fin cfg1.N) (h : t.val % 4 = 3) :
    (dat1 V c).leavesExact 2 t = owns (c : Thread nD τ) (st1_2 t) fullShare ((dat1 V c).after 2 t) := by
  unfold Dat.leavesExact
  rw [show cfg1.idle 2 (grid1.coords t) = false from Bool.eq_false_iff.mpr fun hi => (idleAt1_2 t).mp hi h]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = Phi1 V c t.succ from rfl, show (dat1 V c).Φ t.castSucc = Phi1 V c t.castSucc from rfl,
    show (dat1 V c).owesAt () t.succ = (dat1 V c).owesAt () t.castSucc from rfl,
    show (dat1 V c).leavesExact 0 t = owns (c : Thread nD τ) (st1_0 t) fullShare ((dat1 V c).after 0 t) from by
      unfold Dat.leavesExact; rw [liveAt1_0 t],
    show (dat1 V c).leavesExact 1 t = owns (c : Thread nD τ) (st1_1 t) fullShare ((dat1 V c).after 1 t) from by
      unfold Dat.leavesExact; rw [liveAt1_1 t],
    after1_0, after1_1]
  unfold Phi1
  by_cases h0 : t.val % 4 = 0
  · have h1 : t.val % 4 ≠ 3 := by omega
    rw [leaves1_2_idle V c t h1]
    iintro ⟨⟨⟨%x, %hx, Hs⟩, Hrest, Hr⟩, Ho, ⟨%d0, H0⟩, ⟨%d1, H1⟩, ⟨%d2, H2⟩⟩
    have hE := acc_next1 V c t x hx
    rw [if_pos h0] at hE
    iapply ((kernelRun1_A c (grid1.coords t) _ _ _ _ _ _ _ _ ((hcond1_0 t).mpr h0) (fun h => h1 ((hcond1_1 t).mp h))
      (iblk1 V c 0 t) (iblk1 V c 1 t) ((dat1 V c).before 2 t d2) x (accAfter1 V c t.val t.isLt) hE) Set.univ _)
    isplitl [H0]; · iexact H0
    isplitl [H1]; · iexact H1
    isplitl [H2]; · iexact H2
    isplitl [Hs]; · iexact Hs
    iintro ⟨H0, H1, H2, Hs⟩
    isplitl [Hs Hrest Hr]
    · isplitl [Hs]
      · iexists _; isplitr; swap; · iexact Hs
        ipureintro; intro _
        show accAfter1 V c t.val t.isLt = accAt1 V c (t.val + 1 - 1)
        rw [Nat.add_sub_cancel, accAt1_of_lt V c t.val t.isLt]
      isplitl [Hrest]; · iexact Hrest
      iexact Hr
    isplitl [Ho]; · iexact Ho
    isplitl [H0]; · iexact H0
    isplitl [H1]; · iexact H1
    iexists d2; iexact H2
  · by_cases h1 : t.val % 4 = 3
    · rw [leaves1_2_live V c t h1, after1_2]
      iintro ⟨⟨⟨%x, %hx, Hs⟩, Hrest, Hr⟩, Ho, ⟨%d0, H0⟩, ⟨%d1, H1⟩, ⟨%d2, H2⟩⟩
      have hE := acc_next1 V c t x hx
      rw [if_neg h0] at hE
      iapply ((kernelRun1_C c (grid1.coords t) _ _ _ _ _ _ _ _ (fun h => h0 ((hcond1_0 t).mp h)) ((hcond1_1 t).mpr h1)
        (iblk1 V c 0 t) (iblk1 V c 1 t) ((dat1 V c).before 2 t d2) x (accAfter1 V c t.val t.isLt) hE) Set.univ _)
      isplitl [H0]; · iexact H0
      isplitl [H1]; · iexact H1
      isplitl [H2]; · iexists _; iexact H2
      isplitl [Hs]; · iexact Hs
      iintro ⟨H0, H1, H2, Hs⟩
      isplitl [Hs Hrest Hr]
      · isplitl [Hs]
        · iexists _; isplitr; swap; · iexact Hs
          ipureintro; intro _
          show accAfter1 V c t.val t.isLt = accAt1 V c (t.val + 1 - 1)
          rw [Nat.add_sub_cancel, accAt1_of_lt V c t.val t.isLt]
        isplitl [Hrest]; · iexact Hrest
        iexact Hr
      isplitl [Ho]; · iexact Ho
      isplitl [H0]; · iexact H0
      isplitl [H1]; · iexact H1
      iexact H2
    · rw [leaves1_2_idle V c t h1]
      iintro ⟨⟨⟨%x, %hx, Hs⟩, Hrest, Hr⟩, Ho, ⟨%d0, H0⟩, ⟨%d1, H1⟩, ⟨%d2, H2⟩⟩
      have hE := acc_next1 V c t x hx
      rw [if_neg h0] at hE
      iapply ((kernelRun1_B c (grid1.coords t) _ _ _ _ _ _ _ _ (fun h => h0 ((hcond1_0 t).mp h)) (fun h => h1 ((hcond1_1 t).mp h))
        (iblk1 V c 0 t) (iblk1 V c 1 t) ((dat1 V c).before 2 t d2) x (accAfter1 V c t.val t.isLt) hE) Set.univ _)
      isplitl [H0]; · iexact H0
      isplitl [H1]; · iexact H1
      isplitl [H2]; · iexact H2
      isplitl [Hs]; · iexact Hs
      iintro ⟨H0, H1, H2, Hs⟩
      isplitl [Hs Hrest Hr]
      · isplitl [Hs]
        · iexists _; isplitr; swap; · iexact Hs
          ipureintro; intro _
          show accAfter1 V c t.val t.isLt = accAt1 V c (t.val + 1 - 1)
          rw [Nat.add_sub_cancel, accAt1_of_lt V c t.val t.isLt]
        isplitl [Hrest]; · iexact Hrest
        iexact Hr
      isplitl [Ho]; · iexact Ho
      isplitl [H0]; · iexact H0
      isplitl [H1]; · iexact H1
      iexists d2; iexact H2

theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.IReg2.lean ====
import proofs.«426456_j87411174408700_1_alg».proof.Proof.LaunchKernelIdeal
import proofs.«426456_j87411174408700_1_alg».proof.Proof.Gen.KernelIdeal.Skeleton
import proofs.«426456_j87411174408700_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1024x232 := Rect.unit (s := S1024x232) ![0, 0] S1024x232.size inb_S1024x232_S1024x232_0_0
abbrev r2_1 : Rect S1024x232 := Rect.unit (s := S1024x232) ![0, 0] S1024x232.size inb_S1024x232_S1024x232_0_0
abbrev r2_2 : Rect S232x256 := Rect.unit (s := S232x256) ![0, 0] S232x256.size inb_S232x256_S232x256_0_0
abbrev r2_3 : Rect S232x256 := Rect.unit (s := S232x256) ![0, 0] S232x256.size inb_S232x256_S232x256_0_0
abbrev r2_4 : Rect S1x256 := Rect.unit (s := S1x256) ![0, 0] S1x256.size inb_S1x256_S1x256_0_0
abbrev r2_5 : Rect S1024x256 := Rect.unit (s := S1024x256) ![0, 0] S1024x256.size inb_S1024x256_S1024x256_0_0

def out2_5 (x0 : Vec F S1024x232 .f32) (x1 : Vec F S1024x232 .f32) (x2 : Vec F S232x256 .f32) (x3 : Vec F S232x256 .f32) (x4 : Vec F S1x256 .f32) : Vec F S1024x256 .f32 :=
  View.canon [⟨r2_5, k2_pay1 (View.ld x0 r2_0) (View.ld x1 r2_1) (View.ld x2 r2_2) (View.ld x3 r2_3) (View.ld x4 r2_4)⟩]

theorem cover2_5 (p0 : Vec F S1024x256 .f32) (y : S1024x256.Idx) :
    ∃ pc ∈ ([⟨r2_5, p0⟩] : List (View.Piece (Elt F) S1024x256 .f32)), y ∈ pc.1.set :=
  View.cover_of_tiled [⟨r2_5, p0⟩] S1024x256.size (by rfl) y

set_option maxHeartbeats 1000000 in
theorem sound_kernel2 (c : Dev nD) (E : Set ℕ) (i : grid2.Coords) (arg0 : Memref sig .tc .vmem S1024x232 .f32) (harg0 : arg0.IsWhole) (arg1 : Memref sig .tc .vmem S1024x232 .f32) (harg1 : arg1.IsWhole) (arg2 : Memref sig .tc .vmem S232x256 .f32) (harg2 : arg2.IsWhole) (arg3 : Memref sig .tc .vmem S232x256 .f32) (harg3 : arg3.IsWhole) (arg4 : Memref sig .tc .vmem S1x256 .f32) (harg4 : arg4.IsWhole) (arg5 : Memref sig .tc .vmem S1024x256 .f32) (harg5 : arg5.IsWhole)
    (x0 : Vec F S1024x232 .f32) (x1 : Vec F S1024x232 .f32) (x2 : Vec F S232x256 .f32) (x3 : Vec F S232x256 .f32) (x4 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2__combine_kernel i arg0 harg0 arg1 harg1 arg2 harg2 arg3 harg3 arg4 harg4 arg5 harg5) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KernelIdeal.Gen
-- ==== Proof.IDef3.lean ====
import proofs.«426456_j87411174408700_1_alg».proof.Proof.LaunchKernelIdeal
import proofs.«426456_j87411174408700_1_alg».proof.Proof.Gen.KernelIdeal.Skeleton
import proofs.«426456_j87411174408700_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def accAfter3 (c : Dev nD) : (n : Nat) → (h : n < cfg3.N) → Vec F S1024x256 .f32
  | 0, h => k3_pay2 (k3_pay1 (F := F)) (iblk3 V c 0 ⟨0, h⟩) (iblk3 V c 1 ⟨0, h⟩)
  | n + 1, h => k3_pay2 (if (n + 1) % 4 = 0 then k3_pay1 (F := F) else accAfter3 c n (Nat.lt_of_succ_lt h))
      (iblk3 V c 0 ⟨n + 1, h⟩) (iblk3 V c 1 ⟨n + 1, h⟩)

def accIn3 (c : Dev nD) (n : Nat) (h : n < cfg3.N) : Vec F S1024x256 .f32 :=
  if n % 4 = 0 then k3_pay1 (F := F) else
    match n, h with
    | 0, _ => k3_pay1 (F := F)
    | n + 1, h => accAfter3 V c n (Nat.lt_of_succ_lt h)

end Cert.KernelIdeal.Gen

end
-- ==== Proof.IReg3.lean ====
import proofs.«426456_j87411174408700_1_alg».proof.Proof.IDef3
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def k3_cond1 (i : grid3.Coords) : BitVec 1 :=
  let arg1 : BitVec 32 := BitVec.ofNat 32 (i 1).val
  let v0 : BitVec 1 := Scalar.cmpi .eq arg1 0#32
  let v1 : BitVec 32 := Scalar.extui v0
  let v2 : BitVec 1 := Scalar.cmpi .ne v1 0#32
  v2

abbrev cond3_0 (i : grid3.Coords) : Prop := k3_cond1 i = 1#1

theorem hcond3_0 : ∀ t : Fin cfg3.N, cond3_0 (grid3.coords t) ↔ t.val % 4 = 0 :=
  (by decide +kernel : ∀ t : Fin grid3.N, cond3_0 (grid3.coords t) ↔ t.val % 4 = 0)

abbrev cond3_1 (i : grid3.Coords) : Prop := k3_cond2 i = 1#1

theorem hcond3_1 : ∀ t : Fin cfg3.N, cond3_1 (grid3.coords t) ↔ t.val % 4 = 3 :=
  (by decide +kernel : ∀ t : Fin grid3.N, cond3_1 (grid3.coords t) ↔ t.val % 4 = 3)

theorem liveAt3_0 : ∀ t : Fin cfg3.N, cfg3.idle 0 (grid3.coords t) = false := by decide +kernel
theorem liveAt3_1 : ∀ t : Fin cfg3.N, cfg3.idle 1 (grid3.coords t) = false := by decide +kernel

theorem idleAt3_2 : ∀ t : Fin cfg3.N, cfg3.idle 2 (grid3.coords t) = true ↔ t.val % 4 ≠ 3 :=
  (by decide +kernel : ∀ t : Fin grid3.N, idle3 2 (grid3.coords t) = true ↔ t.val % 4 ≠ 3)

theorem hzR3 : (![0, 0] : Fin 2 → Nat) = fun _ => 0 := funext fun a => by fin_cases a <;> rfl

theorem coverR3 (p : Vec F S1024x256 .f32) (y : S1024x256.Idx) :
    ∃ pc ∈ ([⟨Rect.unit (s := S1024x256) ![0, 0] S1024x256.size inb_S1024x256_S1024x256_0_0, p⟩] : List (View.Piece (Elt F) S1024x256 .f32)), y ∈ pc.1.set :=
  ⟨_, List.mem_singleton_self _, View.mem_set_unit_zero hzR3 inb_S1024x256_S1024x256_0_0 y⟩

set_option maxHeartbeats 1000000 in
theorem kernelRun3_A (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole)
    (hc0 : cond3_0 i) (hc1 : ¬cond3_1 i)
    (x0 : Vec F S1024x1024 .bf16) (x1 : Vec F S1024x256 .bf16) (y : Vec F S1024x256 .f32) (x : Vec F S1024x256 .f32)
    (z : Vec F S1024x256 .f32) (hz : k3_pay2 (k3_pay1 (F := F)) x0 x1 = z) :
      ∀ (E : Set ℕ) (K : PUnit → sProp 𝕄),
        iprop(owns (c : Thread nD τ) arg2 fullShare x0 ∗ owns (c : Thread nD τ) arg3 fullShare x1 ∗ owns (c : Thread nD τ) arg4 fullShare y ∗ owns (c : Thread nD τ) arg5 fullShare x
            ∗ (iprop(owns (c : Thread nD τ) arg2 fullShare x0 ∗ owns (c : Thread nD τ) arg3 fullShare x1 ∗ owns (c : Thread nD τ) arg4 fullShare y ∗ owns (c : Thread nD τ) arg5 fullShare z) -∗ K ⟨⟩))
          ⊢ wp frame (wpE (defs₀ (F := F)) Variants.none c none) E (cc3__agg_kernel i arg2 harg2 arg3 harg3 arg4 harg4 arg5 harg5) K := by
    intro E K
    subst hz
    simp only [cc3__agg_kernel_eq_skeleton]; unfold cc3__agg_kernel_skel
    unfold owns
    iintro ⟨⟨%f0, %hf0, H0⟩, ⟨%f1, %hf1, H1⟩, ⟨%f4, %hf4, H4⟩, ⟨%f5, -, H5⟩, Hk⟩
    obtain rfl := harg2.eq_unread hf0
    obtain rfl := harg3.eq_unread hf1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; isplitr; swap; · iexact H5
    ipureintro
    rw [View.read_writes_eq_canon _ _ _ (fun y => ⟨_, List.mem_cons_self, View.mem_set_unit_zero hzR3 inb_S1024x256_S1024x256_0_0 y⟩)]
    sl_unfold_words
    rw [View.canon_cons_unit_zero (S := S1024x256) hzR3, View.readCov_unit_zero (S := S1024x256) _ hzR3]
    simp only [View.readAt_eq_ld, harg2.read_unread, harg3.read_unread, harg5.read_unread, View.ld_unit_zero (S := S1024x256) hzR3, View.ld_unit_zero (S := S1024x1024) hzR3]

set_option maxHeartbeats 1000000 in
theorem kernelRun3_B (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole)
    (hc0 : ¬cond3_0 i) (hc1 : ¬cond3_1 i)
    (x0 : Vec F S1024x1024 .bf16) (x1 : Vec F S1024x256 .bf16) (y : Vec F S1024x256 .f32) (x : Vec F S1024x256 .f32)
    (z : Vec F S1024x256 .f32) (hz : k3_pay2 x x0 x1 = z) :
      ∀ (E : Set ℕ) (K : PUnit → sProp 𝕄),
        iprop(owns (c : Thread nD τ) arg2 fullShare x0 ∗ owns (c : Thread nD τ) arg3 fullShare x1 ∗ owns (c : Thread nD τ) arg4 fullShare y ∗ owns (c : Thread nD τ) arg5 fullShare x
            ∗ (iprop(owns (c : Thread nD τ) arg2 fullShare x0 ∗ owns (c : Thread nD τ) arg3 fullShare x1 ∗ owns (c : Thread nD τ) arg4 fullShare y ∗ owns (c : Thread nD τ) arg5 fullShare z) -∗ K ⟨⟩))
          ⊢ wp frame (wpE (defs₀ (F := F)) Variants.none c none) E (cc3__agg_kernel i arg2 harg2 arg3 harg3 arg4 harg4 arg5 harg5) K := by
    intro E K
    subst hz
    simp only [cc3__agg_kernel_eq_skeleton]; unfold cc3__agg_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0
    obtain rfl := harg3.eq_unread hf1
    obtain rfl := harg5.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact hf4
      iexact H4
    iexists _; isplitr; swap; · iexact H5
    ipureintro
    rw [View.read_writes_eq_canon _ _ _ (coverR3 _)]
    sl_unfold_words
    rw [View.canon_unit_zero hzR3]
    simp only [View.readAt_eq_ld, harg2.read_unread, harg3.read_unread, harg5.read_unread, View.ld_unit_zero (S := S1024x256) hzR3, View.ld_unit_zero (S := S1024x1024) hzR3]

set_option maxHeartbeats 1000000 in
theorem kernelRun3_C (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole)
    (hc0 : ¬cond3_0 i) (hc1 : cond3_1 i)
    (x0 : Vec F S1024x1024 .bf16) (x1 : Vec F S1024x256 .bf16) (y : Vec F S1024x256 .f32) (x : Vec F S1024x256 .f32)
    (z : Vec F S1024x256 .f32) (hz : k3_pay2 x x0 x1 = z) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare x
            ∗ (iprop(owns (c : Thread nD τ) arg2 fullShare x0 ∗ owns (c : Thread nD τ) arg3 fullShare x1 ∗ owns (c : Thread nD τ) arg4 fullShare z ∗ owns (c : Thread nD τ) arg5 fullShare z) -∗ K ⟨⟩))
          ⊢ wp frame (wpE (defs₀ (F := F)) Variants.none c none) E (cc3__agg_kernel i arg2 harg2 arg3 harg3 arg4 harg4 arg5 harg5) K := by
    intro E K
    subst hz
    simp only [cc3__agg_kernel_eq_skeleton]; unfold cc3__agg_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0
    obtain rfl := harg3.eq_unread hf1
    obtain rfl := harg5.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; swap; · iexact H4
      ipureintro
      rw [View.read_writes_eq_canon _ _ _ (coverR3 _)]
      sl_unfold_words
      rw [View.canon_unit_zero hzR3, View.readCov_unit_zero (S := S1024x256) _ hzR3]
      simp only [View.readAt_eq_ld, harg2.read_unread, harg3.read_unread, harg5.read_unread, View.ld_unit_zero (S := S1024x256) hzR3, View.ld_unit_zero (S := S1024x1024) hzR3]
    iexists _; isplitr; swap; · iexact H5
    ipureintro
    sl_unfold_words
    rw [View.read_writes_eq_canon _ _ _ (coverR3 _), View.canon_unit_zero hzR3]
    simp only [View.readAt_eq_ld, harg2.read_unread, harg3.read_unread, harg5.read_unread, View.ld_unit_zero (S := S1024x256) hzR3, View.ld_unit_zero (S := S1024x1024) hzR3]

def accAt3 (c : Dev nD) (n : Nat) : Vec F S1024x256 .f32 :=
  if h : n < cfg3.N then accAfter3 V c n h else k3_pay1 (F := F)

theorem accAt3_of_lt (c : Dev nD) (n : Nat) (h : n < cfg3.N) : accAt3 V c n = accAfter3 V c n h := dif_pos h

theorem accAfter3_step (c : Dev nD) : ∀ (n : Nat) (h : n < cfg3.N), accAfter3 V c n h
      = k3_pay2 (if n % 4 = 0 then k3_pay1 (F := F) else accAt3 V c (n - 1)) (iblk3 V c 0 ⟨n, h⟩) (iblk3 V c 1 ⟨n, h⟩)
  | 0, h => by rw [accAfter3, if_pos (by decide)]
  | n + 1, h => by rw [accAfter3, Nat.add_sub_cancel, accAt3_of_lt V c n (Nat.lt_of_succ_lt h)]

theorem acc_next3 (c : Dev nD) (t : Fin cfg3.N) (x : Vec F S1024x256 .f32) (hx : t.val % 4 ≠ 0 → x = accAt3 V c (t.val - 1)) :
    k3_pay2 (if t.val % 4 = 0 then k3_pay1 (F := F) else x) (iblk3 V c 0 t) (iblk3 V c 1 t) = accAfter3 V c t.val t.isLt := by
  rw [accAfter3_step V c t.val t.isLt]
  by_cases h : t.val % 4 = 0
  · rw [if_pos h, if_pos h]
  · rw [if_neg h, if_neg h, hx h]

def Phi3 (c : Dev nD) (t : Fin (cfg3.N + 1)) : sProp 𝕄 :=
  iprop((∃ x : Vec F S1024x256 .f32, ⌜t.val % 4 ≠ 0 → x = accAt3 V c (t.val - 1)⌝
        ∗ owns (c : Thread nD τ) (Memref.whole cc3_scratch0 : Memref sig .tc .vmem S1024x256 .f32) fullShare x)
    ∗ Pipeline.scopedRestBut (Ix := Unit) (Name := ℕ) (U := UR sig nD τ) (Lvl := ℕ) (Val := Elt F) spec3 c [cc3_scratch0]
    ∗ ∃ r, prngReg c r)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => accAfter3 V c t.val t.isLt
  Φ t := Phi3 V c t
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = accAfter3 V c t.val t.isLt := by dsimp only [dat3]

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

theorem Phi3_in (c : Dev nD) : Pipeline.ΦA (U := UR sig nD τ) spec3 c ⊢ ((dat3 V c).Φ 0 : sProp 𝕄) := by
  show Pipeline.ΦA (U := UR sig nD τ) spec3 c ⊢ Phi3 V c 0
  unfold Pipeline.ΦA Phi3
  rw [scopedRest3_split]
  iintro ⟨⟨⟨%f, Hf⟩, Hrest⟩, Hr⟩
  isplitl [Hf]
  · iexists f; isplitr
    · ipureintro; intro h; exact absurd rfl h
    ihave Hf' := (Entails.of_eq (owns_whole (c : Thread nD τ) cc3_scratch0 fullShare f).symm) $$ Hf
    iexact Hf'
  isplitl [Hrest]; · iexact Hrest
  iexact Hr

theorem Phi3_out (c : Dev nD) : ((dat3 V c).Φ (Fin.last _) : sProp 𝕄) ⊢ Pipeline.ΦA (U := UR sig nD τ) spec3 c := by
  show Phi3 V c (Fin.last _) ⊢ Pipeline.ΦA (U := UR sig nD τ) spec3 c
  unfold Pipeline.ΦA Phi3
  rw [scopedRest3_split]
  iintro ⟨⟨%x, -, Hs⟩, Hrest, Hr⟩
  isplitr [Hr]; swap; · iexact Hr
  isplitl [Hs]; swap; · iexact Hrest
  ihave Hs' := (Entails.of_eq (owns_whole (c : Thread nD τ) cc3_scratch0 fullShare x)) $$ Hs
  iexists x; iexact Hs'

theorem leaves3_2_idle (c : Dev nD) (t : Fin cfg3.N) (h : t.val % 4 ≠ 3) :
    (dat3 V c).leavesExact 2 t = iprop(∃ d, owns (c : Thread nD τ) (st3_2 t) fullShare ((dat3 V c).before 2 t d)) :=
  (dat3 V c).leavesExact_idle 2 t ((idleAt3_2 t).mpr h) (Bool.eq_false_iff.mpr fun hf => h ((flush3_2 t).mp hf))

theorem leaves3_2_live (c : Dev nD) (t : Fin cfg3.N) (h : t.val % 4 = 3) :
    (dat3 V c).leavesExact 2 t = owns (c : Thread nD τ) (st3_2 t) fullShare ((dat3 V c).after 2 t) := by
  unfold Dat.leavesExact
  rw [show cfg3.idle 2 (grid3.coords t) = false from Bool.eq_false_iff.mpr fun hi => (idleAt3_2 t).mp hi h]

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 1600000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = Phi3 V c t.succ from rfl, show (dat3 V c).Φ t.castSucc = Phi3 V c t.castSucc from rfl,
    show (dat3 V c).owesAt () t.succ = (dat3 V c).owesAt () t.castSucc from rfl,
    show (dat3 V c).leavesExact 0 t = owns (c : Thread nD τ) (st3_0 t) fullShare ((dat3 V c).after 0 t) from by
      unfold Dat.leavesExact; rw [liveAt3_0 t],
    show (dat3 V c).leavesExact 1 t = owns (c : Thread nD τ) (st3_1 t) fullShare ((dat3 V c).after 1 t) from by
      unfold Dat.leavesExact; rw [liveAt3_1 t],
    after3_0, after3_1]
  unfold Phi3
  by_cases h0 : t.val % 4 = 0
  · have h1 : t.val % 4 ≠ 3 := by omega
    rw [leaves3_2_idle V c t h1]
    iintro ⟨⟨⟨%x, %hx, Hs⟩, Hrest, Hr⟩, Ho, ⟨%d0, H0⟩, ⟨%d1, H1⟩, ⟨%d2, H2⟩⟩
    have hE := acc_next3 V c t x hx
    rw [if_pos h0] at hE
    iapply ((kernelRun3_A c (grid3.coords t) _ _ _ _ _ _ _ _ ((hcond3_0 t).mpr h0) (fun h => h1 ((hcond3_1 t).mp h))
      (iblk3 V c 0 t) (iblk3 V c 1 t) ((dat3 V c).before 2 t d2) x (accAfter3 V c t.val t.isLt) hE) Set.univ _)
    isplitl [H0]; · iexact H0
    isplitl [H1]; · iexact H1
    isplitl [H2]; · iexact H2
    isplitl [Hs]; · iexact Hs
    iintro ⟨H0, H1, H2, Hs⟩
    isplitl [Hs Hrest Hr]
    · isplitl [Hs]
      · iexists _; isplitr; swap; · iexact Hs
        ipureintro; intro _
        show accAfter3 V c t.val t.isLt = accAt3 V c (t.val + 1 - 1)
        rw [Nat.add_sub_cancel, accAt3_of_lt V c t.val t.isLt]
      isplitl [Hrest]; · iexact Hrest
      iexact Hr
    isplitl [Ho]; · iexact Ho
    isplitl [H0]; · iexact H0
    isplitl [H1]; · iexact H1
    iexists d2; iexact H2
  · by_cases h1 : t.val % 4 = 3
    · rw [leaves3_2_live V c t h1, after3_2]
      iintro ⟨⟨⟨%x, %hx, Hs⟩, Hrest, Hr⟩, Ho, ⟨%d0, H0⟩, ⟨%d1, H1⟩, ⟨%d2, H2⟩⟩
      have hE := acc_next3 V c t x hx
      rw [if_neg h0] at hE
      iapply ((kernelRun3_C c (grid3.coords t) _ _ _ _ _ _ _ _ (fun h => h0 ((hcond3_0 t).mp h)) ((hcond3_1 t).mpr h1)
        (iblk3 V c 0 t) (iblk3 V c 1 t) ((dat3 V c).before 2 t d2) x (accAfter3 V c t.val t.isLt) hE) Set.univ _)
      isplitl [H0]; · iexact H0
      isplitl [H1]; · iexact H1
      isplitl [H2]; · iexists _; iexact H2
      isplitl [Hs]; · iexact Hs
      iintro ⟨H0, H1, H2, Hs⟩
      isplitl [Hs Hrest Hr]
      · isplitl [Hs]
        · iexists _; isplitr; swap; · iexact Hs
          ipureintro; intro _
          show accAfter3 V c t.val t.isLt = accAt3 V c (t.val + 1 - 1)
          rw [Nat.add_sub_cancel, accAt3_of_lt V c t.val t.isLt]
        isplitl [Hrest]; · iexact Hrest
        iexact Hr
      isplitl [Ho]; · iexact Ho
      isplitl [H0]; · iexact H0
      isplitl [H1]; · iexact H1
      iexact H2
    · rw [leaves3_2_idle V c t h1]
      iintro ⟨⟨⟨%x, %hx, Hs⟩, Hrest, Hr⟩, Ho, ⟨%d0, H0⟩, ⟨%d1, H1⟩, ⟨%d2, H2⟩⟩
      have hE := acc_next3 V c t x hx
      rw [if_neg h0] at hE
      iapply ((kernelRun3_B c (grid3.coords t) _ _ _ _ _ _ _ _ (fun h => h0 ((hcond3_0 t).mp h)) (fun h => h1 ((hcond3_1 t).mp h))
        (iblk3 V c 0 t) (iblk3 V c 1 t) ((dat3 V c).before 2 t d2) x (accAfter3 V c t.val t.isLt) hE) Set.univ _)
      isplitl [H0]; · iexact H0
      isplitl [H1]; · iexact H1
      isplitl [H2]; · iexact H2
      isplitl [Hs]; · iexact Hs
      iintro ⟨H0, H1, H2, Hs⟩
      isplitl [Hs Hrest Hr]
      · isplitl [Hs]
        · iexists _; isplitr; swap; · iexact Hs
          ipureintro; intro _
          show accAfter3 V c t.val t.isLt = accAt3 V c (t.val + 1 - 1)
          rw [Nat.add_sub_cancel, accAt3_of_lt V c t.val t.isLt]
        isplitl [Hrest]; · iexact Hrest
        iexact Hr
      isplitl [Ho]; · iexact Ho
      isplitl [H0]; · iexact H0
      isplitl [H1]; · iexact H1
      iexists d2; iexact H2

theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.IReg4.lean ====
import proofs.«426456_j87411174408700_1_alg».proof.Proof.LaunchKernelIdeal
import proofs.«426456_j87411174408700_1_alg».proof.Proof.Gen.KernelIdeal.Skeleton
import proofs.«426456_j87411174408700_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S1024x256 := Rect.unit (s := S1024x256) ![0, 0] S1024x256.size inb_S1024x256_S1024x256_0_0
abbrev r4_1 : Rect S1024x256 := Rect.unit (s := S1024x256) ![0, 0] S1024x256.size inb_S1024x256_S1024x256_0_0
abbrev r4_2 : Rect S256x232 := Rect.unit (s := S256x232) ![0, 0] S256x232.size inb_S256x232_S256x232_0_0
abbrev r4_3 : Rect S256x232 := Rect.unit (s := S256x232) ![0, 0] S256x232.size inb_S256x232_S256x232_0_0
abbrev r4_4 : Rect S1x232 := Rect.unit (s := S1x232) ![0, 0] S1x232.size inb_S1x232_S1x232_0_0
abbrev r4_5 : Rect S1024x232 := Rect.unit (s := S1024x232) ![0, 0] S1024x232.size inb_S1024x232_S1024x232_0_0

def out4_5 (x0 : Vec F S1024x256 .f32) (x1 : Vec F S1024x256 .f32) (x2 : Vec F S256x232 .f32) (x3 : Vec F S256x232 .f32) (x4 : Vec F S1x232 .f32) : Vec F S1024x232 .f32 :=
  View.canon [⟨r4_5, k4_pay1 (View.ld x0 r4_0) (View.ld x1 r4_1) (View.ld x2 r4_2) (View.ld x3 r4_3) (View.ld x4 r4_4)⟩]

theorem cover4_5 (p0 : Vec F S1024x232 .f32) (y : S1024x232.Idx) :
    ∃ pc ∈ ([⟨r4_5, p0⟩] : List (View.Piece (Elt F) S1024x232 .f32)), y ∈ pc.1.set :=
  View.cover_of_tiled [⟨r4_5, p0⟩] S1024x232.size (by rfl) y

set_option maxHeartbeats 1000000 in
theorem sound_kernel4 (c : Dev nD) (E : Set ℕ) (i : grid4.Coords) (arg0 : Memref sig .tc .vmem S1024x256 .f32) (harg0 : arg0.IsWhole) (arg1 : Memref sig .tc .vmem S1024x256 .f32) (harg1 : arg1.IsWhole) (arg2 : Memref sig .tc .vmem S256x232 .f32) (harg2 : arg2.IsWhole) (arg3 : Memref sig .tc .vmem S256x232 .f32) (harg3 : arg3.IsWhole) (arg4 : Memref sig .tc .vmem S1x232 .f32) (harg4 : arg4.IsWhole) (arg5 : Memref sig .tc .vmem S1024x232 .f32) (harg5 : arg5.IsWhole)
    (x0 : Vec F S1024x256 .f32) (x1 : Vec F S1024x256 .f32) (x2 : Vec F S256x232 .f32) (x3 : Vec F S256x232 .f32) (x4 : Vec F S1x232 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out4_5 x0 x1 x2 x3 x4)) -∗ K ⟨⟩))
      ⊢ wp frame (wpE (defs₀ (F := F)) Variants.none c none) E (cc4__combine_kernel i arg0 harg0 arg1 harg1 arg2 harg2 arg3 harg3 arg4 harg4 arg5 harg5) K := by
  simp only [cc4__combine_kernel_eq_skeleton]; unfold cc4__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

end Cert.KernelIdeal.Gen
-- ==== Proof.IReg5.lean ====
import proofs.«426456_j87411174408700_1_alg».proof.Proof.LaunchKernelIdeal
import proofs.«426456_j87411174408700_1_alg».proof.Proof.Gen.KernelIdeal.Skeleton
import proofs.«426456_j87411174408700_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S1024x768 := Rect.unit (s := S1024x768) ![0, 0] S1024x768.size inb_S1024x768_S1024x768_0_0
abbrev r5_1 : Rect S768x232 := Rect.unit (s := S768x232) ![0, 0] S768x232.size inb_S768x232_S768x232_0_0
abbrev r5_2 : Rect S1x232 := Rect.unit (s := S1x232) ![0, 0] S1x232.size inb_S1x232_S1x232_0_0
abbrev r5_3 : Rect S1024x232 := Rect.unit (s := S1024x232) ![0, 0] S1024x232.size inb_S1024x232_S1024x232_0_0

def out5_3 (x0 : Vec F S1024x768 .f32) (x1 : Vec F S768x232 .f32) (x2 : Vec F S1x232 .f32) : Vec F S1024x232 .f32 :=
  View.canon [⟨r5_3, k5_pay1 (View.ld x0 r5_0) (View.ld x1 r5_1) (View.ld x2 r5_2)⟩]

theorem cover5_3 (p0 : Vec F S1024x232 .f32) (y : S1024x232.Idx) :
    ∃ pc ∈ ([⟨r5_3, p0⟩] : List (View.Piece (Elt F) S1024x232 .f32)), y ∈ pc.1.set :=
  View.cover_of_tiled [⟨r5_3, p0⟩] S1024x232.size (by rfl) y

set_option maxHeartbeats 1000000 in
theorem sound_kernel5 (c : Dev nD) (E : Set ℕ) (i : grid5.Coords) (arg0 : Memref sig .tc .vmem S1024x768 .f32) (harg0 : arg0.IsWhole) (arg1 : Memref sig .tc .vmem S768x232 .f32) (harg1 : arg1.IsWhole) (arg2 : Memref sig .tc .vmem S1x232 .f32) (harg2 : arg2.IsWhole) (arg3 : Memref sig .tc .vmem S1024x232 .f32) (harg3 : arg3.IsWhole)
    (x0 : Vec F S1024x768 .f32) (x1 : Vec F S768x232 .f32) (x2 : Vec F S1x232 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out5_3 x0 x1 x2)) -∗ K ⟨⟩))
      ⊢ wp frame (wpE (defs₀ (F := F)) Variants.none c none) E (cc5__proj_kernel i arg0 harg0 arg1 harg1 arg2 harg2 arg3 harg3) K := by
  simp only [cc5__proj_kernel_eq_skeleton]; unfold cc5__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

end Cert.KernelIdeal.Gen
-- ==== Proof.IReg6.lean ====
import proofs.«426456_j87411174408700_1_alg».proof.Proof.LaunchKernelIdeal
import proofs.«426456_j87411174408700_1_alg».proof.Proof.Gen.KernelIdeal.Skeleton
import proofs.«426456_j87411174408700_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S2048x232 := Rect.unit (s := S2048x232) ![0, 0] S2048x232.size inb_S2048x232_S2048x232_0_0
abbrev r6_2 : Rect S232x2 := Rect.unit (s := S232x2) ![0, 0] S232x2.size inb_S232x2_S232x2_0_0
abbrev r6_3 : Rect S1x2 := Rect.unit (s := S1x2) ![0, 0] S1x2.size inb_S1x2_S1x2_0_0
abbrev r6_4 : Rect S2048x2 := Rect.unit (s := S2048x2) ![0, 0] S2048x2.size inb_S2048x2_S2048x2_0_0

def out6_4 (x0 : Vec F S2048x232 .f32) (x1 : Vec F S2048x232 .f32) (x2 : Vec F S232x2 .f32) (x3 : Vec F S1x2 .f32) : Vec F S2048x2 .f32 :=
  View.canon [⟨r6_4, k6_pay1 (View.ld x0 r6_0) (View.ld x1 r6_0) (View.ld x2 r6_2) (View.ld x3 r6_3)⟩]

theorem cover6_4 (p0 : Vec F S2048x2 .f32) (y : S2048x2.Idx) :
    ∃ pc ∈ ([⟨r6_4, p0⟩] : List (View.Piece (Elt F) S2048x2 .f32)), y ∈ pc.1.set :=
  View.cover_of_tiled [⟨r6_4, p0⟩] S2048x2.size (by rfl) y

set_option maxHeartbeats 1000000 in
theorem sound_kernel6 (c : Dev nD) (E : Set ℕ) (i : grid6.Coords)
    (arg1 : Memref sig .tc .vmem S2048x232 .f32) (harg1 : arg1.IsWhole) (arg2 : Memref sig .tc .vmem S2048x232 .f32) (harg2 : arg2.IsWhole)
    (arg3 : Memref sig .tc .vmem S232x2 .f32) (harg3 : arg3.IsWhole) (arg4 : Memref sig .tc .vmem S1x2 .f32) (harg4 : arg4.IsWhole)
    (arg5 : Memref sig .tc .vmem S2048x2 .f32) (harg5 : arg5.IsWhole)
    (x0 : Vec F S2048x232 .f32) (x1 : Vec F S2048x232 .f32) (x2 : Vec F S232x2 .f32) (x3 : Vec F S1x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out6_4 x0 x1 x2 x3)) -∗ K ⟨⟩))
      ⊢ wp frame (wpE (defs₀ (F := F)) Variants.none c none) E (cc6__cls_kernel i arg1 harg1 arg2 harg2 arg3 harg3 arg4 harg4 arg5 harg5) K := by
  simp only [cc6__cls_kernel_eq_skeleton]; unfold cc6__cls_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6_4 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) :
    (dat6 V c).after 4 t = out6_4 (iblk6 V c 0 t) (iblk6 V c 1 t) (iblk6 V c 2 t) (iblk6 V c 3 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ (grid6.coords t) _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation6 (c : Dev nD) : BodyObligation (dat6 (F := F) V c) (defs₀ (F := F)) Variants.none () Set.univ := fun t => by
  rw [bigSep_W6, bigSep_W6]
  exact sound_body6 V c t

end Cert.KernelIdeal.Gen

end
-- ==== Proof.IRun.lean ====
import proofs.«426456_j87411174408700_1_alg».proof.Proof.RegionsKernelIdeal
import proofs.«426456_j87411174408700_1_alg».proof.Proof.IReg0
import proofs.«426456_j87411174408700_1_alg».proof.Proof.IReg1
import proofs.«426456_j87411174408700_1_alg».proof.Proof.IReg2
import proofs.«426456_j87411174408700_1_alg».proof.Proof.IReg3
import proofs.«426456_j87411174408700_1_alg».proof.Proof.IReg4
import proofs.«426456_j87411174408700_1_alg».proof.Proof.IReg5
import proofs.«426456_j87411174408700_1_alg».proof.Proof.IReg6

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev B0 (c : Dev nD) : Valuation τ sig (Elt F) := fun b => m (c, b)

abbrev B1 (c : Dev nD) : Valuation τ sig (Elt F) := StableHlo.after hostOps0 (B0 m c)

abbrev R1 : (c : Dev nD) → (b : Ref sig .tc) → Buf (Elt F) ((c : Thread nD τ).loc b) := fun c b => B1 m c b

def o2 (c : Dev nD) : Buf (Elt F) ((c : Thread nD τ).loc main_v27) := (dat0 (R1 m) c).arrAt 3 cfg0.N

abbrev B2 (c : Dev nD) : Valuation τ sig (Elt F) := Function.update (B1 m c) main_v27 (o2 m c)
abbrev R2 : (c : Dev nD) → (b : Ref sig .tc) → Buf (Elt F) ((c : Thread nD τ).loc b) := fun c b => B2 m c b

theorem B2_out (c : Dev nD) : B2 m c main_v27 = o2 m c := by
  show Function.update (B1 m c) (Proc.devRef .tc main_v27 : DevRef τ sig) (o2 m c) (Proc.devRef .tc main_v27) = _
  rw [Function.update_self]

abbrev B3 (c : Dev nD) : Valuation τ sig (Elt F) := StableHlo.after hostOps1 (B2 m c)

abbrev R3 : (c : Dev nD) → (b : Ref sig .tc) → Buf (Elt F) ((c : Thread nD τ).loc b) := fun c b => B3 m c b

def o4 (c : Dev nD) : Buf (Elt F) ((c : Thread nD τ).loc main_v29) := (dat1 (R3 m) c).arrAt 2 cfg1.N

abbrev B4 (c : Dev nD) : Valuation τ sig (Elt F) := Function.update (B3 m c) main_v29 (o4 m c)
abbrev R4 : (c : Dev nD) → (b : Ref sig .tc) → Buf (Elt F) ((c : Thread nD τ).loc b) := fun c b => B4 m c b

theorem B4_out (c : Dev nD) : B4 m c main_v29 = o4 m c := by
  show Function.update (B3 m c) (Proc.devRef .tc main_v29 : DevRef τ sig) (o4 m c) (Proc.devRef .tc main_v29) = _
  rw [Function.update_self]

abbrev B5 (c : Dev nD) : Valuation τ sig (Elt F) := StableHlo.after hostOps2 (B4 m c)

abbrev R5 : (c : Dev nD) → (b : Ref sig .tc) → Buf (Elt F) ((c : Thread nD τ).loc b) := fun c b => B5 m c b

def o6 (c : Dev nD) : Buf (Elt F) ((c : Thread nD τ).loc main_v33) := (dat2 (R5 m) c).arrAt 5 cfg2.N

abbrev B6 (c : Dev nD) : Valuation τ sig (Elt F) := Function.update (B5 m c) main_v33 (o6 m c)
abbrev R6 : (c : Dev nD) → (b : Ref sig .tc) → Buf (Elt F) ((c : Thread nD τ).loc b) := fun c b => B6 m c b

theorem B6_out (c : Dev nD) : B6 m c main_v33 = o6 m c := by
  show Function.update (B5 m c) (Proc.devRef .tc main_v33 : DevRef τ sig) (o6 m c) (Proc.devRef .tc main_v33) = _
  rw [Function.update_self]

abbrev B7 (c : Dev nD) : Valuation τ sig (Elt F) := StableHlo.after hostOps3 (B6 m c)

abbrev R7 : (c : Dev nD) → (b : Ref sig .tc) → Buf (Elt F) ((c : Thread nD τ).loc b) := fun c b => B7 m c b

def o8 (c : Dev nD) : Buf (Elt F) ((c : Thread nD τ).loc main_v35) := (dat3 (R7 m) c).arrAt 2 cfg3.N

abbrev B8 (c : Dev nD) : Valuation τ sig (Elt F) := Function.update (B7 m c) main_v35 (o8 m c)
abbrev R8 : (c : Dev nD) → (b : Ref sig .tc) → Buf (Elt F) ((c : Thread nD τ).loc b) := fun c b => B8 m c b

theorem B8_out (c : Dev nD) : B8 m c main_v35 = o8 m c := by
  show Function.update (B7 m c) (Proc.devRef .tc main_v35 : DevRef τ sig) (o8 m c) (Proc.devRef .tc main_v35) = _
  rw [Function.update_self]

abbrev B9 (c : Dev nD) : Valuation τ sig (Elt F) := StableHlo.after hostOps4 (B8 m c)

abbrev R9 : (c : Dev nD) → (b : Ref sig .tc) → Buf (Elt F) ((c : Thread nD τ).loc b) := fun c b => B9 m c b

def o10 (c : Dev nD) : Buf (Elt F) ((c : Thread nD τ).loc main_v39) := (dat4 (R9 m) c).arrAt 5 cfg4.N

abbrev B10 (c : Dev nD) : Valuation τ sig (Elt F) := Function.update (B9 m c) main_v39 (o10 m c)
abbrev R10 : (c : Dev nD) → (b : Ref sig .tc) → Buf (Elt F) ((c : Thread nD τ).loc b) := fun c b => B10 m c b

theorem B10_out (c : Dev nD) : B10 m c main_v39 = o10 m c := by
  show Function.update (B9 m c) (Proc.devRef .tc main_v39 : DevRef τ sig) (o10 m c) (Proc.devRef .tc main_v39) = _
  rw [Function.update_self]

abbrev B11 (c : Dev nD) : Valuation τ sig (Elt F) := StableHlo.after hostOps5 (B10 m c)

abbrev R11 : (c : Dev nD) → (b : Ref sig .tc) → Buf (Elt F) ((c : Thread nD τ).loc b) := fun c b => B11 m c b

def o12 (c : Dev nD) : Buf (Elt F) ((c : Thread nD τ).loc main_v56) := (dat5 (R11 m) c).arrAt 3 cfg5.N

abbrev B12 (c : Dev nD) : Valuation τ sig (Elt F) := Function.update (B11 m c) main_v56 (o12 m c)
abbrev R12 : (c : Dev nD) → (b : Ref sig .tc) → Buf (Elt F) ((c : Thread nD τ).loc b) := fun c b => B12 m c b

theorem B12_out (c : Dev nD) : B12 m c main_v56 = o12 m c := by
  show Function.update (B11 m c) (Proc.devRef .tc main_v56 : DevRef τ sig) (o12 m c) (Proc.devRef .tc main_v56) = _
  rw [Function.update_self]

abbrev B13 (c : Dev nD) : Valuation τ sig (Elt F) := StableHlo.after hostOps6 (B12 m c)

abbrev R13 : (c : Dev nD) → (b : Ref sig .tc) → Buf (Elt F) ((c : Thread nD τ).loc b) := fun c b => B13 m c b

def o14 (c : Dev nD) : Buf (Elt F) ((c : Thread nD τ).loc main_v59) := (dat6 (R13 m) c).arrAt 4 cfg6.N

abbrev B14 (c : Dev nD) : Valuation τ sig (Elt F) := Function.update (B13 m c) main_v59 (o14 m c)
abbrev R14 : (c : Dev nD) → (b : Ref sig .tc) → Buf (Elt F) ((c : Thread nD τ).loc b) := fun c b => B14 m c b

theorem B14_out (c : Dev nD) : B14 m c main_v59 = o14 m c := by
  show Function.update (B13 m c) (Proc.devRef .tc main_v59 : DevRef τ sig) (o14 m c) (Proc.devRef .tc main_v59) = _
  rw [Function.update_self]

def outs : Outs (F := F) := fun j r c => match j with
  | 2 => B2 m c r
  | 4 => B4 m c r
  | 6 => B6 m c r
  | 8 => B8 m c r
  | 10 => B10 m c r
  | 12 => B12 m c r
  | 14 => B14 m c r
  | _ => B0 m c r

theorem V1_eq (c : Dev nD) : V1 m c = B1 m c := rfl
theorem V2_eq (c : Dev nD) : V2 m (outs m) c = B2 m c := by
  show Function.update (V1 m c) main_v27 (B2 m c main_v27) = _
  rw [V1_eq, B2_out]
theorem V3_eq (c : Dev nD) : V3 m (outs m) c = B3 m c := by
  show StableHlo.after hostOps1 (V2 m (outs m) c) = _
  rw [V2_eq]
theorem V4_eq (c : Dev nD) : V4 m (outs m) c = B4 m c := by
  show Function.update (V3 m (outs m) c) main_v29 (B4 m c main_v29) = _
  rw [V3_eq, B4_out]
theorem V5_eq (c : Dev nD) : V5 m (outs m) c = B5 m c := by
  show StableHlo.after hostOps2 (V4 m (outs m) c) = _
  rw [V4_eq]
theorem V6_eq (c : Dev nD) : V6 m (outs m) c = B6 m c := by
  show Function.update (V5 m (outs m) c) main_v33 (B6 m c main_v33) = _
  rw [V5_eq, B6_out]
theorem V7_eq (c : Dev nD) : V7 m (outs m) c = B7 m c := by
  show StableHlo.after hostOps3 (V6 m (outs m) c) = _
  rw [V6_eq]
theorem V8_eq (c : Dev nD) : V8 m (outs m) c = B8 m c := by
  show Function.update (V7 m (outs m) c) main_v35 (B8 m c main_v35) = _
  rw [V7_eq, B8_out]
theorem V9_eq (c : Dev nD) : V9 m (outs m) c = B9 m c := by
  show StableHlo.after hostOps4 (V8 m (outs m) c) = _
  rw [V8_eq]
theorem V10_eq (c : Dev nD) : V10 m (outs m) c = B10 m c := by
  show Function.update (V9 m (outs m) c) main_v39 (B10 m c main_v39) = _
  rw [V9_eq, B10_out]
theorem V11_eq (c : Dev nD) : V11 m (outs m) c = B11 m c := by
  show StableHlo.after hostOps5 (V10 m (outs m) c) = _
  rw [V10_eq]
theorem V12_eq (c : Dev nD) : V12 m (outs m) c = B12 m c := by
  show Function.update (V11 m (outs m) c) main_v56 (B12 m c main_v56) = _
  rw [V11_eq, B12_out]
theorem V13_eq (c : Dev nD) : V13 m (outs m) c = B13 m c := by
  show StableHlo.after hostOps6 (V12 m (outs m) c) = _
  rw [V12_eq]
theorem V14_eq (c : Dev nD) : V14 m (outs m) c = B14 m c := by
  show Function.update (V13 m (outs m) c) main_v59 (B14 m c main_v59) = _
  rw [V13_eq, B14_out]

theorem B1_of (c : Dev nD) (r : Ref sig .tc) (h : r ∉ hostOps0_W) : B1 m c r = B0 m c r :=
  StableHlo.after_of_writes_sub hostOps0 _ hostOps0_writes h
theorem B3_of (c : Dev nD) (r : Ref sig .tc) (h : r ∉ hostOps1_W) : B3 m c r = B2 m c r :=
  StableHlo.after_of_writes_sub hostOps1 _ hostOps1_writes h
theorem B5_of (c : Dev nD) (r : Ref sig .tc) (h : r ∉ hostOps2_W) : B5 m c r = B4 m c r :=
  StableHlo.after_of_writes_sub hostOps2 _ hostOps2_writes h
theorem B7_of (c : Dev nD) (r : Ref sig .tc) (h : r ∉ hostOps3_W) : B7 m c r = B6 m c r :=
  StableHlo.after_of_writes_sub hostOps3 _ hostOps3_writes h
theorem B9_of (c : Dev nD) (r : Ref sig .tc) (h : r ∉ hostOps4_W) : B9 m c r = B8 m c r :=
  StableHlo.after_of_writes_sub hostOps4 _ hostOps4_writes h
theorem B11_of (c : Dev nD) (r : Ref sig .tc) (h : r ∉ hostOps5_W) : B11 m c r = B10 m c r :=
  StableHlo.after_of_writes_sub hostOps5 _ hostOps5_writes h
theorem B13_of (c : Dev nD) (r : Ref sig .tc) (h : r ∉ hostOps6_W) : B13 m c r = B12 m c r :=
  StableHlo.after_of_writes_sub hostOps6 _ hostOps6_writes h

def pdats : (p : Fin 7) → (c : Dev nD) → Dat τ (Elt F) Unit ℕ (UR sig nD τ) ℕ (cfgs p) c
  | ⟨0, _⟩ => fun c => dat0 (R1 m) c
  | ⟨1, _⟩ => fun c => dat1 (R3 m) c
  | ⟨2, _⟩ => fun c => dat2 (R5 m) c
  | ⟨3, _⟩ => fun c => dat3 (R7 m) c
  | ⟨4, _⟩ => fun c => dat4 (R9 m) c
  | ⟨5, _⟩ => fun c => dat5 (R11 m) c
  | ⟨6, _⟩ => fun c => dat6 (R13 m) c

abbrev 𝒱₀ : Variants := Variants.none

abbrev L : GSem nD τ sig → Finset Unit := fun _ => ∅
abbrev lv : GSem nD τ sig → Unit → ℕ := fun _ _ => 0

abbrev Rd (c : Dev nD) : sProp 𝕄 := iprop((∃ r, prngReg c r) ∗ ∃ W, owes (c : Thread nD τ) (0 : CellTallies nD τ sig Unit) W)

set_option backward.isDefEq.respectTransparency.types false in
-- One region between two boundary contents, stated once for all seven: the exit contents are the entry contents
-- updated at the output array `out` with what the region leaves there; every other array of the region is an input.
def regOf (p : Fin 7) (launch : Pipeline.LaunchFacts (nD := nD) (τ := τ) cfgs p) (Vin Vout : Dev nD → Valuation τ sig (Elt F))
    (out : Fin (cfgs p).W) (hins : ∀ w, w ≠ out → ((cfgs p).win w).isOut = false)
    (hVout : ∀ c, Vout c = Function.update (Vin c) (Proc.devRef .tc (Pipeline.arrRef (cfgs p).spec out)) ((pdats m p c).arrAt out (cfgs p).N))
    (hbody : ∀ c, BodyObligation (pdats m p c) (defs₀ (F := F)) 𝒱₀ () Set.univ)
    (howed : ∀ c t, (pdats m p c).owed t = 0) (hrec : ∀ c t, (pdats m p c).recorded t = Set.univ) (hshare : ∀ c w, (pdats m p c).share w = fullShare)
    (hΦin : ∀ c, Pipeline.ΦA (U := UR sig nD τ) (cfgs p).spec c ⊢ ((pdats m p c).Φ 0 : sProp 𝕄))
    (hΦout : ∀ c, ((pdats m p c).Φ (Fin.last _) : sProp 𝕄) ⊢ Pipeline.ΦA (U := UR sig nD τ) (cfgs p).spec c)
    (hA : ∀ c w, (pdats m p c).A w = Vin c (Pipeline.arrRef (cfgs p).spec w)) :
    Pipeline.RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vin c) ∗ Rd c)
  post c := iprop(StableHlo.held (c : Thread nD τ) (Pipeline.ucRefs τ sig) (Vout c) ∗ Rd c)
  X c := iprop(∃ r, prngReg c r)
  Y c := iprop(∃ r, prngReg c r)
  Z c := Pipeline.unscopedRest (Ix := Unit) (Name := ℕ) (U := UR sig nD τ) (Lvl := ℕ) (cfgs p).spec c (fun b => Vin c b)
  hentry c := by
    rw [Pipeline.ownSems0_none]
    have hsplit := Pipeline.arrays_of_unscopedBufs (p := p) (pcfgs (F := F)) adm (pdats m) launch.win launch.arr_whole c
      (hshare c) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c 0]; trivial)
      iexact HO
    isplitl [Hp]; · iexact Hp
    iexact Hrest
  hin c := by
    iintro ⟨Hp, -, Hr⟩
    iapply (hΦin c)
    unfold Pipeline.ΦA
    isplitl [Hr]; · iexact Hr
    iexact Hp
  hout c := by
    rw [Pipeline.ownSems0_none]
    iintro HΦ
    ihave H := (hΦout c) $$ HΦ
    unfold Pipeline.ΦA
    icases H with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) (hshare c)
      (fun b => Vin c b) (fun b => Vout c b) ((pdats m p c).arrAt · (cfgs p).N)
      (fun w => by
        rw [hVout c]
        by_cases h : w = out
        · subst h; exact (Function.update_self (Proc.devRef (τ := τ) .tc (Pipeline.arrRef (cfgs p).spec w)) _ (Vin c)).symm
        · rw [Function.update_of_ne (StableHlo.devRef_ne_of_ne (launch.win.arr_inj.ne h))]
          exact ((pdats m p c).arrAt_in w (hins w h) _).trans (hA c w))
      (fun b hb => by
        rw [hVout c]
        exact Function.update_of_ne (StableHlo.devRef_ne_of_ne fun e => hb (Finset.mem_image.mpr ⟨out, Finset.mem_univ _, e.symm⟩)) _ _)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

theorem B2_of (c : Dev nD) (r : Ref sig .tc) (h : r ∉ ([main_v27] : List (Ref sig .tc))) : B2 m c r = B1 m c r := by
  simp only [B2, Function.update_of_ne (StableHlo.devRef_ne_of_ne (List.ne_of_not_mem_cons h) : (Proc.devRef .tc r : DevRef τ sig) ≠ Proc.devRef .tc main_v27)]

set_option backward.isDefEq.respectTransparency.types false in
def reg0 : Pipeline.RegionSeg (pcfgs (F := F)) adm (pdats m) () defs₀ 𝒱₀ L lv 0 :=
  regOf m 0 launch0 (B1 m) (B2 m) 3 (by decide) (fun _ => rfl) (body_obligation0 (R1 m)) (fun _ _ => rfl) (fun _ _ => rfl)
    (fun c => (pdats m 0 c).share_full fun _ => rfl) (fun _ => .rfl) (fun _ => .rfl) (fun _ _ => rfl)

theorem B4_of (c : Dev nD) (r : Ref sig .tc) (h : r ∉ ([main_v29] : List (Ref sig .tc))) : B4 m c r = B3 m c r := by
  simp only [B4, Function.update_of_ne (StableHlo.devRef_ne_of_ne (List.ne_of_not_mem_cons h) : (Proc.devRef .tc r : DevRef τ sig) ≠ Proc.devRef .tc main_v29)]

set_option backward.isDefEq.respectTransparency.types false in
def reg1 : Pipeline.RegionSeg (pcfgs (F := F)) adm (pdats m) () defs₀ 𝒱₀ L lv 1 :=
  regOf m 1 launch1 (B3 m) (B4 m) 2 (by decide) (fun _ => rfl) (body_obligation1 (R3 m)) (fun _ _ => rfl) (fun _ _ => rfl)
    (fun c => (pdats m 1 c).share_full fun _ => rfl) (Phi1_in (R3 m)) (Phi1_out (R3 m)) (fun _ _ => rfl)

theorem B6_of (c : Dev nD) (r : Ref sig .tc) (h : r ∉ ([main_v33] : List (Ref sig .tc))) : B6 m c r = B5 m c r := by
  simp only [B6, Function.update_of_ne (StableHlo.devRef_ne_of_ne (List.ne_of_not_mem_cons h) : (Proc.devRef .tc r : DevRef τ sig) ≠ Proc.devRef .tc main_v33)]

set_option backward.isDefEq.respectTransparency.types false in
def reg2 : Pipeline.RegionSeg (pcfgs (F := F)) adm (pdats m) () defs₀ 𝒱₀ L lv 2 :=
  regOf m 2 launch2 (B5 m) (B6 m) 5 (by decide) (fun _ => rfl) (body_obligation2 (R5 m)) (fun _ _ => rfl) (fun _ _ => rfl)
    (fun c => (pdats m 2 c).share_full fun _ => rfl) (fun _ => .rfl) (fun _ => .rfl) (fun _ _ => rfl)

theorem B8_of (c : Dev nD) (r : Ref sig .tc) (h : r ∉ ([main_v35] : List (Ref sig .tc))) : B8 m c r = B7 m c r := by
  simp only [B8, Function.update_of_ne (StableHlo.devRef_ne_of_ne (List.ne_of_not_mem_cons h) : (Proc.devRef .tc r : DevRef τ sig) ≠ Proc.devRef .tc main_v35)]

set_option backward.isDefEq.respectTransparency.types false in
def reg3 : Pipeline.RegionSeg (pcfgs (F := F)) adm (pdats m) () defs₀ 𝒱₀ L lv 3 :=
  regOf m 3 launch3 (B7 m) (B8 m) 2 (by decide) (fun _ => rfl) (body_obligation3 (R7 m)) (fun _ _ => rfl) (fun _ _ => rfl)
    (fun c => (pdats m 3 c).share_full fun _ => rfl) (Phi3_in (R7 m)) (Phi3_out (R7 m)) (fun _ _ => rfl)

theorem B10_of (c : Dev nD) (r : Ref sig .tc) (h : r ∉ ([main_v39] : List (Ref sig .tc))) : B10 m c r = B9 m c r := by
  simp only [B10, Function.update_of_ne (StableHlo.devRef_ne_of_ne (List.ne_of_not_mem_cons h) : (Proc.devRef .tc r : DevRef τ sig) ≠ Proc.devRef .tc main_v39)]

set_option backward.isDefEq.respectTransparency.types false in
def reg4 : Pipeline.RegionSeg (pcfgs (F := F)) adm (pdats m) () defs₀ 𝒱₀ L lv 4 :=
  regOf m 4 launch4 (B9 m) (B10 m) 5 (by decide) (fun _ => rfl) (body_obligation4 (R9 m)) (fun _ _ => rfl) (fun _ _ => rfl)
    (fun c => (pdats m 4 c).share_full fun _ => rfl) (fun _ => .rfl) (fun _ => .rfl) (fun _ _ => rfl)

theorem B12_of (c : Dev nD) (r : Ref sig .tc) (h : r ∉ ([main_v56] : List (Ref sig .tc))) : B12 m c r = B11 m c r := by
  simp only [B12, Function.update_of_ne (StableHlo.devRef_ne_of_ne (List.ne_of_not_mem_cons h) : (Proc.devRef .tc r : DevRef τ sig) ≠ Proc.devRef .tc main_v56)]

set_option backward.isDefEq.respectTransparency.types false in
def reg5 : Pipeline.RegionSeg (pcfgs (F := F)) adm (pdats m) () defs₀ 𝒱₀ L lv 5 :=
  regOf m 5 launch5 (B11 m) (B12 m) 3 (by decide) (fun _ => rfl) (body_obligation5 (R11 m)) (fun _ _ => rfl) (fun _ _ => rfl)
    (fun c => (pdats m 5 c).share_full fun _ => rfl) (fun _ => .rfl) (fun _ => .rfl) (fun _ _ => rfl)

theorem B14_of (c : Dev nD) (r : Ref sig .tc) (h : r ∉ ([main_v59] : List (Ref sig .tc))) : B14 m c r = B13 m c r := by
  simp only [B14, Function.update_of_ne (StableHlo.devRef_ne_of_ne (List.ne_of_not_mem_cons h) : (Proc.devRef .tc r : DevRef τ sig) ≠ Proc.devRef .tc main_v59)]

set_option backward.isDefEq.respectTransparency.types false in
def reg6 : Pipeline.RegionSeg (pcfgs (F := F)) adm (pdats m) () defs₀ 𝒱₀ L lv 6 :=
  regOf m 6 launch6 (B13 m) (B14 m) 4 (by decide) (fun _ => rfl) (body_obligation6 (R13 m)) (fun _ _ => rfl) (fun _ _ => rfl)
    (fun c => (pdats m 6 c).share_full fun _ => rfl) (fun _ => .rfl) (fun _ => .rfl) (fun _ _ => rfl)

set_option backward.isDefEq.respectTransparency.types false in
theorem frame_cond_val {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 7) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 8 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE7 : ∀ c : Dev nD, E 7 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c)) :
    θ_run defs (onTc (τ := τ) (main (F := F))) ⟨m, fun _ => 0, ρ⟩ (fun r => ∀ c : Dev nD,
      r.2.mem ((c.tc : Thread nD τ).loc main_v59) = V14 m outs c main_v59
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) := by
  refine Pipeline.θ_run_regions_kit_dev (pcfgs (F := F)) adm pdats ι cellOf_inj EP defs₀ 𝒱₀ L lv m ρ main
    (segs m outs 𝒱₀ L lv E ι pdats R0 R1 R2 R3 R4 R5 R6)
    (fun c Q => by
      rewrite [main_chain c, Seg.run_eq_chain,
        show (segs m outs 𝒱₀ L lv E ι pdats R0 R1 R2 R3 R4 R5 R6 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V14 m outs c))
    (hch := fun c => ⟨.rfl, hpre0 c, hpost0 c, hpre1 c, hpost1 c, hpre2 c, hpost2 c, hpre3 c, hpost3 c, hpre4 c, hpost4 c, hpre5 c, hpost5 c, hpre6 c, (hpost6 c).trans (sep_mono .rfl (hE7 c))⟩)
    (hinit := ?_) (QY := fun c s => s.mem ((c.tc : Thread nD τ).loc main_v59) = V14 m outs c main_v59 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V14 m outs c) s') $$ [Hh HSI]
    · isplitl [Hh] <;> iassumption
    icases Hr with ⟨%h, HSI⟩
    imodintro
    isplitr
    · ipureintro
      exact ⟨h (Proc.devRef .tc main_v59) (Finset.mem_filter.mpr ⟨StableHlo.devRef_mem_tcRefs main_v59, by decide⟩),
        (h (Proc.devRef .tc main_arg0) (Finset.mem_filter.mpr ⟨StableHlo.devRef_mem_tcRefs main_arg0, by decide⟩)).trans (V14_main_arg0 m outs c),
        (h (Proc.devRef .tc main_arg1) (Finset.mem_filter.mpr ⟨StableHlo.devRef_mem_tcRefs main_arg1, by decide⟩)).trans (V14_main_arg1 m outs c),
        (h (Proc.devRef .tc main_arg2) (Finset.mem_filter.mpr ⟨StableHlo.devRef_mem_tcRefs main_arg2, by decide⟩)).trans (V14_main_arg2 m outs c),
        (h (Proc.devRef .tc main_arg3) (Finset.mem_filter.mpr ⟨StableHlo.devRef_mem_tcRefs main_arg3, by decide⟩)).trans (V14_main_arg3 m outs c),
        (h (Proc.devRef .tc main_arg4) (Finset.mem_filter.mpr ⟨StableHlo.devRef_mem_tcRefs main_arg4, by decide⟩)).trans (V14_main_arg4 m outs c),
        (h (Proc.devRef .tc main_arg5) (Finset.mem_filter.mpr ⟨StableHlo.devRef_mem_tcRefs main_arg5, by decide⟩)).trans (V14_main_arg5 m outs c),
        (h (Proc.devRef .tc main_arg6) (Finset.mem_filter.mpr ⟨StableHlo.devRef_mem_tcRefs main_arg6, by decide⟩)).trans (V14_main_arg6 m outs c),
        (h (Proc.devRef .tc main_arg7) (Finset.mem_filter.mpr ⟨StableHlo.devRef_mem_tcRefs main_arg7, by decide⟩)).trans (V14_main_arg7 m outs c),
        (h (Proc.devRef .tc main_arg8) (Finset.mem_filter.mpr ⟨StableHlo.devRef_mem_tcRefs main_arg8, by decide⟩)).trans (V14_main_arg8 m outs c),
        (h (Proc.devRef .tc main_arg9) (Finset.mem_filter.mpr ⟨StableHlo.devRef_mem_tcRefs main_arg9, by decide⟩)).trans (V14_main_arg9 m outs c),
        (h (Proc.devRef .tc main_arg10) (Finset.mem_filter.mpr ⟨StableHlo.devRef_mem_tcRefs main_arg10, by decide⟩)).trans (V14_main_arg10 m outs c),
        (h (Proc.devRef .tc main_arg11) (Finset.mem_filter.mpr ⟨StableHlo.devRef_mem_tcRefs main_arg11, by decide⟩)).trans (V14_main_arg11 m outs c),
        (h (Proc.devRef .tc main_arg12) (Finset.mem_filter.mpr ⟨StableHlo.devRef_mem_tcRefs main_arg12, by decide⟩)).trans (V14_main_arg12 m outs c),
        (h (Proc.devRef .tc main_arg13) (Finset.mem_filter.mpr ⟨StableHlo.devRef_mem_tcRefs main_arg13, by decide⟩)).trans (V14_main_arg13 m outs c),
        (h (Proc.devRef .tc main_arg14) (Finset.mem_filter.mpr ⟨StableHlo.devRef_mem_tcRefs main_arg14, by decide⟩)).trans (V14_main_arg14 m outs c),
        (h (Proc.devRef .tc main_arg15) (Finset.mem_filter.mpr ⟨StableHlo.devRef_mem_tcRefs main_arg15, by decide⟩)).trans (V14_main_arg15 m outs c),
        (h (Proc.devRef .tc main_arg16) (Finset.mem_filter.mpr ⟨StableHlo.devRef_mem_tcRefs main_arg16, by decide⟩)).trans (V14_main_arg16 m outs c)⟩
    · iexact HSI

set_option backward.isDefEq.respectTransparency.types false in
theorem run_main (ρ : Dev nD → PrngReg) : θ_run defs (onTc (τ := τ) (main (F := F))) ⟨m, fun _ => 0, ρ⟩ (fun r => ∀ c : Dev nD,
      r.2.mem ((c.tc : Thread nD τ).loc main_v59) = o14 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) := by
  refine (θ_run defs _ _).mono (fun r h c => ⟨(h c).1.trans ?_, (h c).2⟩)
    (frame_cond_val (F := F) m (Ix := Unit) (U := UR sig nD τ) (Lvl := ℕ) emb₁ () 𝒱₀ L lv (fun _ _ => rfl) ρ (outs m) (pdats m)
      (O₀ := 0) (G := fun _ => iprop(emp))
      (u₀ := initOf (Pipeline.cells cfgs cellOf_inj) (Pipeline.launchToks cfgs cellOf_inj))
      (hu₀ := by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (E := fun _ c => Rd c)
      (hE0 := by
        have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
            ⊢ (bigSep Finset.univ (fun c : Dev nD => Rd c) : sProp 𝕄) :=
          bigSep_mono fun c _ =>
            show (iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄) ⊢ Rd c from by
              iintro ⟨-, HO, -, Hp, -⟩
              isplitl [Hp]; · iexists _; iexact Hp
              iexists ∅; iexact HO
        iintro ⟨H, -⟩
        imodintro
        iapply hmono
        iexact H)
      (hE7 := fun c => by iintro ⟨-, HO⟩; iexact HO)
      (R0 := reg0 m) (hpre0 := fun c => by rw [V1_eq]; exact .rfl) (hpost0 := fun c => by rw [V2_eq]; exact .rfl)
      (R1 := reg1 m) (hpre1 := fun c => by rw [V3_eq]; exact .rfl) (hpost1 := fun c => by rw [V4_eq]; exact .rfl)
      (R2 := reg2 m) (hpre2 := fun c => by rw [V5_eq]; exact .rfl) (hpost2 := fun c => by rw [V6_eq]; exact .rfl)
      (R3 := reg3 m) (hpre3 := fun c => by rw [V7_eq]; exact .rfl) (hpost3 := fun c => by rw [V8_eq]; exact .rfl)
      (R4 := reg4 m) (hpre4 := fun c => by rw [V9_eq]; exact .rfl) (hpost4 := fun c => by rw [V10_eq]; exact .rfl)
      (R5 := reg5 m) (hpre5 := fun c => by rw [V11_eq]; exact .rfl) (hpost5 := fun c => by rw [V12_eq]; exact .rfl)
      (R6 := reg6 m) (hpre6 := fun c => by rw [V13_eq]; exact .rfl) (hpost6 := fun c => by rw [V14_eq]; exact .rfl))
  rw [V14_eq]
  exact Function.update_self _ _ _

end Cert.KernelIdeal.Gen

end
-- ==== Proof.IGlue.lean ====
import proofs.«426456_j87411174408700_1_alg».proof.Proof.LaunchKernelIdeal
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.ValueIdx Idealize.ShloMosaic.TcCoe Idealize.ShloMosaic.StableHlo

variable (Vin : Valuation τ sig (Elt Ideal))

theorem v28_eq : (StableHlo.after hostOps1 Vin main_v28 : S4096x232.Idx → EReal) = (Vin main_v27 : S4096x232.Idx → EReal) := by
  dsimp only [hostOps1]; after_results <;> rfl

theorem v34_eq : (StableHlo.after hostOps3 Vin main_v34 : S4096x256.Idx → EReal) = (Vin main_v33 : S4096x256.Idx → EReal) := by
  dsimp only [hostOps3]; after_results <;> rfl

theorem v30_apply (d : Fin 232) (q : Fin 256) :
    (StableHlo.after hostOps2 Vin main_v30 : S232x256.Idx → EReal) (ix2 d q) = (Vin main_arg3 : S256x232.Idx → EReal) (ix2 q d) := by
  have e : (StableHlo.after hostOps2 Vin main_v30 : S232x256.Idx → EReal)
      = transpose S232x256 [1, 0] (Vin main_arg3 : S256x232.Idx → EReal) transposes_S256x232_S232x256_1_0 := by
    dsimp only [hostOps2]; after_results <;> rfl
  rw [e]; exact transpose_ix2_apply _ _ d q

theorem v31_apply (d : Fin 232) (q : Fin 256) :
    (StableHlo.after hostOps2 Vin main_v31 : S232x256.Idx → EReal) (ix2 d q) = (Vin main_arg5 : S256x232.Idx → EReal) (ix2 q d) := by
  have e : (StableHlo.after hostOps2 Vin main_v31 : S232x256.Idx → EReal)
      = transpose S232x256 [1, 0] (Vin main_arg5 : S256x232.Idx → EReal) transposes_S256x232_S232x256_1_0 := by
    dsimp only [hostOps2]; after_results <;> rfl
  rw [e]; exact transpose_ix2_apply _ _ d q

theorem v32_apply (q : Fin 256) :
    (StableHlo.after hostOps2 Vin main_v32 : S1x256.Idx → EReal) (ix2 (0 : Fin 1) q) = (Vin main_arg4 : S256.Idx → EReal) (ix1 q) := by
  have e : (StableHlo.after hostOps2 Vin main_v32 : S1x256.Idx → EReal)
      = shapeCast S1x256 (Vin main_arg4 : S256.Idx → EReal) shapeCasts_S256_S1x256 := by
    dsimp only [hostOps2]; after_results <;> rfl
  rw [e]; exact shapeCast_a_1a_apply _ _ 0 q

theorem v36_apply (d : Fin 256) (q : Fin 232) :
    (StableHlo.after hostOps4 Vin main_v36 : S256x232.Idx → EReal) (ix2 d q) = (Vin main_arg6 : S232x256.Idx → EReal) (ix2 q d) := by
  have e : (StableHlo.after hostOps4 Vin main_v36 : S256x232.Idx → EReal)
      = transpose S256x232 [1, 0] (Vin main_arg6 : S232x256.Idx → EReal) transposes_S232x256_S256x232_1_0 := by
    dsimp only [hostOps4]; after_results <;> rfl
  rw [e]; exact transpose_ix2_apply _ _ d q

theorem v37_apply (d : Fin 256) (q : Fin 232) :
    (StableHlo.after hostOps4 Vin main_v37 : S256x232.Idx → EReal) (ix2 d q) = (Vin main_arg8 : S232x256.Idx → EReal) (ix2 q d) := by
  have e : (StableHlo.after hostOps4 Vin main_v37 : S256x232.Idx → EReal)
      = transpose S256x232 [1, 0] (Vin main_arg8 : S232x256.Idx → EReal) transposes_S232x256_S256x232_1_0 := by
    dsimp only [hostOps4]; after_results <;> rfl
  rw [e]; exact transpose_ix2_apply _ _ d q

theorem v38_apply (q : Fin 232) :
    (StableHlo.after hostOps4 Vin main_v38 : S1x232.Idx → EReal) (ix2 (0 : Fin 1) q) = (Vin main_arg7 : S232.Idx → EReal) (ix1 q) := by
  have e : (StableHlo.after hostOps4 Vin main_v38 : S1x232.Idx → EReal)
      = shapeCast S1x232 (Vin main_arg7 : S232.Idx → EReal) shapeCasts_S232_S1x232 := by
    dsimp only [hostOps4]; after_results <;> rfl
  rw [e]; exact shapeCast_a_1a_apply _ _ 0 q

theorem v57_apply (d : Fin 232) (o : Fin 2) :
    (StableHlo.after hostOps6 Vin main_v57 : S232x2.Idx → EReal) (ix2 d o) = (Vin main_arg12 : S2x232.Idx → EReal) (ix2 o d) := by
  have e : (StableHlo.after hostOps6 Vin main_v57 : S232x2.Idx → EReal)
      = transpose S232x2 [1, 0] (Vin main_arg12 : S2x232.Idx → EReal) transposes_S2x232_S232x2_1_0 := by
    dsimp only [hostOps6]; after_results <;> rfl
  rw [e]; exact transpose_ix2_apply _ _ d o

theorem v58_apply (o : Fin 2) :
    (StableHlo.after hostOps6 Vin main_v58 : S1x2.Idx → EReal) (ix2 (0 : Fin 1) o) = (Vin main_arg13 : S2.Idx → EReal) (ix1 o) := by
  have e : (StableHlo.after hostOps6 Vin main_v58 : S1x2.Idx → EReal)
      = shapeCast S1x2 (Vin main_arg13 : S2.Idx → EReal) shapeCasts_S2_S1x2 := by
    dsimp only [hostOps6]; after_results <;> rfl
  rw [e]; exact shapeCast_a_1a_apply _ _ 0 o

def idxCol15 (a15 : S16384.Idx → BitVec 32) : IVec S16384x1 32 :=
  broadcastInDim S16384x1 ![0] bcast_S16384_S16384x1_0
    (select (cmpi .slt a15 (broadcastInDim S16384 ![] bcast_S_S16384 (constantI S_ 32 0#32)))
      (addi a15 (broadcastInDim S16384 ![] bcast_S_S16384 (constantI S_ 32 4096#32))) a15)

def idxCol16 (a16 : S16384.Idx → BitVec 32) : IVec S16384x1 32 :=
  broadcastInDim S16384x1 ![0] bcast_S16384_S16384x1_0
    (select (cmpi .slt a16 (broadcastInDim S16384 ![] bcast_S_S16384 (constantI S_ 32 0#32)))
      (addi a16 (broadcastInDim S16384 ![] bcast_S_S16384 (constantI S_ 32 100000#32))) a16)

set_option maxHeartbeats 1600000 in
theorem v46_eq :
    (StableHlo.after hostOps5 Vin main_v46 : S16384x232.Idx → EReal)
      = Host.gather gather_S4096x232_S16384x1_S16384x232_1_0_n_n_0_1_1232 (Vin main_v39 : S4096x232.Idx → EReal)
          (idxCol15 (Vin main_arg15 : S16384.Idx → BitVec 32)) := by
  dsimp only [hostOps5]; after_results_simp <;> rfl

set_option maxHeartbeats 1600000 in
theorem v53_eq :
    (StableHlo.after hostOps5 Vin main_v53 : S16384x768.Idx → EReal)
      = Host.gather gather_S100000x768_S16384x1_S16384x768_1_0_n_n_0_1_1768 (Vin main_arg9 : S100000x768.Idx → EReal)
          (idxCol16 (Vin main_arg16 : S16384.Idx → BitVec 32)) := by
  dsimp only [hostOps5]; after_results_simp <;> rfl

set_option maxHeartbeats 1600000 in
theorem v54_apply (k : Fin 768) (q : Fin 232) :
    (StableHlo.after hostOps5 Vin main_v54 : S768x232.Idx → EReal) (ix2 k q) = (Vin main_arg10 : S232x768.Idx → EReal) (ix2 q k) := by
  have e : (StableHlo.after hostOps5 Vin main_v54 : S768x232.Idx → EReal)
      = transpose S768x232 [1, 0] (Vin main_arg10 : S232x768.Idx → EReal) transposes_S232x768_S768x232_1_0 := by
    dsimp only [hostOps5]; after_results_simp <;> rfl
  rw [e]; exact transpose_ix2_apply _ _ k q

set_option maxHeartbeats 1600000 in
theorem v55_apply (q : Fin 232) :
    (StableHlo.after hostOps5 Vin main_v55 : S1x232.Idx → EReal) (ix2 (0 : Fin 1) q) = (Vin main_arg11 : S232.Idx → EReal) (ix1 q) := by
  have e : (StableHlo.after hostOps5 Vin main_v55 : S1x232.Idx → EReal)
      = shapeCast S1x232 (Vin main_arg11 : S232.Idx → EReal) shapeCasts_S232_S1x232 := by
    dsimp only [hostOps5]; after_results_simp <;> rfl
  rw [e]; exact shapeCast_a_1a_apply _ _ 0 q

end Cert.KernelIdeal.Val

end
-- ==== Proof.LibScatter1.lean ====
import Idealize.ShloMosaic.Lib.ValueIdx
import Idealize.ShloMosaic.Lib.Pipeline.Value
import Idealize.ShloMosaic.PureOps.Ideal.Laws

noncomputable section

open scoped BigOperators

namespace Idealize.ShloMosaic.ValueIdx

open Idealize.ShloMosaic

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

abbrev vecScatterDims (N E : ℕ)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

private theorem vecScatter_resultIdx {N E w : ℕ}
    (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n)
      ↔ (idx (ix2 e (0 : Fin 1))).toInt = (n.val : ℤ) := by
  have hs0 : (vecScatterDims N E wf).start (ix1 e) idx (0 : Fin 1) = (idx (ix2 e (0 : Fin 1))).toInt := by
    unfold ScatterDims.start
    rw [dif_pos (show (0 : Fin 1) ∈ (vecScatterDims N E wf).scatterDimsToOperandDims from List.mem_singleton.mpr rfl)]
    have hsi : (vecScatterDims N E wf).siIdx (ix1 e) ⟨List.idxOf (0 : Fin 1) (vecScatterDims N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hk : (vecScatterDims N E wf).sKept = [] := rfl
  have hw0 : (vecScatterDims N E wf).window (ix1 e) (0 : Fin 1) = 0 := by
    unfold ScatterDims.window
    rw [dif_neg (show (0 : Fin 1) ∉ (vecScatterDims N E wf).sKept by rw [hk]; simp)]
  constructor
  · intro h
    unfold ScatterDims.resultIdx? at h
    split at h
    · rename_i hb
      have h' := Option.some.inj h
      have h0 : ((vecScatterDims N E wf).start (ix1 e) idx (0 : Fin 1) + ((vecScatterDims N E wf).window (ix1 e) (0 : Fin 1) : ℤ)).toNat = n.val :=
        congrArg (fun f : (⟨1, ![N]⟩ : Shape).Idx => (f 0).val) h'
      have hb0 := (hb 0).1
      rw [hs0, hw0] at h0 hb0
      omega
    · exact absurd h (by simp)
  · intro hrow
    unfold ScatterDims.resultIdx?
    have hb : ∀ a : Fin 1, 0 ≤ (vecScatterDims N E wf).start (ix1 e) idx a + ((vecScatterDims N E wf).window (ix1 e) a : ℤ)
        ∧ (vecScatterDims N E wf).start (ix1 e) idx a + ((vecScatterDims N E wf).window (ix1 e) a : ℤ) < ((⟨1, ![N]⟩ : Shape).size a : ℤ) := by
      intro a
      match a with
      | ⟨0, _⟩ =>
        show 0 ≤ (vecScatterDims N E wf).start (ix1 e) idx (0 : Fin 1) + ((vecScatterDims N E wf).window (ix1 e) (0 : Fin 1) : ℤ)
          ∧ (vecScatterDims N E wf).start (ix1 e) idx (0 : Fin 1) + ((vecScatterDims N E wf).window (ix1 e) (0 : Fin 1) : ℤ) < (N : ℤ)
        rw [hs0, hw0, hrow]
        have := n.isLt
        omega
    rw [dif_pos hb]
    congr 1
    funext a
    refine Fin.ext ?_
    match a with
    | ⟨0, _⟩ =>
      show ((vecScatterDims N E wf).start (ix1 e) idx (0 : Fin 1) + ((vecScatterDims N E wf).window (ix1 e) (0 : Fin 1) : ℤ)).toNat = n.val
      rw [hs0, hw0, hrow]
      omega

theorem vecScatterAdd_apply {N E w : ℕ}
    (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32)
    (n : Fin N) :
    Host.scatterAdd (F := Ideal) (vecScatterDims N E wf) x idx upd (ix1 n)
      = x (ix1 n) + ∑ e ∈ Finset.univ.filter (fun e : Fin E => (idx (ix2 e (0 : Fin 1))).toInt = (n.val : ℤ)),
          upd (ix1 e) := by
  show Ideal.hostScatterAdd (vecScatterDims N E wf) x idx upd (ix1 n) = _
  unfold Ideal.hostScatterAdd
  congr 1
  rw [Finset.sum_filter, sum_idx1, Finset.sum_filter]
  refine Finset.sum_congr rfl fun e _ => ?_
  simp only [vecScatter_resultIdx]

end Idealize.ShloMosaic.ValueIdx

end
-- ==== Proof.IGlueAdj.lean ====
import proofs.«426456_j87411174408700_1_alg».proof.Proof.LaunchKernelIdeal
import proofs.«426456_j87411174408700_1_alg».proof.Proof.LibScatter1
import Idealize.ShloMosaic.Lib.StableHlo.Run
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

set_option maxRecDepth 16384

noncomputable section

open scoped BigOperators

namespace Cert.KernelIdeal.Val

open Cert.KernelIdeal Cert.KernelIdeal.Gen Idealize.ShloMosaic ValueIdx Idealize.ShloMosaic.StableHlo Idealize.ShloMosaic.TcCoe

section Terms

variable (x14 : S2x131072.Idx → BitVec 32)

def tSrc : IVec S131072 32 :=
  shapeCast S131072 (extractStridedSlice S1x131072 ![0, 0] x14 slices_S2x131072_S1x131072_0_0) shapeCasts_S1x131072_S131072

def tDst : IVec S131072 32 :=
  shapeCast S131072 (extractStridedSlice S1x131072 ![1, 0] x14 slices_S2x131072_S1x131072_1_0) shapeCasts_S1x131072_S131072

def tLin : IVec S131072 32 :=
  addi (muli (tDst x14) (broadcastInDim S131072 ![] bcast_S_S131072 (constantI S_ 32 4096#32))) (tSrc x14)

def tWrap : IVec S131072 32 :=
  select (cmpi .slt (tLin x14) (broadcastInDim S131072 ![] bcast_S_S131072 (constantI S_ 32 0#32)))
    (addi (tLin x14) (broadcastInDim S131072 ![] bcast_S_S131072 (constantI S_ 32 16777216#32))) (tLin x14)

def tIdx : IVec S131072x1 32 := broadcastInDim S131072x1 ![0] bcast_S131072_S131072x1_0 (tWrap x14)

def tCnt : FVec Ideal S16777216 .f32 :=
  Host.scatterAdd (F := Ideal) scatter_S16777216_S131072x1_S131072_n_0_0_1
    (broadcastInDim S16777216 ![] bcast_S_S16777216 (constant (F := Ideal) S_ .f32 0x00000000#32))
    (tIdx x14)
    (broadcastInDim S131072 ![] bcast_S_S131072 (constant (F := Ideal) S_ .f32 0x3F800000#32))

def tA : FVec Ideal S4096x4096 .f32 := shapeCast S4096x4096 (tCnt x14) shapeCasts_S16777216_S4096x4096

def tDeg : FVec Ideal S4096 .f32 :=
  Host.reduceAdd (tA x14) (constant (F := Ideal) S_ .f32 0x00000000#32) reducesTo_S4096x4096_S4096_d1 h_S_

def tDen : FVec Ideal S4096 .f32 :=
  maximumf (tDeg x14) (broadcastInDim S4096 ![] bcast_S_S4096 (constant (F := Ideal) S_ .f32 0x3F800000#32))

def tAdj : FVec Ideal S4096x4096 .bf16 :=
  truncf .bf16 (Host.divf (tA x14) (broadcastInDim S4096x4096 ![0, 1] bcast_S4096x1_S4096x4096_0_1
    (broadcastInDim S4096x1 ![0] bcast_S4096_S4096x1_0 (tDen x14)))) bitsLt_bf16_f32

def linE (e : Fin 131072) : BitVec 32 := x14 (ix2 (1 : Fin 2) e) * 4096#32 + x14 (ix2 (0 : Fin 2) e)

def wrapE (e : Fin 131072) : BitVec 32 := if (linE x14 e).slt 0#32 then linE x14 e + 16777216#32 else linE x14 e

theorem tSrc_apply (e : Fin 131072) : tSrc x14 (ix1 e) = x14 (ix2 (0 : Fin 2) e) := by
  unfold tSrc
  rw [shapeCast_apply _ shapeCasts_S1x131072_S131072 (ix1 e) (ix2 (0 : Fin 1) e)
    (by rewrite [Shape.rowMajor_val_two, Shape.rowMajor_val_one]; show 0 * 131072 + e.val = e.val; omega)]
  exact extractStridedSlice_apply ![0, 0] x14 slices_S2x131072_S1x131072_0_0 (ix2 (0 : Fin 1) e) (ix2 (0 : Fin 2) e)
    (fun a => match a with
      | ⟨0, _⟩ => rfl
      | ⟨1, _⟩ => by show e.val = 0 + e.val; omega)

theorem tDst_apply (e : Fin 131072) : tDst x14 (ix1 e) = x14 (ix2 (1 : Fin 2) e) := by
  unfold tDst
  rw [shapeCast_apply _ shapeCasts_S1x131072_S131072 (ix1 e) (ix2 (0 : Fin 1) e)
    (by rewrite [Shape.rowMajor_val_two, Shape.rowMajor_val_one]; show 0 * 131072 + e.val = e.val; omega)]
  exact extractStridedSlice_apply ![1, 0] x14 slices_S2x131072_S1x131072_1_0 (ix2 (0 : Fin 1) e) (ix2 (1 : Fin 2) e)
    (fun a => match a with
      | ⟨0, _⟩ => rfl
      | ⟨1, _⟩ => by show e.val = 0 + e.val; omega)

theorem tLin_apply (e : Fin 131072) : tLin x14 (ix1 e) = linE x14 e := by
  show IntOp.addi (IntOp.muli (tDst x14 (ix1 e)) (broadcastInDim S131072 ![] bcast_S_S131072 (constantI S_ 32 4096#32) (ix1 e)))
    (tSrc x14 (ix1 e)) = _
  rw [tDst_apply, tSrc_apply, broadcastInDim_scalar_apply]
  rfl

theorem tWrap_apply (e : Fin 131072) : tWrap x14 (ix1 e) = wrapE x14 e := by
  show Scalar.select (IntOp.cmpi .slt (tLin x14 (ix1 e)) (broadcastInDim S131072 ![] bcast_S_S131072 (constantI S_ 32 0#32) (ix1 e)))
    (IntOp.addi (tLin x14 (ix1 e)) (broadcastInDim S131072 ![] bcast_S_S131072 (constantI S_ 32 16777216#32) (ix1 e)))
    (tLin x14 (ix1 e)) = _
  rw [tLin_apply, broadcastInDim_scalar_apply, broadcastInDim_scalar_apply]
  show (if BitVec.ofBool ((linE x14 e).slt 0#32) = 1#1 then linE x14 e + 16777216#32 else linE x14 e) = _
  unfold wrapE
  cases (linE x14 e).slt 0#32 <;> rfl

theorem tIdx_apply (e : Fin 131072) : tIdx x14 (ix2 e (0 : Fin 1)) = wrapE x14 e := by
  unfold tIdx
  rw [broadcastInDim_apply _ bcast_S131072_S131072x1_0 (tWrap x14) (ix2 e (0 : Fin 1)) (ix1 e) (fun a => match a with
    | ⟨0, _⟩ => by show e.val = if (131072 : Nat) = 1 then 0 else e.val; rw [if_neg (by decide)])]
  exact tWrap_apply x14 e

theorem tCnt_apply (n : Fin 16777216) :
    (tCnt x14 : S16777216.Idx → EReal) (ix1 n)
      = 0 + ∑ e ∈ Finset.univ.filter (fun e : Fin 131072 => (wrapE x14 e).toInt = (n.val : ℤ)), (1 : EReal) := by
  unfold tCnt
  have hd : scatter_S16777216_S131072x1_S131072_n_0_0_1
      = vecScatterDims 16777216 131072 scatter_S16777216_S131072x1_S131072_n_0_0_1_wf := rfl
  rw [hd, vecScatterAdd_apply, broadcastInDim_scalar_apply]
  refine congrArg₂ (· + ·) Ideal.ofBits_zero_f32 ?_
  refine Finset.sum_congr (Finset.filter_congr fun e _ => by rw [tIdx_apply]) (fun e _ => ?_)
  rw [broadcastInDim_scalar_apply]
  exact Ideal.ofBits_one_f32

def cntA (p j : Fin 4096) : EReal :=
  0 + ∑ e ∈ Finset.univ.filter (fun e : Fin 131072 => (wrapE x14 e).toInt = ((4096 * p.val + j.val : ℕ) : ℤ)), (1 : EReal)

theorem tA_apply (p j : Fin 4096) : (tA x14 : S4096x4096.Idx → EReal) (ix2 p j) = cntA x14 p j := by
  have hlt : 4096 * p.val + j.val < 16777216 := by have := p.isLt; have := j.isLt; omega
  unfold tA
  rw [shapeCast_apply _ shapeCasts_S16777216_S4096x4096 (ix2 p j) (ix1 (⟨4096 * p.val + j.val, hlt⟩ : Fin 16777216))
    (by rewrite [Shape.rowMajor_val_one, Shape.rowMajor_val_two]; show 4096 * p.val + j.val = p.val * 4096 + j.val; omega)]
  exact tCnt_apply x14 _

theorem tDeg_apply (p : Fin 4096) : (tDeg x14 : S4096.Idx → EReal) (ix1 p) = 0 + ∑ j' : Fin 4096, cntA x14 p j' := by
  have hR : S4096x4096.Reduces [1] S4096 := by decide
  unfold tDeg
  rw [hostReduceAdd_apply, Ideal.hostReduceAdd_single reducesTo_S4096x4096_S4096_d1 hR]
  refine congrArg₂ (· + ·) Ideal.ofBits_zero_f32 (Finset.sum_congr rfl fun k _ => ?_)
  exact Eq.trans (congrArg (tA x14) (funext fun a => Fin.ext (by match a with | ⟨0, _⟩ => rfl | ⟨1, _⟩ => rfl)))
    (tA_apply x14 p k)

theorem tDen_apply (p : Fin 4096) : (tDen x14 : S4096.Idx → EReal) (ix1 p) = max (0 + ∑ j' : Fin 4096, cntA x14 p j') 1 := by
  unfold tDen
  rw [maximumf_apply, tDeg_apply, broadcastInDim_scalar_apply]
  exact congrArg (max _) Ideal.ofBits_one_f32

theorem tAdj_apply (p j : Fin 4096) :
    (tAdj x14 : S4096x4096.Idx → EReal) (ix2 p j) = Ideal.div (cntA x14 p j) (max (0 + ∑ j' : Fin 4096, cntA x14 p j') 1) := by
  unfold tAdj
  rw [truncf_apply, hostDivf_apply, tA_apply]
  refine congrArg (Ideal.div _) ?_
  rw [broadcastInDim_apply _ bcast_S4096x1_S4096x4096_0_1 _ (ix2 p j) (ix2 p (0 : Fin 1)) (fun a => match a with
    | ⟨0, _⟩ => by show p.val = if (4096 : Nat) = 1 then 0 else p.val; rw [if_neg (by decide)]
    | ⟨1, _⟩ => by show 0 = if (1 : Nat) = 1 then 0 else j.val; rw [if_pos rfl])]
  rw [broadcastInDim_apply _ bcast_S4096_S4096x1_0 (tDen x14) (ix2 p (0 : Fin 1)) (ix1 p) (fun a => match a with
    | ⟨0, _⟩ => by show p.val = if (4096 : Nat) = 1 then 0 else p.val; rw [if_neg (by decide)])]
  exact tDen_apply x14 p

end Terms

section InRange

variable (x14 : S2x131072.Idx → BitVec 32)

def srcN (e : Fin 131072) : ℕ := (x14 (ix2 (0 : Fin 2) e)).toInt.toNat

def dstN (e : Fin 131072) : ℕ := (x14 (ix2 (1 : Fin 2) e)).toInt.toNat

def cntE (p j : Fin 4096) : EReal :=
  0 + ∑ e ∈ Finset.univ.filter (fun e : Fin 131072 => dstN x14 e = p.val ∧ srcN x14 e = j.val), (1 : EReal)

theorem wrapE_inrange
    (hr : ∀ (r : Fin 2) (e : Fin 131072), 0 ≤ (x14 (ix2 r e)).toInt ∧ (x14 (ix2 r e)).toInt < 4096) (e : Fin 131072) :
    (wrapE x14 e).toInt = 4096 * (x14 (ix2 (1 : Fin 2) e)).toInt + (x14 (ix2 (0 : Fin 2) e)).toInt := by
  have h0 := hr 0 e
  have h1 := hr 1 e
  have h4 : (4096#32 : BitVec 32).toInt = 4096 := by decide
  have hz : (0#32 : BitVec 32).toInt = 0 := by decide
  have hl : (linE x14 e).toInt = 4096 * (x14 (ix2 (1 : Fin 2) e)).toInt + (x14 (ix2 (0 : Fin 2) e)).toInt := by
    unfold linE
    rw [BitVec.toInt_add, BitVec.toInt_mul, h4]
    rw [Int.bmod_eq_of_le (n := (x14 (ix2 (1 : Fin 2) e)).toInt * 4096) (by omega) (by omega)]
    rw [Int.bmod_eq_of_le (by omega) (by omega)]
    omega
  have hs : (linE x14 e).slt 0#32 = false := by
    rw [BitVec.slt_eq_decide, hl, hz]
    exact decide_eq_false (by omega)
  unfold wrapE
  rw [hs]
  exact hl

theorem cntA_inrange
    (hr : ∀ (r : Fin 2) (e : Fin 131072), 0 ≤ (x14 (ix2 r e)).toInt ∧ (x14 (ix2 r e)).toInt < 4096) (p j : Fin 4096) :
    cntA x14 p j = cntE x14 p j := by
  unfold cntA cntE
  refine congrArg (0 + ·) (Finset.sum_congr (Finset.filter_congr fun e _ => ?_) fun _ _ => rfl)
  rw [wrapE_inrange x14 hr e]
  have h0 := hr 0 e
  have h1 := hr 1 e
  have hp := p.isLt
  have hj := j.isLt
  unfold srcN dstN
  omega

end InRange

variable (Vin : Valuation τ sig (Elt Ideal))

set_option maxHeartbeats 1600000 in
theorem adj_term :
    (StableHlo.after hostOps0 Vin main_v23 : S4096x4096.Idx → EReal) = tAdj (Vin main_arg14 : S2x131072.Idx → BitVec 32) := by
  dsimp only [hostOps0]
  after_results_simp
  rfl

theorem adj_apply (p j : Fin 4096) :
    (StableHlo.after hostOps0 Vin main_v23 : S4096x4096.Idx → EReal) (ix2 p j)
      = Ideal.div (cntA (Vin main_arg14 : S2x131072.Idx → BitVec 32) p j)
          (max (0 + ∑ j' : Fin 4096, cntA (Vin main_arg14 : S2x131072.Idx → BitVec 32) p j') 1) := by
  rw [adj_term]
  exact tAdj_apply _ p j

theorem adj_apply_inrange
    (hr : ∀ (r : Fin 2) (e : Fin 131072), 0 ≤ ((Vin main_arg14 : S2x131072.Idx → BitVec 32) (ix2 r e)).toInt
      ∧ ((Vin main_arg14 : S2x131072.Idx → BitVec 32) (ix2 r e)).toInt < 4096) (p j : Fin 4096) :
    (StableHlo.after hostOps0 Vin main_v23 : S4096x4096.Idx → EReal) (ix2 p j)
      = Ideal.div (cntE (Vin main_arg14 : S2x131072.Idx → BitVec 32) p j)
          (max (0 + ∑ j' : Fin 4096, cntE (Vin main_arg14 : S2x131072.Idx → BitVec 32) p j') 1) := by
  have h : ∀ j' : Fin 4096, cntA (Vin main_arg14 : S2x131072.Idx → BitVec 32) p j' = cntE (Vin main_arg14 : S2x131072.Idx → BitVec 32) p j' :=
    fun j' => cntA_inrange (Vin main_arg14 : S2x131072.Idx → BitVec 32) hr p j'
  rw [adj_apply, h j, Finset.sum_congr rfl (fun j' _ => h j')]

theorem v24_apply (p : Fin 4096) (k : Fin 1024) :
    (StableHlo.after hostOps0 Vin main_v24 : S4096x1024.Idx → EReal) (ix2 p k)
      = (Vin main_arg0 : S5000x1024.Idx → EReal) (ix2 (⟨p.val, by have := p.isLt; omega⟩ : Fin 5000) k) := by
  have e : (StableHlo.after hostOps0 Vin main_v24 : S4096x1024.Idx → EReal)
      = extractStridedSlice S4096x1024 ![0, 0] (Vin main_arg0 : S5000x1024.Idx → EReal) slices_S5000x1024_S4096x1024_0_0 := by
    dsimp only [hostOps0]
    after_results_simp <;> rfl
  rw [e]
  exact extractStridedSlice_apply ![0, 0] _ slices_S5000x1024_S4096x1024_0_0 (ix2 p k) (ix2 (⟨p.val, _⟩ : Fin 5000) k)
    (fun a => match a with
      | ⟨0, _⟩ => by show p.val = 0 + p.val; omega
      | ⟨1, _⟩ => by show k.val = 0 + k.val; omega)

theorem v25_apply (k : Fin 1024) (q : Fin 232) :
    (StableHlo.after hostOps0 Vin main_v25 : S1024x232.Idx → EReal) (ix2 k q)
      = (Vin main_arg1 : S232x1024.Idx → EReal) (ix2 q k) := by
  have e : (StableHlo.after hostOps0 Vin main_v25 : S1024x232.Idx → EReal)
      = transpose S1024x232 [1, 0] (Vin main_arg1 : S232x1024.Idx → EReal) transposes_S232x1024_S1024x232_1_0 := by
    dsimp only [hostOps0]
    after_results_simp <;> rfl
  rw [e]
  exact transpose_apply [1, 0] _ transposes_S232x1024_S1024x232_1_0 (ix2 k q) (ix2 q k) (fun b => match b with
    | ⟨0, _⟩ => rfl
    | ⟨1, _⟩ => rfl)

theorem v26_apply (q : Fin 232) :
    (StableHlo.after hostOps0 Vin main_v26 : S1x232.Idx → EReal) (ix2 (0 : Fin 1) q)
      = (Vin main_arg2 : S232.Idx → EReal) (ix1 q) := by
  have e : (StableHlo.after hostOps0 Vin main_v26 : S1x232.Idx → EReal)
      = shapeCast S1x232 (Vin main_arg2 : S232.Idx → EReal) shapeCasts_S232_S1x232 := by
    dsimp only [hostOps0]
    after_results_simp <;> rfl
  rw [e]
  exact shapeCast_apply _ shapeCasts_S232_S1x232 (ix2 (0 : Fin 1) q) (ix1 q)
    (by rewrite [Shape.rowMajor_val_one, Shape.rowMajor_val_two]; show q.val = 0 * 232 + q.val; omega)

end Cert.KernelIdeal.Val
end
-- ==== Proof.RefImports.lean ====
import proofs.«426456_j87411174408700_1_alg».proof.Proof.Gen.ReferenceIdeal.Run
import proofs.«426456_j87411174408700_1_alg».proof.Proof.Gen.ReferenceIdeal.Read
-- ==== Proof.LibRows.lean ====
import Idealize.ShloMosaic.Lib.ValueIdx
import Idealize.ShloMosaic.Lib.Pipeline.Value
import Idealize.ShloMosaic.PureOps.Ideal.Laws

noncomputable section

open scoped BigOperators

namespace Idealize.ShloMosaic.ValueIdx

open Idealize.ShloMosaic

abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem rowGather_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show (1 : Fin 2) ∉ (rowGatherDims N E C wf).startIndexMap by simp)]
    rw [hs]
    have hk : (rowGatherDims N E C wf).sKept = [(1 : Fin 2)] := rfl
    unfold GatherDims.offCoord
    rw [dif_pos (show (1 : Fin 2) ∈ (rowGatherDims N E C wf).sKept from by rw [hk]; exact List.mem_singleton.mpr rfl)]
    have hi : List.idxOf (1 : Fin 2) (rowGatherDims N E C wf).sKept = 0 := by rw [hk]; exact List.idxOf_cons_self
    simp only [hi, Nat.zero_add]
    rfl

abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

private theorem rowScatter_resultIdx {N E C w : ℕ}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatterDims N E C wf).resultIdx? (ix2 e c') idx = some (ix2 n c)
      ↔ (idx (ix2 e (0 : Fin 1))).toInt = (n.val : ℤ) ∧ c' = c := by
  have hs0 : (rowScatterDims N E C wf).start (ix2 e c') idx (0 : Fin 2) = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e c') ⟨List.idxOf (0 : Fin 2) (rowScatterDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatterDims N E C wf).start (ix2 e c') idx (1 : Fin 2) = 0 := by
    unfold ScatterDims.start
    rw [dif_neg (show (1 : Fin 2) ∉ (rowScatterDims N E C wf).scatterDimsToOperandDims by simp)]
  have hk : (rowScatterDims N E C wf).sKept = [(1 : Fin 2)] := rfl
  have hw0 : (rowScatterDims N E C wf).window (ix2 e c') (0 : Fin 2) = 0 := by
    unfold ScatterDims.window
    rw [dif_neg (show (0 : Fin 2) ∉ (rowScatterDims N E C wf).sKept by rw [hk]; simp)]
  have hw1 : (rowScatterDims N E C wf).window (ix2 e c') (1 : Fin 2) = c'.val := by
    unfold ScatterDims.window
    rw [dif_pos (show (1 : Fin 2) ∈ (rowScatterDims N E C wf).sKept from by rw [hk]; exact List.mem_singleton.mpr rfl)]
    have hi : List.idxOf (1 : Fin 2) (rowScatterDims N E C wf).sKept = 0 := by rw [hk]; exact List.idxOf_cons_self
    simp only [hi]
    rfl
  constructor
  · intro h
    unfold ScatterDims.resultIdx? at h
    split at h
    · rename_i hb
      have h' := Option.some.inj h
      have h0 : ((rowScatterDims N E C wf).start (ix2 e c') idx (0 : Fin 2) + ((rowScatterDims N E C wf).window (ix2 e c') (0 : Fin 2) : ℤ)).toNat = n.val :=
        congrArg (fun f : (⟨2, ![N, C]⟩ : Shape).Idx => (f 0).val) h'
      have h1 : ((rowScatterDims N E C wf).start (ix2 e c') idx (1 : Fin 2) + ((rowScatterDims N E C wf).window (ix2 e c') (1 : Fin 2) : ℤ)).toNat = c.val :=
        congrArg (fun f : (⟨2, ![N, C]⟩ : Shape).Idx => (f 1).val) h'
      have hb0 := (hb 0).1
      have hb1 := (hb 1).1
      rw [hs0, hw0] at h0 hb0
      rw [hs1, hw1] at h1 hb1
      exact ⟨by omega, Fin.ext (by omega)⟩
    · exact absurd h (by simp)
  · rintro ⟨hrow, rfl⟩
    unfold ScatterDims.resultIdx?
    have hb : ∀ a : Fin 2, 0 ≤ (rowScatterDims N E C wf).start (ix2 e c') idx a + ((rowScatterDims N E C wf).window (ix2 e c') a : ℤ)
        ∧ (rowScatterDims N E C wf).start (ix2 e c') idx a + ((rowScatterDims N E C wf).window (ix2 e c') a : ℤ) < ((⟨2, ![N, C]⟩ : Shape).size a : ℤ) := by
      intro a
      match a with
      | ⟨0, _⟩ =>
        show 0 ≤ (rowScatterDims N E C wf).start (ix2 e c') idx (0 : Fin 2) + ((rowScatterDims N E C wf).window (ix2 e c') (0 : Fin 2) : ℤ)
          ∧ (rowScatterDims N E C wf).start (ix2 e c') idx (0 : Fin 2) + ((rowScatterDims N E C wf).window (ix2 e c') (0 : Fin 2) : ℤ) < (N : ℤ)
        rw [hs0, hw0, hrow]
        have := n.isLt
        omega
      | ⟨1, _⟩ =>
        show 0 ≤ (rowScatterDims N E C wf).start (ix2 e c') idx (1 : Fin 2) + ((rowScatterDims N E C wf).window (ix2 e c') (1 : Fin 2) : ℤ)
          ∧ (rowScatterDims N E C wf).start (ix2 e c') idx (1 : Fin 2) + ((rowScatterDims N E C wf).window (ix2 e c') (1 : Fin 2) : ℤ) < (C : ℤ)
        rw [hs1, hw1]
        have := c'.isLt
        omega
    rw [dif_pos hb]
    congr 1
    funext a
    refine Fin.ext ?_
    match a with
    | ⟨0, _⟩ =>
      show ((rowScatterDims N E C wf).start (ix2 e c') idx (0 : Fin 2) + ((rowScatterDims N E C wf).window (ix2 e c') (0 : Fin 2) : ℤ)).toNat = n.val
      rw [hs0, hw0, hrow]
      omega
    | ⟨1, _⟩ =>
      show ((rowScatterDims N E C wf).start (ix2 e c') idx (1 : Fin 2) + ((rowScatterDims N E C wf).window (ix2 e c') (1 : Fin 2) : ℤ)).toNat = c'.val
      rw [hs1, hw1]
      omega

theorem rowScatterAdd_apply {N E C w : ℕ}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (n : Fin N) (c : Fin C) :
    Host.scatterAdd (F := Ideal) (rowScatterDims N E C wf) x idx upd (ix2 n c)
      = x (ix2 n c) + ∑ e ∈ Finset.univ.filter (fun e : Fin E => (idx (ix2 e (0 : Fin 1))).toInt = (n.val : ℤ)),
          upd (ix2 e c) := by
  show Ideal.hostScatterAdd (rowScatterDims N E C wf) x idx upd (ix2 n c) = _
  unfold Ideal.hostScatterAdd
  congr 1
  rw [Finset.sum_filter, sum_idx2, Finset.sum_filter]
  refine Finset.sum_congr rfl fun e _ => ?_
  simp only [rowScatter_resultIdx]
  by_cases hrow : (idx (ix2 e (0 : Fin 1))).toInt = (n.val : ℤ)
  · simp only [hrow, true_and, if_true]
    rw [Finset.sum_ite_eq' Finset.univ c (fun c' => upd (ix2 e c'))]
    simp only [Finset.mem_univ, if_true]
  · simp only [hrow, false_and, if_false, Finset.sum_const_zero]

end Idealize.ShloMosaic.ValueIdx

end
-- ==== Proof.RefStages.lean ====
import proofs.«426456_j87411174408700_1_alg».proof.Proof.RefImports
import proofs.«426456_j87411174408700_1_alg».proof.Proof.LibRows
import proofs.«426456_j87411174408700_1_alg».proof.Proof.LibScatter1
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.Stages

open Cert.ReferenceIdeal Cert.ReferenceIdeal.Gen Cert.ReferenceIdeal.Read Idealize.ShloMosaic ValueIdx

variable (x0 : (⟨S5000x1024, .f32⟩ : BufTy).Contents (Elt Ideal)) (x1 : (⟨S232x1024, .f32⟩ : BufTy).Contents (Elt Ideal))
  (x2 : (⟨S232, .f32⟩ : BufTy).Contents (Elt Ideal)) (x3 : (⟨S256x232, .f32⟩ : BufTy).Contents (Elt Ideal))
  (x4 : (⟨S256, .f32⟩ : BufTy).Contents (Elt Ideal)) (x5 : (⟨S256x232, .f32⟩ : BufTy).Contents (Elt Ideal))
  (x6 : (⟨S232x256, .f32⟩ : BufTy).Contents (Elt Ideal)) (x7 : (⟨S232, .f32⟩ : BufTy).Contents (Elt Ideal))
  (x8 : (⟨S232x256, .f32⟩ : BufTy).Contents (Elt Ideal)) (x9 : (⟨S100000x768, .f32⟩ : BufTy).Contents (Elt Ideal))
  (x10 : (⟨S232x768, .f32⟩ : BufTy).Contents (Elt Ideal)) (x11 : (⟨S232, .f32⟩ : BufTy).Contents (Elt Ideal))
  (x12 : (⟨S2x232, .f32⟩ : BufTy).Contents (Elt Ideal)) (x13 : (⟨S2, .f32⟩ : BufTy).Contents (Elt Ideal))
  (x14 : (⟨S2x131072, .i32⟩ : BufTy).Contents (Elt Ideal)) (x15 x16 : (⟨S16384, .i32⟩ : BufTy).Contents (Elt Ideal))

local macro "idx_eq2" : tactic =>
  `(tactic| (funext a; refine Fin.ext ?_; match a with | ⟨0, _⟩ => rfl | ⟨1, _⟩ => rfl))

local macro "idx_eq1" : tactic =>
  `(tactic| (funext a; refine Fin.ext ?_; match a with | ⟨0, _⟩ => rfl))

theorem ref5 (p : Fin 4096) (q : Fin 232) :
    val_main_v5 (F := Ideal) x0 x1 x2 (ix2 p q)
      = (∑ k : Fin 1024, x0 (ix2 (⟨p.val, by omega⟩ : Fin 5000) k) * x1 (ix2 q k)) + x2 (ix1 q) := by
  rw [val_main_v5_apply, val_main_v4_apply, val_main_v1_apply, val_main_v3_apply, val_main_v2_apply]
  simp only [val_main_v0_apply, Ideal.addf_def]
  refine congrArg₂ (· + ·) (Finset.sum_congr rfl fun k _ => congrArg₂ (· * ·) (congrArg x0 ?_) (congrArg x1 ?_)) (congrArg x2 ?_)
  · idx_eq2
  · idx_eq2
  · idx_eq1

abbrev wrap4096 (v : BitVec 32) : BitVec 32 :=
  Scalar.select (IntOp.cmpi .slt v 0#32) (IntOp.addi v 4096#32) v

abbrev srcRow (x14 : (⟨S2x131072, .i32⟩ : BufTy).Contents (Elt Ideal)) (e : Fin 131072) : Fin 4096 :=
  ⟨min (wrap4096 (x14 (ix2 (0 : Fin 2) e))).toInt.toNat (4096 - 1), by omega⟩

abbrev edgesInto (x14 : (⟨S2x131072, .i32⟩ : BufTy).Contents (Elt Ideal)) (p : Fin 4096) : Finset (Fin 131072) :=
  Finset.univ.filter (fun e : Fin 131072 => (x14 (ix2 (1 : Fin 2) e)).toInt = (p.val : ℤ))

private theorem row1_idx (e : Fin 131072) :
    idx_main_v8 (idx_main_v9 (ix1 e)) = ix2 (1 : Fin 2) e := by
  funext a; refine Fin.ext ?_
  match a with
  | ⟨0, _⟩ => rfl
  | ⟨1, _⟩ => exact Nat.mod_eq_of_lt e.isLt

private theorem row0_idx (e : Fin 131072) :
    idx_main_v6 (idx_main_v7 (ix1 e)) = ix2 (0 : Fin 2) e := by
  funext a; refine Fin.ext ?_
  match a with
  | ⟨0, _⟩ => rfl
  | ⟨1, _⟩ => exact Nat.mod_eq_of_lt e.isLt

theorem ref18 (e : Fin 131072) :
    val_main_v18 (F := Ideal) x14 (ix2 e (0 : Fin 1)) = x14 (ix2 (1 : Fin 2) e) := by
  rw [val_main_v18_apply, val_main_v9_apply, val_main_v8_apply]
  have e1 : idx_main_v18 (ix2 e (0 : Fin 1)) = ix1 e := by idx_eq1
  rw [e1, row1_idx]

theorem ref22 (e : Fin 131072) :
    val_main_v22 (F := Ideal) x14 (ix2 e (0 : Fin 1)) = x14 (ix2 (1 : Fin 2) e) := by
  rw [val_main_v22_apply, val_main_v9_apply, val_main_v8_apply]
  have e1 : idx_main_v22 (ix2 e (0 : Fin 1)) = ix1 e := by idx_eq1
  rw [e1, row1_idx]

theorem ref15 (e : Fin 131072) :
    val_main_v15 (F := Ideal) x14 (ix2 e (0 : Fin 1)) = wrap4096 (x14 (ix2 (0 : Fin 2) e)) := by
  rw [val_main_v15_apply, val_main_v14_apply, val_main_v11_apply, val_main_v13_apply, val_main_v7_apply,
    val_main_v6_apply, val_main_v10_apply, val_main_v12_apply, val_main_c_apply, val_main_c_0_apply]
  have e1 : idx_main_v15 (ix2 e (0 : Fin 1)) = ix1 e := by idx_eq1
  rw [e1, row0_idx]

theorem ref16 (e : Fin 131072) (q : Fin 232) :
    val_main_v16 (F := Ideal) x0 x1 x2 x14 (ix2 e q)
      = val_main_v5 (F := Ideal) x0 x1 x2 (ix2 (srcRow x14 e) q) := by
  unfold val_main_v16
  refine (rowGather_apply (N := 4096) (E := 131072) (C := 232) (by omega)
    gather_S4096x232_S131072x1_S131072x232_1_0_n_n_0_1_1232_wf
    (val_main_v5 (F := Ideal) x0 x1 x2) (val_main_v15 (F := Ideal) x14) e q).trans ?_
  refine congrArg (fun r : Fin 4096 => val_main_v5 (F := Ideal) x0 x1 x2 (ix2 r q)) (Fin.ext ?_)
  show min (BitVec.toInt (val_main_v15 (F := Ideal) x14 (ix2 e (0 : Fin 1)))).toNat (4096 - 1)
    = min (BitVec.toInt (wrap4096 (x14 (ix2 (0 : Fin 2) e)))).toNat (4096 - 1)
  rw [ref15]

theorem ref19 (p : Fin 4096) (q : Fin 232) :
    val_main_v19 (F := Ideal) x0 x1 x2 x14 (ix2 p q)
      = Ideal.ofBits .f32 0x00000000#32
          + ∑ e ∈ edgesInto x14 p, val_main_v5 (F := Ideal) x0 x1 x2 (ix2 (srcRow x14 e) q) := by
  unfold val_main_v19
  refine (rowScatterAdd_apply (N := 4096) (E := 131072) (C := 232)
    scatter_S4096x232_S131072x1_S131072x232_1_0_0_1_wf
    (val_main_v17 (F := Ideal)) (val_main_v18 (F := Ideal) x14) (val_main_v16 (F := Ideal) x0 x1 x2 x14) p q).trans ?_
  rw [val_main_v17_apply, val_main_cst_apply]
  simp only [ref18, ref16]
  rfl

theorem ref23 (p : Fin 4096) :
    val_main_v23 (F := Ideal) x14 (ix1 p)
      = Ideal.ofBits .f32 0x00000000#32 + ∑ e ∈ edgesInto x14 p, Ideal.ofBits .f32 0x3F800000#32 := by
  unfold val_main_v23
  refine (vecScatterAdd_apply (N := 4096) (E := 131072)
    scatter_S4096_S131072x1_S131072_n_0_0_1_wf
    (val_main_v21 (F := Ideal)) (val_main_v22 (F := Ideal) x14) (val_main_v20 (F := Ideal)) p).trans ?_
  rw [val_main_v21_apply, val_main_cst_2_apply]
  simp only [ref22, val_main_v20_apply, val_main_cst_1_apply]
  rfl

theorem ref28 (p : Fin 4096) (q : Fin 232) :
    val_main_v28 (F := Ideal) x0 x1 x2 x14 (ix2 p q)
      = Ideal.div
          (Ideal.ofBits .f32 0x00000000#32
            + ∑ e ∈ edgesInto x14 p, val_main_v5 (F := Ideal) x0 x1 x2 (ix2 (srcRow x14 e) q))
          (max (Ideal.ofBits .f32 0x00000000#32 + ∑ e ∈ edgesInto x14 p, Ideal.ofBits .f32 0x3F800000#32)
            (Ideal.ofBits .f32 0x3F800000#32)) := by
  rw [val_main_v28_apply, val_main_v27_apply, val_main_v26_apply, val_main_v25_apply, val_main_v24_apply,
    val_main_cst_3_apply]
  have e1 : idx_main_v26 (idx_main_v27 (ix2 p q)) = ix1 p := by idx_eq1
  rw [e1, ref19, ref23]
  rfl

theorem ref37 (p : Fin 4096) (q : Fin 256) :
    val_main_v37 (F := Ideal) x0 x1 x2 x3 x4 x5 x14 (ix2 p q)
      = max (((∑ d : Fin 232, val_main_v28 (F := Ideal) x0 x1 x2 x14 (ix2 p d) * x3 (ix2 q d)) + x4 (ix1 q))
          + (∑ d : Fin 232, val_main_v5 (F := Ideal) x0 x1 x2 (ix2 p d) * x5 (ix2 q d))) 0 := by
  rw [val_main_v37_apply, val_main_v36_apply, val_main_v33_apply, val_main_v30_apply, val_main_v32_apply,
    val_main_v31_apply, val_main_v35_apply, val_main_call0_v0_apply, val_main_call0_cst_apply]
  simp only [val_main_v29_apply, val_main_v34_apply, Ideal.addf_def, Ideal.maximumf_def]
  refine congrArg₂ max (congrArg₂ (· + ·) (congrArg₂ (· + ·)
    (Finset.sum_congr rfl fun k _ => congrArg₂ (· * ·) (congrArg (val_main_v28 (F := Ideal) x0 x1 x2 x14) ?_) (congrArg x3 ?_))
    (congrArg x4 ?_))
    (Finset.sum_congr rfl fun k _ => congrArg₂ (· * ·) (congrArg (val_main_v5 (F := Ideal) x0 x1 x2) ?_) (congrArg x5 ?_)))
    Ideal.ofBits_zero_f32
  · idx_eq2
  · idx_eq2
  · idx_eq1
  · idx_eq2
  · idx_eq2

private theorem row1_idx' (e : Fin 131072) :
    idx_main_v40 (idx_main_v41 (ix1 e)) = ix2 (1 : Fin 2) e := by
  funext a; refine Fin.ext ?_
  match a with
  | ⟨0, _⟩ => rfl
  | ⟨1, _⟩ => exact Nat.mod_eq_of_lt e.isLt

private theorem row0_idx' (e : Fin 131072) :
    idx_main_v38 (idx_main_v39 (ix1 e)) = ix2 (0 : Fin 2) e := by
  funext a; refine Fin.ext ?_
  match a with
  | ⟨0, _⟩ => rfl
  | ⟨1, _⟩ => exact Nat.mod_eq_of_lt e.isLt

theorem ref50 (e : Fin 131072) :
    val_main_v50 (F := Ideal) x14 (ix2 e (0 : Fin 1)) = x14 (ix2 (1 : Fin 2) e) := by
  rw [val_main_v50_apply, val_main_v41_apply, val_main_v40_apply]
  have e1 : idx_main_v50 (ix2 e (0 : Fin 1)) = ix1 e := by idx_eq1
  rw [e1, row1_idx']

theorem ref54 (e : Fin 131072) :
    val_main_v54 (F := Ideal) x14 (ix2 e (0 : Fin 1)) = x14 (ix2 (1 : Fin 2) e) := by
  rw [val_main_v54_apply, val_main_v41_apply, val_main_v40_apply]
  have e1 : idx_main_v54 (ix2 e (0 : Fin 1)) = ix1 e := by idx_eq1
  rw [e1, row1_idx']

theorem ref47 (e : Fin 131072) :
    val_main_v47 (F := Ideal) x14 (ix2 e (0 : Fin 1)) = wrap4096 (x14 (ix2 (0 : Fin 2) e)) := by
  rw [val_main_v47_apply, val_main_v46_apply, val_main_v43_apply, val_main_v45_apply, val_main_v39_apply,
    val_main_v38_apply, val_main_v42_apply, val_main_v44_apply, val_main_c_4_apply, val_main_c_5_apply]
  have e1 : idx_main_v47 (ix2 e (0 : Fin 1)) = ix1 e := by idx_eq1
  rw [e1, row0_idx']

theorem ref48 (e : Fin 131072) (q : Fin 256) :
    val_main_v48 (F := Ideal) x0 x1 x2 x3 x4 x5 x14 (ix2 e q)
      = val_main_v37 (F := Ideal) x0 x1 x2 x3 x4 x5 x14 (ix2 (srcRow x14 e) q) := by
  unfold val_main_v48
  refine (rowGather_apply (N := 4096) (E := 131072) (C := 256) (by omega)
    gather_S4096x256_S131072x1_S131072x256_1_0_n_n_0_1_1256_wf
    (val_main_v37 (F := Ideal) x0 x1 x2 x3 x4 x5 x14) (val_main_v47 (F := Ideal) x14) e q).trans ?_
  refine congrArg (fun r : Fin 4096 => val_main_v37 (F := Ideal) x0 x1 x2 x3 x4 x5 x14 (ix2 r q)) (Fin.ext ?_)
  show min (BitVec.toInt (val_main_v47 (F := Ideal) x14 (ix2 e (0 : Fin 1)))).toNat (4096 - 1)
    = min (BitVec.toInt (wrap4096 (x14 (ix2 (0 : Fin 2) e)))).toNat (4096 - 1)
  rw [ref47]

theorem ref51 (p : Fin 4096) (q : Fin 256) :
    val_main_v51 (F := Ideal) x0 x1 x2 x3 x4 x5 x14 (ix2 p q)
      = Ideal.ofBits .f32 0x00000000#32
          + ∑ e ∈ edgesInto x14 p, val_main_v37 (F := Ideal) x0 x1 x2 x3 x4 x5 x14 (ix2 (srcRow x14 e) q) := by
  unfold val_main_v51
  refine (rowScatterAdd_apply (N := 4096) (E := 131072) (C := 256)
    scatter_S4096x256_S131072x1_S131072x256_1_0_0_1_wf
    (val_main_v49 (F := Ideal)) (val_main_v50 (F := Ideal) x14)
    (val_main_v48 (F := Ideal) x0 x1 x2 x3 x4 x5 x14) p q).trans ?_
  rw [val_main_v49_apply, val_main_cst_6_apply]
  simp only [ref50, ref48]
  rfl

theorem ref55 (p : Fin 4096) :
    val_main_v55 (F := Ideal) x14 (ix1 p)
      = Ideal.ofBits .f32 0x00000000#32 + ∑ e ∈ edgesInto x14 p, Ideal.ofBits .f32 0x3F800000#32 := by
  unfold val_main_v55
  refine (vecScatterAdd_apply (N := 4096) (E := 131072)
    scatter_S4096_S131072x1_S131072_n_0_0_1_wf
    (val_main_v53 (F := Ideal)) (val_main_v54 (F := Ideal) x14) (val_main_v52 (F := Ideal)) p).trans ?_
  rw [val_main_v53_apply, val_main_cst_8_apply]
  simp only [ref54, val_main_v52_apply, val_main_cst_7_apply]
  rfl

theorem ref60 (p : Fin 4096) (q : Fin 256) :
    val_main_v60 (F := Ideal) x0 x1 x2 x3 x4 x5 x14 (ix2 p q)
      = Ideal.div
          (Ideal.ofBits .f32 0x00000000#32
            + ∑ e ∈ edgesInto x14 p, val_main_v37 (F := Ideal) x0 x1 x2 x3 x4 x5 x14 (ix2 (srcRow x14 e) q))
          (max (Ideal.ofBits .f32 0x00000000#32 + ∑ e ∈ edgesInto x14 p, Ideal.ofBits .f32 0x3F800000#32)
            (Ideal.ofBits .f32 0x3F800000#32)) := by
  rw [val_main_v60_apply, val_main_v59_apply, val_main_v58_apply, val_main_v57_apply, val_main_v56_apply,
    val_main_cst_9_apply]
  have e1 : idx_main_v58 (idx_main_v59 (ix2 p q)) = ix1 p := by idx_eq1
  rw [e1, ref51, ref55]
  rfl

theorem ref68 (p : Fin 4096) (q : Fin 232) :
    val_main_v68 (F := Ideal) x0 x1 x2 x3 x4 x5 x6 x7 x8 x14 (ix2 p q)
      = ((∑ d : Fin 256, val_main_v60 (F := Ideal) x0 x1 x2 x3 x4 x5 x14 (ix2 p d) * x6 (ix2 q d)) + x7 (ix1 q))
          + (∑ d : Fin 256, val_main_v37 (F := Ideal) x0 x1 x2 x3 x4 x5 x14 (ix2 p d) * x8 (ix2 q d)) := by
  rw [val_main_v68_apply, val_main_v65_apply, val_main_v62_apply, val_main_v64_apply, val_main_v63_apply,
    val_main_v67_apply]
  simp only [val_main_v61_apply, val_main_v66_apply, Ideal.addf_def]
  refine congrArg₂ (· + ·) (congrArg₂ (· + ·)
    (Finset.sum_congr rfl fun k _ => congrArg₂ (· * ·) (congrArg (val_main_v60 (F := Ideal) x0 x1 x2 x3 x4 x5 x14) ?_) (congrArg x6 ?_))
    (congrArg x7 ?_))
    (Finset.sum_congr rfl fun k _ => congrArg₂ (· * ·) (congrArg (val_main_v37 (F := Ideal) x0 x1 x2 x3 x4 x5 x14) ?_) (congrArg x8 ?_))
  · idx_eq2
  · idx_eq2
  · idx_eq1
  · idx_eq2
  · idx_eq2

theorem ref75 :
    val_main_v75 (F := Ideal) x0 x1 x2 x3 x4 x5 x6 x7 x8 x14 x15
      = Host.gather gather_S4096x232_S16384x1_S16384x232_1_0_n_n_0_1_1232
          (val_main_v68 (F := Ideal) x0 x1 x2 x3 x4 x5 x6 x7 x8 x14) (val_main_v74 (F := Ideal) x15) := rfl

theorem ref82 :
    val_main_v82 (F := Ideal) x9 x16
      = Host.gather gather_S100000x768_S16384x1_S16384x768_1_0_n_n_0_1_1768 x9 (val_main_v81 (F := Ideal) x16) := rfl

theorem ref74 (e : Fin 16384) :
    val_main_v74 (F := Ideal) x15 (ix2 e (0 : Fin 1))
      = Scalar.select (IntOp.cmpi .slt (x15 (ix1 e)) 0#32) (IntOp.addi (x15 (ix1 e)) 4096#32) (x15 (ix1 e)) := by
  rw [val_main_v74_apply, val_main_v73_apply, val_main_v70_apply, val_main_v72_apply, val_main_v69_apply,
    val_main_v71_apply, val_main_c_10_apply, val_main_c_11_apply]
  have e1 : idx_main_v74 (ix2 e (0 : Fin 1)) = ix1 e := by idx_eq1
  rw [e1]

theorem ref81 (e : Fin 16384) :
    val_main_v81 (F := Ideal) x16 (ix2 e (0 : Fin 1))
      = Scalar.select (IntOp.cmpi .slt (x16 (ix1 e)) 0#32) (IntOp.addi (x16 (ix1 e)) 100000#32) (x16 (ix1 e)) := by
  rw [val_main_v81_apply, val_main_v80_apply, val_main_v77_apply, val_main_v79_apply, val_main_v76_apply,
    val_main_v78_apply, val_main_c_12_apply, val_main_c_13_apply]
  have e1 : idx_main_v81 (ix2 e (0 : Fin 1)) = ix1 e := by idx_eq1
  rw [e1]

theorem ref87 (p : Fin 16384) (q : Fin 232) :
    val_main_v87 (F := Ideal) x9 x10 x11 x16 (ix2 p q)
      = (∑ k : Fin 768, val_main_v82 (F := Ideal) x9 x16 (ix2 p k) * x10 (ix2 q k)) + x11 (ix1 q) := by
  rw [val_main_v87_apply, val_main_v84_apply, val_main_v86_apply, val_main_v85_apply]
  simp only [val_main_v83_apply, Ideal.addf_def]
  refine congrArg₂ (· + ·)
    (Finset.sum_congr rfl fun k _ => congrArg₂ (· * ·) (congrArg (val_main_v82 (F := Ideal) x9 x16) ?_) (congrArg x10 ?_))
    (congrArg x11 ?_)
  · idx_eq2
  · idx_eq2
  · idx_eq1

theorem ref93 (p : Fin 16384) (o : Fin 2) :
    val_main_v93 (F := Ideal) x0 x1 x2 x3 x4 x5 x6 x7 x8 x9 x10 x11 x12 x13 x14 x15 x16 (ix2 p o)
      = (∑ d : Fin 232, (val_main_v75 (F := Ideal) x0 x1 x2 x3 x4 x5 x6 x7 x8 x14 x15 (ix2 p d)
            * val_main_v87 (F := Ideal) x9 x10 x11 x16 (ix2 p d)) * x12 (ix2 o d)) + x13 (ix1 o) := by
  rw [val_main_v93_apply, val_main_v90_apply, val_main_v92_apply, val_main_v91_apply]
  simp only [val_main_v88_apply, val_main_v89_apply, Ideal.addf_def, Ideal.mulf_def]
  refine congrArg₂ (· + ·)
    (Finset.sum_congr rfl fun k _ => congrArg₂ (· * ·) (congrArg₂ (· * ·)
      (congrArg (val_main_v75 (F := Ideal) x0 x1 x2 x3 x4 x5 x6 x7 x8 x14 x15) ?_)
      (congrArg (val_main_v87 (F := Ideal) x9 x10 x11 x16) ?_)) (congrArg x12 ?_))
    (congrArg x13 ?_)
  · idx_eq2
  · idx_eq2
  · idx_eq2
  · idx_eq1

theorem ofBits_one_f32 : Ideal.ofBits .f32 0x3F800000#32 = 1 := by
  have h1 : (BitVec.extractLsb' (8 + 23) 1 (0x3F800000#32) == 1#1) = false := by decide
  have h2 : (BitVec.extractLsb' 23 8 (0x3F800000#32)).toNat = 127 := by decide
  have h3 : (BitVec.extractLsb' 0 23 (0x3F800000#32)).toNat = 0 := by decide
  simp only [Ideal.ofBits, Ideal.ieee, h1, h2, h3]
  norm_num

theorem ref28_01 (p : Fin 4096) (q : Fin 232) :
    val_main_v28 (F := Ideal) x0 x1 x2 x14 (ix2 p q)
      = Ideal.div (∑ e ∈ edgesInto x14 p, val_main_v5 (F := Ideal) x0 x1 x2 (ix2 (srcRow x14 e) q))
          (max (∑ e ∈ edgesInto x14 p, (1 : Ideal .f32)) 1) := by
  rw [ref28, Ideal.ofBits_zero_f32, ofBits_one_f32, zero_add, zero_add]

theorem ref60_01 (p : Fin 4096) (q : Fin 256) :
    val_main_v60 (F := Ideal) x0 x1 x2 x3 x4 x5 x14 (ix2 p q)
      = Ideal.div (∑ e ∈ edgesInto x14 p, val_main_v37 (F := Ideal) x0 x1 x2 x3 x4 x5 x14 (ix2 (srcRow x14 e) q))
          (max (∑ e ∈ edgesInto x14 p, (1 : Ideal .f32)) 1) := by
  rw [ref60, Ideal.ofBits_zero_f32, ofBits_one_f32, zero_add, zero_add]

end Cert.ReferenceIdeal.Stages

end
-- ==== Proof.AggLaw.lean ====
import Mathlib.Data.EReal.Operations
import Mathlib.Data.EReal.Inv
import Mathlib.Algebra.BigOperators.Group.Finset.Basic
import Idealize.ShloMosaic.PureOps.Ideal

noncomputable section

open scoped BigOperators

namespace Idealize.ShloMosaic.AggLaw

open Idealize.ShloMosaic Finset

theorem sum_one_eq_card {ι : Type*} (S : Finset ι) : ∑ _e ∈ S, (1 : EReal) = ((S.card : ℝ) : EReal) := by
  rw [Finset.sum_const, EReal.nsmul_eq_mul, mul_one]
  rfl

theorem card_mul_eq_sum {ι : Type*} (S : Finset ι) (x : EReal) : ((S.card : ℝ) : EReal) * x = ∑ _e ∈ S, x := by
  rw [Finset.sum_const, EReal.nsmul_eq_mul]
  rfl

theorem sum_mul_coe {ι : Type*} (T : Finset ι) (f : ι → EReal) {k : ℝ} (hk : 0 ≤ k) :
    (∑ i ∈ T, f i) * (k : EReal) = ∑ i ∈ T, f i * (k : EReal) := by
  classical
  induction T using Finset.induction_on with
  | empty => simp
  | insert a T ha ih =>
    rw [Finset.sum_insert ha, Finset.sum_insert ha,
      EReal.right_distrib_of_nonneg_of_ne_top (by exact_mod_cast hk) (EReal.coe_ne_top k), ih]

section
variable {E N : ℕ} (s d : Fin E → Fin N) (X : Fin N → EReal)

def cntE (p j : Fin N) : EReal := (0 : EReal) + ∑ _e ∈ univ.filter (fun e => d e = p ∧ s e = j), (1 : EReal)

def degK (p : Fin N) : EReal := (0 : EReal) + ∑ j : Fin N, cntE s d p j

def degR (p : Fin N) : EReal := (0 : EReal) + ∑ _e ∈ univ.filter (fun e => d e = p), (1 : EReal)

theorem filter_and (p j : Fin N) :
    univ.filter (fun e => d e = p ∧ s e = j) = (univ.filter (fun e => d e = p)).filter (fun e => s e = j) := by
  rw [Finset.filter_filter]

theorem cntE_eq_card (p j : Fin N) :
    cntE s d p j = ((((univ.filter (fun e => d e = p)).filter (fun e => s e = j)).card : ℝ) : EReal) := by
  unfold cntE
  rw [zero_add, filter_and, sum_one_eq_card]

theorem deg_eq (p : Fin N) : degK s d p = degR d p := by
  unfold degK degR cntE
  congr 1
  simp only [zero_add, filter_and]
  exact Finset.sum_fiberwise (univ.filter (fun e => d e = p)) s (fun _ => (1 : EReal))

theorem degR_eq_card (p : Fin N) : degR d p = (((univ.filter (fun e => d e = p)).card : ℝ) : EReal) := by
  unfold degR
  rw [zero_add, sum_one_eq_card]

theorem max_degR_one (p : Fin N) :
    max (degR d p) 1 = ((max ((univ.filter (fun e => d e = p)).card : ℝ) 1 : ℝ) : EReal) := by
  rw [degR_eq_card, EReal.coe_strictMono.monotone.map_max]
  rfl

theorem agg_law (p : Fin N) :
    ∑ j : Fin N, Ideal.div (cntE s d p j) (max (degK s d p) 1) * X j
      = Ideal.div (0 + ∑ e ∈ univ.filter (fun e => d e = p), X (s e)) (max (degR d p) 1) := by
  have hr : (max ((univ.filter (fun e => d e = p)).card : ℝ) 1 : ℝ) ≠ 0 := by
    have : (1 : ℝ) ≤ max ((univ.filter (fun e => d e = p)).card : ℝ) 1 := le_max_right _ _
    intro h; rw [h] at this; exact absurd this (by norm_num)
  have hk : (0 : ℝ) ≤ 1 / max ((univ.filter (fun e => d e = p)).card : ℝ) 1 := by
    apply div_nonneg zero_le_one
    exact le_trans zero_le_one (le_max_right _ _)
  rw [deg_eq, max_degR_one, Ideal.div_coe hr]
  simp only [Ideal.div_coe hr]
  rw [zero_add, sum_mul_coe _ _ hk, ← Finset.sum_fiberwise (univ.filter (fun e => d e = p)) s]
  refine Finset.sum_congr rfl fun j _ => ?_
  rw [cntE_eq_card, mul_right_comm, card_mul_eq_sum, sum_mul_coe _ _ hk]
  refine Finset.sum_congr rfl fun e he => ?_
  rw [(Finset.mem_filter.mp he).2]

theorem agg_law_sums (p : Fin N) :
    ∑ j : Fin N, Ideal.div ((0 : EReal) + ∑ _e ∈ univ.filter (fun e => d e = p ∧ s e = j), (1 : EReal))
        (max ((0 : EReal) + ∑ j' : Fin N, ((0 : EReal) + ∑ _e ∈ univ.filter (fun e => d e = p ∧ s e = j'), (1 : EReal))) 1) * X j
      = Ideal.div (0 + ∑ e ∈ univ.filter (fun e => d e = p), X (s e))
          (max ((0 : EReal) + ∑ _e ∈ univ.filter (fun e => d e = p), (1 : EReal)) 1) :=
  agg_law s d X p

theorem deg_eq_sums (p : Fin N) :
    (0 : EReal) + ∑ j : Fin N, ((0 : EReal) + ∑ _e ∈ univ.filter (fun e => d e = p ∧ s e = j), (1 : EReal))
      = (0 : EReal) + ∑ _e ∈ univ.filter (fun e => d e = p), (1 : EReal) :=
  deg_eq s d p

end

end Idealize.ShloMosaic.AggLaw

end
-- ==== Proof.AggBridge.lean ====
import proofs.«426456_j87411174408700_1_alg».proof.Proof.RefStages
import proofs.«426456_j87411174408700_1_alg».proof.Proof.AggLaw
import Idealize.ShloMosaic.Lib.ValueIdx

set_option maxRecDepth 16384

noncomputable section

open scoped BigOperators

namespace Cert.Bridge

open Idealize.ShloMosaic ValueIdx
open Cert.ReferenceIdeal.Stages (wrap4096 srcRow edgesInto)

variable (x14 : (⟨Cert.ReferenceIdeal.S2x131072, .i32⟩ : BufTy).Contents (Elt Ideal))

def cnt (p j : Fin 4096) : EReal :=
  (0 : EReal) + ∑ _e ∈ Finset.univ.filter (fun e : Fin 131072 =>
    (x14 (ix2 (1 : Fin 2) e)).toInt.toNat = p.val ∧ (x14 (ix2 (0 : Fin 2) e)).toInt.toNat = j.val), (1 : EReal)

theorem wrap_of_nonneg (v : BitVec 32) (h : 0 ≤ v.toInt) : wrap4096 v = v := by
  have hs : BitVec.slt v 0#32 = false := by
    rw [BitVec.slt, decide_eq_false_iff_not, not_lt]
    exact h
  show Scalar.select (IntOp.cmpi .slt v 0#32) (IntOp.addi v 4096#32) v = v
  have hc : IntOp.cmpi .slt v 0#32 = 0#1 := by
    unfold IntOp.cmpi
    rw [hs]; rfl
  rw [hc]
  exact select_zero _ _

variable (hr : ∀ (r : Fin 2) (e : Fin 131072), 0 ≤ (x14 (ix2 r e)).toInt ∧ (x14 (ix2 r e)).toInt < 4096)

def srcF (e : Fin 131072) : Fin 4096 := ⟨(x14 (ix2 (0 : Fin 2) e)).toInt.toNat, by have := hr 0 e; omega⟩
def dstF (e : Fin 131072) : Fin 4096 := ⟨(x14 (ix2 (1 : Fin 2) e)).toInt.toNat, by have := hr 1 e; omega⟩

theorem srcRow_eq (e : Fin 131072) : srcRow x14 e = srcF x14 hr e := by
  refine Fin.ext ?_
  show min (wrap4096 (x14 (ix2 (0 : Fin 2) e))).toInt.toNat (4096 - 1) = (x14 (ix2 (0 : Fin 2) e)).toInt.toNat
  rw [wrap_of_nonneg _ (hr 0 e).1]
  have := hr 0 e
  omega

theorem edgesInto_eq (p : Fin 4096) : edgesInto x14 p = Finset.univ.filter (fun e => dstF x14 hr e = p) := by
  refine Finset.filter_congr fun e _ => ?_
  have := hr 1 e
  constructor
  · intro h
    refine Fin.ext ?_
    show (x14 (ix2 (1 : Fin 2) e)).toInt.toNat = p.val
    omega
  · intro h
    have h' : (x14 (ix2 (1 : Fin 2) e)).toInt.toNat = p.val := congrArg Fin.val h
    omega

theorem cnt_eq (p j : Fin 4096) : cnt x14 p j = AggLaw.cntE (srcF x14 hr) (dstF x14 hr) p j := by
  unfold cnt AggLaw.cntE
  refine congrArg _ (Finset.sum_congr (Finset.filter_congr fun e _ => ?_) fun _ _ => rfl)
  exact and_congr (Fin.ext_iff (a := dstF x14 hr e) (b := p)).symm (Fin.ext_iff (a := srcF x14 hr e) (b := j)).symm

include hr in

theorem agg_bridge (X : Fin 4096 → EReal) (p : Fin 4096) :
    ∑ j : Fin 4096, Ideal.div (cnt x14 p j) (max ((0 : EReal) + ∑ j' : Fin 4096, cnt x14 p j') 1) * X j
      = Ideal.div (∑ e ∈ edgesInto x14 p, X (srcRow x14 e)) (max (∑ _e ∈ edgesInto x14 p, (1 : EReal)) 1) := by
  simp only [cnt_eq x14 hr, srcRow_eq x14 hr, edgesInto_eq x14 hr]
  refine (AggLaw.agg_law (srcF x14 hr) (dstF x14 hr) X p).trans ?_
  unfold AggLaw.degR
  rw [zero_add, zero_add]

end Cert.Bridge

end
-- ==== Proof.IVal0.lean ====
import proofs.«426456_j87411174408700_1_alg».proof.Proof.IReg0
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem lhs0_0 (i : S1024x232.Idx) (q : dot_S1024x1024_S1024x232_S1024x232_1_0_0_1_n_n.contr.Idx) : (dot_S1024x1024_S1024x232_S1024x232_1_0_0_1_n_n.lhsIdx i q 0).val = (i 0).val := by
  unfold DotDims.lhsIdx
  rw [dif_neg (show ¬(0 : Fin S1024x1024.rank) ∈ dot_S1024x1024_S1024x232_S1024x232_1_0_0_1_n_n.lhsBatch by decide), dif_pos (show (0 : Fin S1024x1024.rank) ∈ dot_S1024x1024_S1024x232_S1024x232_1_0_0_1_n_n.lhsNonContracting by decide)]
  rfl
theorem lhs0_1 (i : S1024x232.Idx) (q : dot_S1024x1024_S1024x232_S1024x232_1_0_0_1_n_n.contr.Idx) : (dot_S1024x1024_S1024x232_S1024x232_1_0_0_1_n_n.lhsIdx i q 1).val = (q ⟨0, by decide⟩).val :=
  dot_S1024x1024_S1024x232_S1024x232_1_0_0_1_n_n.lhsIdx_val_of_single rfl i q
theorem rhs0_0 (i : S1024x232.Idx) (q : dot_S1024x1024_S1024x232_S1024x232_1_0_0_1_n_n.contr.Idx) : (dot_S1024x1024_S1024x232_S1024x232_1_0_0_1_n_n.rhsIdx i q 0).val = (q ⟨0, by decide⟩).val :=
  dot_S1024x1024_S1024x232_S1024x232_1_0_0_1_n_n.rhsIdx_val_of_single rfl i q
theorem rhs0_1 (i : S1024x232.Idx) (q : dot_S1024x1024_S1024x232_S1024x232_1_0_0_1_n_n.contr.Idx) : (dot_S1024x1024_S1024x232_S1024x232_1_0_0_1_n_n.rhsIdx i q 1).val = (i 1).val := by
  unfold DotDims.rhsIdx
  rw [dif_neg (show ¬(1 : Fin S1024x232.rank) ∈ dot_S1024x1024_S1024x232_S1024x232_1_0_0_1_n_n.rhsBatch by decide), dif_pos (show (1 : Fin S1024x232.rank) ∈ dot_S1024x1024_S1024x232_S1024x232_1_0_0_1_n_n.rhsNonContracting by decide)]
  rfl

theorem pay0_apply (x0 : S1024x1024.Idx → EReal) (x1 : S1024x232.Idx → EReal) (x2 : S1x232.Idx → EReal) (j : S1024x232.Idx) :
    k0_pay1 (F := Ideal) x0 x1 x2 j
      = (∑ k : Fin 1024, x0 (ix2 (j 0 : Fin 1024) k) * x1 (ix2 k (j 1 : Fin 232))) + x2 (ix2 (0 : Fin 1) (j 1 : Fin 232)) := by
  obtain ⟨a, b, rfl⟩ : ∃ (a : Fin 1024) (b : Fin 232), j = ix2 a b := ⟨j 0, j 1, eq_ix2 j⟩
  unfold k0_pay1
  simp only [shapeCast_self]
  rw [addf_apply]
  congr 1
  · simp only [matmul]
    rw [Ideal.matmul_constant_zero_apply, ← Equiv.sum_comp (contrEquiv1 dot_S1024x1024_S1024x232_S1024x232_1_0_0_1_n_n 1024 rfl rfl).symm]
    refine Finset.sum_congr rfl fun k _ => ?_
    have hk := contrEquiv1_symm_val dot_S1024x1024_S1024x232_S1024x232_1_0_0_1_n_n 1024 rfl rfl k
    have el : dot_S1024x1024_S1024x232_S1024x232_1_0_0_1_n_n.lhsIdx (ix2 a b) ((contrEquiv1 dot_S1024x1024_S1024x232_S1024x232_1_0_0_1_n_n 1024 rfl rfl).symm k) = ix2 a k := funext fun ax => Fin.ext (by
      match ax with
      | ⟨0, _⟩ => exact lhs0_0 _ _
      | ⟨1, _⟩ => exact (lhs0_1 _ _).trans hk)
    have er : dot_S1024x1024_S1024x232_S1024x232_1_0_0_1_n_n.rhsIdx (ix2 a b) ((contrEquiv1 dot_S1024x1024_S1024x232_S1024x232_1_0_0_1_n_n 1024 rfl rfl).symm k) = ix2 k b := funext fun ax => Fin.ext (by
      match ax with
      | ⟨0, _⟩ => exact (rhs0_0 _ _).trans hk
      | ⟨1, _⟩ => exact rhs0_1 _ _)
    rw [truncf_apply, truncf_apply, el, er]
  · exact broadcastTo_apply x2 _ (ix2 a b) (ix2 (0 : Fin 1) b) (fun ax => by
      match ax with
      | ⟨0, _⟩ => rfl
      | ⟨1, _⟩ => rfl)

theorem hz0 : (![0, 0] : Fin 2 → Nat) = fun _ => 0 := funext fun a => by fin_cases a <;> rfl

abbrev G0 (A : S4096x1024.Idx → EReal) (B : S1024x232.Idx → EReal) (C : S1x232.Idx → EReal) : S4096x232.Idx → EReal := fun i =>
  (∑ k : Fin 1024, A (ix2 (i 0 : Fin 4096) k) * B (ix2 k (i 1 : Fin 232))) + C (ix2 (0 : Fin 1) (i 1 : Fin 232))

theorem idx_facts0 : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 3 :=
  (by decide +kernel : ∀ t : Fin grid0.N, _)

theorem idx_onto0 : ∀ (q0 : Fin 4), ∃ t : Fin cfg0.N, win0_3.index t = ![q0.val, 0] :=
  (by decide +kernel : ∀ (q0 : Fin 4), ∃ t : Fin grid0.N, win0_3.index t = ![q0.val, 0])

set_option maxHeartbeats 1000000 in
theorem flushed0_eq (c : Dev nD) (t : Fin cfg0.N) :
    (dat0 V c).flushed 3 t = ((cfg0.win 3).blk t).view.read (Elt Ideal) (G0 (V c main_v24) (V c main_v25) (V c main_v26)) := by
  show (cfg0.win 3).cut (grid0.coords t) ((dat0 V c).after 3 t) = _
  rw [after0_3]
  unfold out0_3
  rw [View.canon_unit_zero hz0]
  simp only [View.ld_unit_zero (S := S1024x1024) hz0, View.ld_unit_zero (S := S1024x232) hz0, View.ld_unit_zero (S := S1x232) hz0]
  obtain ⟨e0, e1, e2, e3, e4, e5, e6, e7⟩ := idx_facts0 t
  funext j
  refine (pay0_apply _ _ _ j).trans ?_
  show _ = G0 (V c main_v24) (V c main_v25) (V c main_v26) (((cfg0.win 3).blk t).view.emb j)
  dsimp only [G0]
  have hj0 : (j 0).val < 1024 := (j 0).isLt
  have hj1 : (j 1).val < 232 := (j 1).isLt
  have h0 : ∀ k : Fin 1024, ((cfg0.win 0).blk t).view.emb (ix2 (j 0 : Fin 1024) k) = ix2 ((((cfg0.win 3).blk t).view.emb j) 0 : Fin 4096) k := fun k => by
    funext a; apply Fin.ext
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 1024 + 1 * k.val = k.val; omega
  have h1 : ∀ k : Fin 1024, ((cfg0.win 1).blk t).view.emb (ix2 k (j 1 : Fin 232)) = ix2 k ((((cfg0.win 3).blk t).view.emb j) 1 : Fin 232) := fun k => by
    funext a; apply Fin.ext
    match a with
    | ⟨0, _⟩ => show win0_1.index t (0 : Fin 2) * 1024 + 1 * k.val = k.val; omega
    | ⟨1, _⟩ => show win0_1.index t (1 : Fin 2) * 232 + 1 * (j 1).val = win0_3.index t (1 : Fin 2) * 232 + 1 * (j 1).val; omega
  have h2 : ((cfg0.win 2).blk t).view.emb (ix2 (0 : Fin 1) (j 1 : Fin 232)) = ix2 (0 : Fin 1) ((((cfg0.win 3).blk t).view.emb j) 1 : Fin 232) := by
    funext a; apply Fin.ext
    match a with
    | ⟨0, _⟩ => show win0_2.index t (0 : Fin 2) * 1 + 1 * 0 = 0; omega
    | ⟨1, _⟩ => show win0_2.index t (1 : Fin 2) * 232 + 1 * (j 1).val = win0_3.index t (1 : Fin 2) * 232 + 1 * (j 1).val; omega
  refine congrArg₂ (fun a b : EReal => a + b) (Finset.sum_congr rfl fun k _ => congrArg₂ (fun a b : EReal => a * b) ?_ ?_) ?_
  · exact congrArg (V c main_v24) (h0 k)
  · exact congrArg (V c main_v25) (h1 k)
  · exact congrArg (V c main_v26) h2

theorem mem_blk0 (t : Fin cfg0.N) (i : S4096x232.Idx) :
    i ∈ ((cfg0.win 3).blk t).view.set ↔ ∀ a : Fin 2, win0_3.index t a * S1024x232.size a ≤ (i a).val ∧ (i a).val < win0_3.index t a * S1024x232.size a + S1024x232.size a := by
  show i ∈ ((View.whole main_v27).slice (win0_3.rect t)).set ↔ _
  rw [View.set_slice_whole, Rect.mem_set_unit]
  exact Iff.rfl

theorem cover0 (i : S4096x232.Idx) : ∃ t : Fin cfg0.N, (cfg0.win 3).flush t = true ∧ i ∈ ((cfg0.win 3).blk t).view.set := by
  have hi0 : (i 0).val < 4096 := (i 0).isLt
  have hi1 : (i 1).val < 232 := (i 1).isLt
  obtain ⟨t, ht⟩ := idx_onto0 ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 232 ≤ (i 1).val ∧ (i 1).val < win0_3.index t (1 : Fin 2) * 232 + 232; omega

theorem final0 (c : Dev nD) : (dat0 (F := Ideal) V c).arrAt 3 cfg0.N = G0 (V c main_v24) (V c main_v25) (V c main_v26) :=
  (dat0 V c).arrAt_eq_of_cover 3 (G0 (V c main_v24) (V c main_v25) (V c main_v26)) (fun t _ => flushed0_eq V c t) cover0

theorem arr0 (c : Dev nD) (p : Fin 4096) (q : Fin 232) :
    (dat0 (F := Ideal) V c).arrAt 3 cfg0.N (ix2 p q) = G0 (V c main_v24) (V c main_v25) (V c main_v26) (ix2 p q) := by
  rw [final0]

theorem G0_apply (A : S4096x1024.Idx → EReal) (B : S1024x232.Idx → EReal) (C : S1x232.Idx → EReal) (p : Fin 4096) (q : Fin 232) :
    G0 A B C (ix2 p q) = (∑ k : Fin 1024, A (ix2 p k) * B (ix2 k q)) + C (ix2 (0 : Fin 1) q) := rfl

end Cert.KernelIdeal.Val
-- ==== Proof.Stage0.lean ====
import proofs.«426456_j87411174408700_1_alg».proof.Proof.IVal0
import proofs.«426456_j87411174408700_1_alg».proof.Proof.RefStages

set_option maxRecDepth 16384

noncomputable section

namespace Cert.Bridge

open Idealize.ShloMosaic Idealize.ShloMosaic.TcCoe Idealize.ShloMosaic.ValueIdx
open Cert.KernelIdeal Cert.KernelIdeal.Gen Cert.KernelIdeal.Val

theorem stage0 (V : (c : Dev nD) → (b : Ref sig .tc) → Buf (Elt Ideal) ((c : Thread nD τ).loc b)) (c : Dev nD)
    (x0 : (⟨Cert.ReferenceIdeal.S5000x1024, .f32⟩ : BufTy).Contents (Elt Ideal))
    (x1 : (⟨Cert.ReferenceIdeal.S232x1024, .f32⟩ : BufTy).Contents (Elt Ideal))
    (x2 : (⟨Cert.ReferenceIdeal.S232, .f32⟩ : BufTy).Contents (Elt Ideal))
    (A24 : S4096x1024.Idx → EReal) (A25 : S1024x232.Idx → EReal) (A26 : S1x232.Idx → EReal)
    (e24 : A24 = V c main_v24) (e25 : A25 = V c main_v25) (e26 : A26 = V c main_v26)
    (h24 : ∀ (p : Fin 4096) (k : Fin 1024), A24 (ix2 p k) = x0 (ix2 (⟨p.val, by omega⟩ : Fin 5000) k))
    (h25 : ∀ (k : Fin 1024) (q : Fin 232), A25 (ix2 k q) = x1 (ix2 q k))
    (h26 : ∀ q : Fin 232, A26 (ix2 (0 : Fin 1) q) = x2 (ix1 q)) :
    ((dat0 (F := Ideal) V c).arrAt 3 cfg0.N : S4096x232.Idx → EReal) = Cert.ReferenceIdeal.Read.val_main_v5 (F := Ideal) x0 x1 x2 := by
  funext i
  obtain ⟨p, q, rfl⟩ : ∃ (p : Fin 4096) (q : Fin 232), i = ix2 p q := ⟨i 0, i 1, eq_ix2 i⟩
  subst e24 e25 e26
  rw [arr0 V c p q, G0_apply, Cert.ReferenceIdeal.Stages.ref5]
  exact congrArg₂ (fun a b : EReal => a + b)
    (Finset.sum_congr rfl fun k _ => congrArg₂ (fun a b : EReal => a * b) (h24 p k) (h25 k q)) (h26 q)

end Cert.Bridge
-- ==== Proof.IVal1.lean ====
import proofs.«426456_j87411174408700_1_alg».proof.Proof.IDef1
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic ValueIdx
open Idealize.ShloMosaic.TcCoe Idealize.SL.Sem
open Idealize.ShloMosaic.Pipeline (Dat)
open scoped BigOperators

theorem lhs1_0 (i : S1024x232.Idx) (k : dot_S1024x1024_S1024x232_S1024x232_1_0_0_1_n_n.contr.Idx) :
    (dot_S1024x1024_S1024x232_S1024x232_1_0_0_1_n_n.lhsIdx i k 0).val = (i 0).val := by
  unfold DotDims.lhsIdx
  rw [dif_neg (show ¬(0 : Fin S1024x1024.rank) ∈ dot_S1024x1024_S1024x232_S1024x232_1_0_0_1_n_n.lhsBatch by decide), dif_pos (show (0 : Fin S1024x1024.rank) ∈ dot_S1024x1024_S1024x232_S1024x232_1_0_0_1_n_n.lhsNonContracting by decide)]
  rfl
theorem lhs1_1 (i : S1024x232.Idx) (k : dot_S1024x1024_S1024x232_S1024x232_1_0_0_1_n_n.contr.Idx) :
    (dot_S1024x1024_S1024x232_S1024x232_1_0_0_1_n_n.lhsIdx i k 1).val = (k ⟨0, by decide⟩).val :=
  dot_S1024x1024_S1024x232_S1024x232_1_0_0_1_n_n.lhsIdx_val_of_single rfl i k
theorem rhs1_0 (i : S1024x232.Idx) (k : dot_S1024x1024_S1024x232_S1024x232_1_0_0_1_n_n.contr.Idx) :
    (dot_S1024x1024_S1024x232_S1024x232_1_0_0_1_n_n.rhsIdx i k 0).val = (k ⟨0, by decide⟩).val :=
  dot_S1024x1024_S1024x232_S1024x232_1_0_0_1_n_n.rhsIdx_val_of_single rfl i k
theorem rhs1_1 (i : S1024x232.Idx) (k : dot_S1024x1024_S1024x232_S1024x232_1_0_0_1_n_n.contr.Idx) :
    (dot_S1024x1024_S1024x232_S1024x232_1_0_0_1_n_n.rhsIdx i k 1).val = (i 1).val := by
  unfold DotDims.rhsIdx
  rw [dif_neg (show ¬(1 : Fin S1024x232.rank) ∈ dot_S1024x1024_S1024x232_S1024x232_1_0_0_1_n_n.rhsBatch by decide), dif_pos (show (1 : Fin S1024x232.rank) ∈ dot_S1024x1024_S1024x232_S1024x232_1_0_0_1_n_n.rhsNonContracting by decide)]
  rfl

theorem k1_pay2_apply (acc : Vec Ideal S1024x232 .f32) (a : Vec Ideal S1024x1024 .bf16) (b : Vec Ideal S1024x232 .bf16)
    (r : Fin 1024) (q : Fin 232) :
    (k1_pay2 acc a b : S1024x232.Idx → EReal) (ix2 r q)
      = (acc : S1024x232.Idx → EReal) (ix2 r q) + ∑ jj : Fin 1024, (a : S1024x1024.Idx → EReal) (ix2 r jj) * (b : S1024x232.Idx → EReal) (ix2 jj q) := by
  unfold k1_pay2
  simp only [shapeCast_self, matmul]
  rw [addf_apply, Ideal.matmul_constant_zero_apply,
    ← Equiv.sum_comp (contrEquiv1 dot_S1024x1024_S1024x232_S1024x232_1_0_0_1_n_n 1024 rfl rfl).symm]
  refine congrArg _ (Finset.sum_congr rfl fun k _ => ?_)
  have hk := contrEquiv1_symm_val dot_S1024x1024_S1024x232_S1024x232_1_0_0_1_n_n 1024 rfl rfl k
  have el : dot_S1024x1024_S1024x232_S1024x232_1_0_0_1_n_n.lhsIdx (ix2 r q) ((contrEquiv1 dot_S1024x1024_S1024x232_S1024x232_1_0_0_1_n_n 1024 rfl rfl).symm k) = ix2 r k := funext fun x => Fin.ext (by
    match x with
    | ⟨0, _⟩ => exact lhs1_0 _ _
    | ⟨1, _⟩ => exact (lhs1_1 _ _).trans hk)
  have er : dot_S1024x1024_S1024x232_S1024x232_1_0_0_1_n_n.rhsIdx (ix2 r q) ((contrEquiv1 dot_S1024x1024_S1024x232_S1024x232_1_0_0_1_n_n 1024 rfl rfl).symm k) = ix2 k q := funext fun x => Fin.ext (by
    match x with
    | ⟨0, _⟩ => exact (rhs1_0 _ _).trans hk
    | ⟨1, _⟩ => exact rhs1_1 _ _)
  rw [el, er]

theorem k1_pay1_apply (i : S1024x232.Idx) : (k1_pay1 (F := Ideal) : S1024x232.Idx → EReal) i = 0 := by
  unfold k1_pay1
  simp only [shapeCast_self]
  exact Ideal.ofBits_zero_f32

theorem sum_cols1 (f : Fin 4096 → EReal) :
    ∑ j : Fin 4096, f j = ∑ k : Fin 4, ∑ jj : Fin 1024, f ⟨1024 * k.val + jj.val, by omega⟩ := by
  rw [← Equiv.sum_comp (finProdFinEquiv (m := 4) (n := 1024)) f, Fintype.sum_prod_type]
  refine Finset.sum_congr rfl fun k _ => Finset.sum_congr rfl fun jj _ => congrArg f (Fin.ext ?_)
  show jj.val + 1024 * k.val = 1024 * k.val + jj.val
  omega

theorem idx_facts1 : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0 :=
  (by decide +kernel : ∀ t : Fin grid1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0)

variable (V : (c : Dev nD) → (b : Ref sig .tc) → Buf (Elt Ideal) ((c : Thread nD τ).loc b))

abbrev arrA1 (c : Dev nD) : S4096x4096.Idx → EReal := V c main_v23
abbrev arrX1 (c : Dev nD) : S4096x232.Idx → EReal := V c main_v28

abbrev blkA1 (c : Dev nD) (t : Fin cfg1.N) : S1024x1024.Idx → EReal := iblk1 V c 0 t
abbrev blkX1 (c : Dev nD) (t : Fin cfg1.N) : S1024x232.Idx → EReal := iblk1 V c 1 t

theorem iblk1_0_apply (c : Dev nD) (t : Fin cfg1.N) (r jj : Fin 1024) (P J : Fin 4096)
    (hP : P.val = 1024 * (t.val / 4) + r.val) (hJ : J.val = 1024 * (t.val % 4) + jj.val) :
    blkA1 V c t (ix2 r jj) = arrA1 V c (ix2 P J) := by
  obtain ⟨e0, e1, -, -, -, -⟩ := idx_facts1 t
  show iblk1 V c _ t _ = _
  unfold iblk1
  rw [View.read_apply]
  show (V c main_v23 : S4096x4096.Idx → EReal) _ = _
  refine congrArg _ (funext fun a => Fin.ext ?_)
  match a with
  | ⟨0, _⟩ => show win1_0.index t (0 : Fin 2) * 1024 + 1 * r.val = P.val; rw [e0, hP]; omega
  | ⟨1, _⟩ => show win1_0.index t (1 : Fin 2) * 1024 + 1 * jj.val = J.val; rw [e1, hJ]; omega

theorem iblk1_1_apply (c : Dev nD) (t : Fin cfg1.N) (jj : Fin 1024) (q : Fin 232) (J : Fin 4096)
    (hJ : J.val = 1024 * (t.val % 4) + jj.val) :
    blkX1 V c t (ix2 jj q) = arrX1 V c (ix2 J q) := by
  obtain ⟨-, -, e2, e3, -, -⟩ := idx_facts1 t
  show iblk1 V c _ t _ = _
  unfold iblk1
  rw [View.read_apply]
  show (V c main_v28 : S4096x232.Idx → EReal) _ = _
  refine congrArg _ (funext fun a => Fin.ext ?_)
  match a with
  | ⟨0, _⟩ => show win1_1.index t (0 : Fin 2) * 1024 + 1 * jj.val = J.val; rw [e2, hJ]; omega
  | ⟨1, _⟩ => show win1_1.index t (1 : Fin 2) * 232 + 1 * q.val = q.val; rw [e3]; omega

theorem acc1_reset (c : Dev nD) (n : Nat) (h : n < cfg1.N) (hm : n % 4 = 0) :
    accAfter1 V c n h = k1_pay2 (k1_pay1 (F := Ideal)) (iblk1 V c 0 ⟨n, h⟩) (iblk1 V c 1 ⟨n, h⟩) := by
  cases n with
  | zero => rfl
  | succ n => rw [accAfter1, if_pos hm]

theorem acc1_step (c : Dev nD) (n : Nat) (h : n + 1 < cfg1.N) (hm : ¬(n + 1) % 4 = 0) :
    accAfter1 V c (n + 1) h
      = k1_pay2 (accAfter1 V c n (Nat.lt_of_succ_lt h)) (iblk1 V c 0 ⟨n + 1, h⟩) (iblk1 V c 1 ⟨n + 1, h⟩) := by
  rw [accAfter1, if_neg hm]

def term1 (c : Dev nD) (t : Fin cfg1.N) (r : Fin 1024) (q : Fin 232) : EReal :=
  ∑ jj : Fin 1024, blkA1 V c t (ix2 r jj) * blkX1 V c t (ix2 jj q)

theorem term1_eq (c : Dev nD) (t : Fin cfg1.N) (k : Fin 4) (hk : t.val % 4 = k.val) (r : Fin 1024) (q : Fin 232)
    (p : Fin 4096) (hp : p.val = 1024 * (t.val / 4) + r.val) :
    term1 V c t r q = ∑ jj : Fin 1024,
      arrA1 V c (ix2 p (⟨1024 * k.val + jj.val, by omega⟩ : Fin 4096))
        * arrX1 V c (ix2 (⟨1024 * k.val + jj.val, by omega⟩ : Fin 4096) q) := by
  unfold term1
  refine Finset.sum_congr rfl fun jj _ => ?_
  rw [iblk1_0_apply V c t r jj p ⟨1024 * k.val + jj.val, by omega⟩ hp (by rw [hk]),
    iblk1_1_apply V c t jj q ⟨1024 * k.val + jj.val, by omega⟩ (by rw [hk])]

theorem acc1_run (c : Dev nD) (b : Nat) (hb : b % 4 = 0) (h : b + 1 + 1 + 1 < cfg1.N) (r : Fin 1024) (q : Fin 232) :
    (accAfter1 V c (b + 1 + 1 + 1) h : S1024x232.Idx → EReal) (ix2 r q)
      = 0 + term1 V c ⟨b, by omega⟩ r q + term1 V c ⟨b + 1, by omega⟩ r q + term1 V c ⟨b + 1 + 1, by omega⟩ r q
          + term1 V c ⟨b + 1 + 1 + 1, h⟩ r q := by
  rw [acc1_step V c (b + 1 + 1) h (by omega), k1_pay2_apply, acc1_step V c (b + 1) (by omega) (by omega), k1_pay2_apply,
    acc1_step V c b (by omega) (by omega), k1_pay2_apply, acc1_reset V c b (by omega) hb, k1_pay2_apply, k1_pay1_apply]
  rfl

theorem acc1_flush (c : Dev nD) (t : Fin cfg1.N) (h3 : t.val % 4 = 3) (r : Fin 1024) (q : Fin 232)
    (p : Fin 4096) (hp : p.val = 1024 * (t.val / 4) + r.val) :
    (accAfter1 V c t.val t.isLt : S1024x232.Idx → EReal) (ix2 r q)
      = ∑ j : Fin 4096, arrA1 V c (ix2 p j) * arrX1 V c (ix2 j q) := by
  obtain ⟨n, hn⟩ := t
  obtain ⟨b, rfl⟩ : ∃ b, n = b + 1 + 1 + 1 := ⟨n - 3, by dsimp only at h3; omega⟩
  dsimp only at h3 hp ⊢
  have hN : cfg1.N = 16 := N_1
  rw [acc1_run V c b (by omega) hn r q,
    term1_eq V c ⟨b, by omega⟩ 0 (by dsimp only; omega) r q p (by dsimp only; omega),
    term1_eq V c ⟨b + 1, by omega⟩ 1 (by dsimp only; omega) r q p (by dsimp only; omega),
    term1_eq V c ⟨b + 1 + 1, by omega⟩ 2 (by dsimp only; omega) r q p (by dsimp only; omega),
    term1_eq V c ⟨b + 1 + 1 + 1, hn⟩ 3 (by dsimp only; omega) r q p (by dsimp only; omega),
    sum_cols1, Fin.sum_univ_four, zero_add]

def G1 (c : Dev nD) : S4096x232.Idx → EReal := fun i =>
  ∑ j : Fin 4096, arrA1 V c (ix2 (⟨(i 0).val, idx2_lt0 i⟩ : Fin 4096) j) * arrX1 V c (ix2 j (⟨(i 1).val, idx2_lt1 i⟩ : Fin 232))

variable {V} in

theorem flushed1_eq (c : Dev nD) (dat : Pipeline.Dat τ (Elt Ideal) Unit ℕ (UR sig nD τ) ℕ cfg1 c)
    (hafter : ∀ t : Fin cfg1.N, dat.after 2 t = accAfter1 V c t.val t.isLt)
    (t : Fin cfg1.N) (hf : (cfg1.win 2).flush t = true) :
    dat.flushed 2 t = ((cfg1.win 2).blk t).view.read (Elt Ideal) (G1 V c) := by
  have h3 : t.val % 4 = 3 := (flush1_2 t).mp hf
  have hN : cfg1.N = 16 := N_1
  have ht : t.val < 16 := hN ▸ t.isLt
  obtain ⟨-, -, -, -, e4, e5⟩ := idx_facts1 t
  show (cfg1.win 2).cut (grid1.coords t) (dat.after 2 t) = _
  rw [hafter]
  refine funext fun (y : S1024x232.Idx) => ?_
  obtain ⟨r, q, rfl⟩ : ∃ (r : Fin 1024) (q : Fin 232), y = ix2 r q := ⟨y 0, y 1, eq_ix2 y⟩
  rw [View.read_apply]
  have hemb : ((cfg1.win 2).blk t).view.emb (ix2 r q)
      = (ix2 (⟨1024 * (t.val / 4) + r.val, by omega⟩ : Fin 4096) q : S4096x232.Idx) := by
    refine funext fun a => Fin.ext ?_
    match a with
    | ⟨0, _⟩ => show win1_2.index t (0 : Fin 2) * 1024 + 1 * r.val = 1024 * (t.val / 4) + r.val; rw [e4]; omega
    | ⟨1, _⟩ => show win1_2.index t (1 : Fin 2) * 232 + 1 * q.val = q.val; rw [e5]; omega
  show (accAfter1 V c t.val t.isLt : S1024x232.Idx → EReal) (ix2 r q) = G1 V c (((cfg1.win 2).blk t).view.emb (ix2 r q))
  rw [hemb]
  exact acc1_flush V c t h3 r q ⟨1024 * (t.val / 4) + r.val, by omega⟩ rfl

theorem cover1 (i : S4096x232.Idx) :
    ∃ t : Fin cfg1.N, (cfg1.win 2).flush t = true ∧ i ∈ ((cfg1.win 2).blk t).view.set := by
  have hN : cfg1.N = 16 := N_1
  have h0 : (i 0).val < 4096 := idx2_lt0 i
  have h1 : (i 1).val < 232 := idx2_lt1 i
  obtain ⟨t, ht⟩ : ∃ t : Fin cfg1.N, t.val = 4 * ((i 0).val / 1024) + 3 := ⟨⟨4 * ((i 0).val / 1024) + 3, by omega⟩, rfl⟩
  refine ⟨t, (flush1_2 t).mpr (by omega), ?_⟩
  obtain ⟨-, -, -, -, e4, e5⟩ := idx_facts1 t
  show i ∈ ((View.whole main_v29).slice (win1_2.rect t)).set
  rw [View.set_slice_whole, Rect.mem_set_unit]
  intro a
  match a with
  | ⟨0, _⟩ =>
    show win1_2.index t (0 : Fin 2) * 1024 ≤ (i 0).val ∧ (i 0).val < win1_2.index t (0 : Fin 2) * 1024 + 1024
    rw [e4]; omega
  | ⟨1, _⟩ =>
    show win1_2.index t (1 : Fin 2) * 232 ≤ (i 1).val ∧ (i 1).val < win1_2.index t (1 : Fin 2) * 232 + 232
    rw [e5]; omega

variable {V} in

theorem arr1_of (c : Dev nD) (dat : Pipeline.Dat τ (Elt Ideal) Unit ℕ (UR sig nD τ) ℕ cfg1 c)
    (hA : ∀ w, dat.A w = V c (Pipeline.arrRef spec1 w))
    (hafter : ∀ t : Fin cfg1.N, dat.after 2 t = accAfter1 V c t.val t.isLt)
    (A : S4096x4096.Idx → EReal) (X : S4096x232.Idx → EReal) (hadj : A = V c main_v23) (hx : X = V c main_v28)
    (p : Fin 4096) (q : Fin 232) :
    (dat.arrAt 2 cfg1.N : S4096x232.Idx → EReal) (ix2 p q) = ∑ j : Fin 4096, A (ix2 p j) * X (ix2 j q) := by
  subst hadj hx
  rw [dat.arrAt_eq_of_cover 2 (G1 V c) (fun t hf => flushed1_eq c dat hafter t hf) cover1]
  rfl

end Cert.KernelIdeal.Val

end
-- ==== Proof.Stage1.lean ====
import proofs.«426456_j87411174408700_1_alg».proof.Proof.IVal1
import proofs.«426456_j87411174408700_1_alg».proof.Proof.RefStages
import proofs.«426456_j87411174408700_1_alg».proof.Proof.AggLaw
import proofs.«426456_j87411174408700_1_alg».proof.Proof.AggBridge
set_option maxRecDepth 16384

noncomputable section

open scoped BigOperators

namespace Cert.Bridge

open Idealize.ShloMosaic Idealize.ShloMosaic.TcCoe ValueIdx Cert.KernelIdeal Cert.KernelIdeal.Gen Cert.KernelIdeal.Val

theorem stage1 {V : (c : Dev nD) → (b : Ref sig .tc) → Buf (Elt Ideal) ((c : Thread nD τ).loc b)} (c : Dev nD)
    (dat : Pipeline.Dat τ (Elt Ideal) Unit ℕ (UR sig nD τ) ℕ cfg1 c)
    (hA : ∀ w, dat.A w = V c (Pipeline.arrRef spec1 w))
    (hafter : ∀ t : Fin cfg1.N, dat.after 2 t = accAfter1 V c t.val t.isLt)
    (x0 : (⟨Cert.ReferenceIdeal.S5000x1024, .f32⟩ : BufTy).Contents (Elt Ideal))
    (x1 : (⟨Cert.ReferenceIdeal.S232x1024, .f32⟩ : BufTy).Contents (Elt Ideal))
    (x2 : (⟨Cert.ReferenceIdeal.S232, .f32⟩ : BufTy).Contents (Elt Ideal))
    (x14 : (⟨Cert.ReferenceIdeal.S2x131072, .i32⟩ : BufTy).Contents (Elt Ideal))
    (A23 : S4096x4096.Idx → EReal) (A28 : S4096x232.Idx → EReal) (e23 : A23 = V c main_v23) (e28 : A28 = V c main_v28)
    (hx : A28 = Cert.ReferenceIdeal.Read.val_main_v5 x0 x1 x2)
    (hr : ∀ (r : Fin 2) (e : Fin 131072), 0 ≤ (x14 (ix2 r e)).toInt ∧ (x14 (ix2 r e)).toInt < 4096)
    (hadj : ∀ p j : Fin 4096, A23 (ix2 p j)
      = Ideal.div (cnt x14 p j) (max ((0 : EReal) + ∑ j' : Fin 4096, cnt x14 p j') 1)) :
    (dat.arrAt 2 cfg1.N : S4096x232.Idx → EReal) = Cert.ReferenceIdeal.Read.val_main_v28 x0 x1 x2 x14 := by
  funext i
  obtain ⟨p, q, rfl⟩ : ∃ (p : Fin 4096) (q : Fin 232), i = ix2 p q := ⟨i 0, i 1, eq_ix2 i⟩
  rw [arr1_of c dat hA hafter A23 A28 e23 e28 p q]
  refine Eq.trans ?_ (Cert.ReferenceIdeal.Stages.ref28_01 x0 x1 x2 x14 p q).symm
  simp only [hadj]
  rw [hx]
  exact agg_bridge x14 hr (fun j => Cert.ReferenceIdeal.Read.val_main_v5 x0 x1 x2 (ix2 j q)) p

end Cert.Bridge

end
-- ==== Proof.IVal2.lean ====
import proofs.«426456_j87411174408700_1_alg».proof.Proof.IReg2
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

theorem mm2_apply {φ₁ φ₂ : FTy} (A : FVec Ideal S1024x232 φ₁) (B : FVec Ideal S232x256 φ₂) (a : Fin 1024) (b : Fin 256) :
    matmul dot_S1024x232_S232x256_S1024x256_1_0_0_1_n_n none A B (constant S1024x256 .f32 0x00000000#32) (ix2 a b)
      = ∑ d : Fin 232, A (ix2 a d) * B (ix2 d b) := by
  show FloatOps.matmul _ none A B _ (ix2 a b) = _
  rw [Ideal.matmul_constant_zero_apply,
    ← Equiv.sum_comp (contrEquiv1 dot_S1024x232_S232x256_S1024x256_1_0_0_1_n_n 232 rfl rfl).symm]
  refine Finset.sum_congr rfl fun d _ => ?_
  have c2 := contrEquiv1_symm_val dot_S1024x232_S232x256_S1024x256_1_0_0_1_n_n 232 rfl rfl d
  have l2 : dot_S1024x232_S232x256_S1024x256_1_0_0_1_n_n.lhsIdx (ix2 a b) ((contrEquiv1 _ 232 rfl rfl).symm d) = ix2 a d := by
    funext ax; apply Fin.ext
    match ax with
    | ⟨0, _⟩ => simp [DotDims.lhsIdx, dot_S1024x232_S232x256_S1024x256_1_0_0_1_n_n]; rfl
    | ⟨1, _⟩ => simp [DotDims.lhsIdx, dot_S1024x232_S232x256_S1024x256_1_0_0_1_n_n]; exact c2
  have r2 : dot_S1024x232_S232x256_S1024x256_1_0_0_1_n_n.rhsIdx (ix2 a b) ((contrEquiv1 _ 232 rfl rfl).symm d) = ix2 d b := by
    funext ax; apply Fin.ext
    match ax with
    | ⟨0, _⟩ => simp [DotDims.rhsIdx, dot_S1024x232_S232x256_S1024x256_1_0_0_1_n_n]; exact c2
    | ⟨1, _⟩ => simp [DotDims.rhsIdx, dot_S1024x232_S232x256_S1024x256_1_0_0_1_n_n]; rfl
  rw [l2, r2]

theorem pay2_apply (x0 x1 : Vec Ideal S1024x232 .f32) (x2 x3 : Vec Ideal S232x256 .f32) (x4 : Vec Ideal S1x256 .f32)
    (a : Fin 1024) (b : Fin 256) :
    k2_pay1 (F := Ideal) x0 x1 x2 x3 x4 (ix2 a b)
      = max (((∑ d : Fin 232, x0 (ix2 a d) * x2 (ix2 d b)) + (∑ d : Fin 232, x1 (ix2 a d) * x3 (ix2 d b))) + x4 (ix2 0 b)) 0 := by
  unfold k2_pay1
  rw [maximumf_apply, addf_apply, addf_apply, mm2_apply, mm2_apply, broadcast_apply]
  simp only [shapeCast_self, truncf_apply]
  rw [broadcastTo_apply (k := ix2 0 b)]
  · rw [show (Scalar.ofBits .f32 0x00000000#32 : Ideal .f32) = 0 from Ideal.ofBits_zero_f32]
  · intro ax
    match ax with
    | ⟨0, _⟩ => rfl
    | ⟨1, _⟩ => rfl

theorem hz2 : (![0, 0] : Fin 2 → Nat) = fun _ => 0 := funext fun a => by fin_cases a <;> rfl

theorem idx_facts2 : ∀ t : Fin cfg2.N, win2_0.index t (0 : Fin 2) = win2_5.index t (0 : Fin 2)
    ∧ win2_0.index t (1 : Fin 2) = 0
    ∧ win2_1.index t (0 : Fin 2) = win2_5.index t (0 : Fin 2)
    ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 3 ∧ win2_5.index t (1 : Fin 2) = 0 :=
  (by decide +kernel : ∀ t : Fin grid2.N, _)

theorem idx_onto2 : ∀ (q0 : Fin 4), ∃ t : Fin cfg2.N, win2_5.index t = ![q0.val, 0] :=
  (by decide +kernel : ∀ (q0 : Fin 4), ∃ t : Fin grid2.N, win2_5.index t = ![q0.val, 0])

theorem mem_blk2 (t : Fin cfg2.N) (i : S4096x256.Idx) :
    i ∈ ((cfg2.win 5).blk t).view.set ↔ ∀ a : Fin 2, win2_5.index t a * S1024x256.size a ≤ (i a).val ∧ (i a).val < win2_5.index t a * S1024x256.size a + S1024x256.size a := by
  show i ∈ ((View.whole main_v33).slice (win2_5.rect t)).set ↔ _
  rw [View.set_slice_whole, Rect.mem_set_unit]
  exact Iff.rfl

theorem cover2 (i : S4096x256.Idx) : ∃ t : Fin cfg2.N, (cfg2.win 5).flush t = true ∧ i ∈ ((cfg2.win 5).blk t).view.set := by
  have hi0 : (i 0).val < 4096 := (i 0).isLt
  have hi1 : (i 1).val < 256 := (i 1).isLt
  obtain ⟨t, ht⟩ := idx_onto2 ⟨(i 0).val / 1024, by omega⟩
  have q0 : win2_5.index t (0 : Fin 2) = (i 0).val / 1024 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 1024 ≤ (i 0).val ∧ (i 0).val < win2_5.index t (0 : Fin 2) * 1024 + 1024; omega
  | ⟨1, _⟩ => show win2_5.index t (1 : Fin 2) * 256 ≤ (i 1).val ∧ (i 1).val < win2_5.index t (1 : Fin 2) * 256 + 256; omega

variable (V : (c : Dev nD) → (b : Ref sig .tc) → Buf (Elt Ideal) ((c : Thread nD τ).loc b))

def G2 (x0 x1 : S4096x232.Idx → EReal) (w0 w1 : S232x256.Idx → EReal) (bs : S1x256.Idx → EReal) : S4096x256.Idx → EReal := fun i =>
  max (((∑ d : Fin 232, x0 (ix2 (i 0) d) * w0 (ix2 d (i 1))) + (∑ d : Fin 232, x1 (ix2 (i 0) d) * w1 (ix2 d (i 1)))) + bs (ix2 0 (i 1))) 0

theorem G2_apply (x0 x1 : S4096x232.Idx → EReal) (w0 w1 : S232x256.Idx → EReal) (bs : S1x256.Idx → EReal) (p : Fin 4096) (q : Fin 256) :
    G2 x0 x1 w0 w1 bs (ix2 p q)
      = max (((∑ d : Fin 232, x0 (ix2 p d) * w0 (ix2 d q)) + (∑ d : Fin 232, x1 (ix2 p d) * w1 (ix2 d q))) + bs (ix2 0 q)) 0 := rfl

set_option maxHeartbeats 2000000 in
theorem flushed2_eq (c : Dev nD) (t : Fin cfg2.N) :
    (dat2 (F := Ideal) V c).flushed 5 t = ((cfg2.win 5).blk t).view.read (Elt Ideal) (G2 (V c main_v29) (V c main_v27) (V c main_v30) (V c main_v31) (V c main_v32)) := by
  show (cfg2.win 5).cut (grid2.coords t) ((dat2 (F := Ideal) V c).after 5 t) = _
  rw [after2_5]
  unfold out2_5
  rw [View.canon_unit_zero hz2]
  simp only [View.ld_unit_zero (S := S1024x232) hz2, View.ld_unit_zero (S := S232x256) hz2, View.ld_unit_zero (S := S1x256) hz2]
  obtain ⟨e0, e1, e2, e3, e4, e5, e6, e7, e8, e9, e10, e11⟩ := idx_facts2 t
  funext j
  obtain ⟨a, b, rfl⟩ : ∃ (a : Fin 1024) (b : Fin 256), j = ix2 a b := ⟨j 0, j 1, eq_ix2 j⟩
  show k2_pay1 (F := Ideal) (iblk2 V c 0 t) (iblk2 V c 1 t) (iblk2 V c 2 t) (iblk2 V c 3 t) (iblk2 V c 4 t) (ix2 a b)
    = G2 (V c main_v29) (V c main_v27) (V c main_v30) (V c main_v31) (V c main_v32) (((cfg2.win 5).blk t).view.emb (ix2 a b))
  rw [pay2_apply]
  have r0 : ∀ d : Fin 232, (iblk2 V c 0 t : S1024x232.Idx → EReal) (ix2 a d)
      = (V c main_v29 : S4096x232.Idx → EReal) (ix2 ((((cfg2.win 5).blk t).view.emb (ix2 a b)) 0) d) := by
    intro d
    show (V c main_v29 : S4096x232.Idx → EReal) (((cfg2.win 0).blk t).view.emb (ix2 a d)) = _
    refine congrArg _ (funext fun ax => Fin.ext ?_)
    match ax with
    | ⟨0, _⟩ => show win2_0.index t (0 : Fin 2) * 1024 + 1 * a.val = win2_5.index t (0 : Fin 2) * 1024 + 1 * a.val; omega
    | ⟨1, _⟩ => show win2_0.index t (1 : Fin 2) * 232 + 1 * d.val = d.val; omega
  have r1 : ∀ d : Fin 232, (iblk2 V c 1 t : S1024x232.Idx → EReal) (ix2 a d)
      = (V c main_v27 : S4096x232.Idx → EReal) (ix2 ((((cfg2.win 5).blk t).view.emb (ix2 a b)) 0) d) := by
    intro d
    show (V c main_v27 : S4096x232.Idx → EReal) (((cfg2.win 1).blk t).view.emb (ix2 a d)) = _
    refine congrArg _ (funext fun ax => Fin.ext ?_)
    match ax with
    | ⟨0, _⟩ => show win2_1.index t (0 : Fin 2) * 1024 + 1 * a.val = win2_5.index t (0 : Fin 2) * 1024 + 1 * a.val; omega
    | ⟨1, _⟩ => show win2_1.index t (1 : Fin 2) * 232 + 1 * d.val = d.val; omega
  have r2 : ∀ d : Fin 232, (iblk2 V c 2 t : S232x256.Idx → EReal) (ix2 d b)
      = (V c main_v30 : S232x256.Idx → EReal) (ix2 d ((((cfg2.win 5).blk t).view.emb (ix2 a b)) 1)) := by
    intro d
    show (V c main_v30 : S232x256.Idx → EReal) (((cfg2.win 2).blk t).view.emb (ix2 d b)) = _
    refine congrArg _ (funext fun ax => Fin.ext ?_)
    match ax with
    | ⟨0, _⟩ => show win2_2.index t (0 : Fin 2) * 232 + 1 * d.val = d.val; omega
    | ⟨1, _⟩ => show win2_2.index t (1 : Fin 2) * 256 + 1 * b.val = win2_5.index t (1 : Fin 2) * 256 + 1 * b.val; omega
  have r3 : ∀ d : Fin 232, (iblk2 V c 3 t : S232x256.Idx → EReal) (ix2 d b)
      = (V c main_v31 : S232x256.Idx → EReal) (ix2 d ((((cfg2.win 5).blk t).view.emb (ix2 a b)) 1)) := by
    intro d
    show (V c main_v31 : S232x256.Idx → EReal) (((cfg2.win 3).blk t).view.emb (ix2 d b)) = _
    refine congrArg _ (funext fun ax => Fin.ext ?_)
    match ax with
    | ⟨0, _⟩ => show win2_3.index t (0 : Fin 2) * 232 + 1 * d.val = d.val; omega
    | ⟨1, _⟩ => show win2_3.index t (1 : Fin 2) * 256 + 1 * b.val = win2_5.index t (1 : Fin 2) * 256 + 1 * b.val; omega
  have r4 : (iblk2 V c 4 t : S1x256.Idx → EReal) (ix2 0 b)
      = (V c main_v32 : S1x256.Idx → EReal) (ix2 0 ((((cfg2.win 5).blk t).view.emb (ix2 a b)) 1)) := by
    show (V c main_v32 : S1x256.Idx → EReal) (((cfg2.win 4).blk t).view.emb (ix2 0 b)) = _
    refine congrArg _ (funext fun ax => Fin.ext ?_)
    match ax with
    | ⟨0, _⟩ => show win2_4.index t (0 : Fin 2) * 1 + 1 * 0 = 0; omega
    | ⟨1, _⟩ => show win2_4.index t (1 : Fin 2) * 256 + 1 * b.val = win2_5.index t (1 : Fin 2) * 256 + 1 * b.val; omega
  simp only [r0, r1, r2, r3, r4]
  unfold G2
  rfl

theorem arr2_eq (c : Dev nD) : (dat2 (F := Ideal) V c).arrAt 5 cfg2.N = G2 (V c main_v29) (V c main_v27) (V c main_v30) (V c main_v31) (V c main_v32) :=
  (dat2 (F := Ideal) V c).arrAt_eq_of_cover 5 (G2 (V c main_v29) (V c main_v27) (V c main_v30) (V c main_v31) (V c main_v32)) (fun t _ => flushed2_eq V c t) cover2

theorem arr2 (c : Dev nD) (p : Fin 4096) (q : Fin 256)
    (x0 x1 : S4096x232.Idx → EReal) (w0 w1 : S232x256.Idx → EReal) (bs : S1x256.Idx → EReal)
    (h0 : x0 = V c main_v29) (h1 : x1 = V c main_v27) (h2 : w0 = V c main_v30) (h3 : w1 = V c main_v31) (h4 : bs = V c main_v32) :
    ((dat2 (F := Ideal) V c).arrAt 5 cfg2.N : S4096x256.Idx → EReal) (ix2 p q)
      = max (((∑ d : Fin 232, x0 (ix2 p d) * w0 (ix2 d q)) + (∑ d : Fin 232, x1 (ix2 p d) * w1 (ix2 d q))) + bs (ix2 0 q)) 0 := by
  subst h0 h1 h2 h3 h4
  rw [arr2_eq]
  rfl

end Cert.KernelIdeal.Val
-- ==== Proof.Stage2.lean ====
import proofs.«426456_j87411174408700_1_alg».proof.Proof.IVal2
import proofs.«426456_j87411174408700_1_alg».proof.Proof.RefStages

set_option maxRecDepth 16384

noncomputable section

open scoped BigOperators

namespace Cert.Bridge

open Idealize.ShloMosaic Idealize.ShloMosaic.TcCoe Idealize.ShloMosaic.ValueIdx Cert.KernelIdeal Cert.KernelIdeal.Gen Cert.KernelIdeal.Val

theorem stage2 (V : (c : Dev nD) → (b : Ref sig .tc) → Buf (Elt Ideal) ((c : Thread nD τ).loc b)) (c : Dev nD)
    (x0 : (⟨Cert.ReferenceIdeal.S5000x1024, .f32⟩ : BufTy).Contents (Elt Ideal)) (x1 : (⟨Cert.ReferenceIdeal.S232x1024, .f32⟩ : BufTy).Contents (Elt Ideal)) (x2 : (⟨Cert.ReferenceIdeal.S232, .f32⟩ : BufTy).Contents (Elt Ideal)) (x3 : (⟨Cert.ReferenceIdeal.S256x232, .f32⟩ : BufTy).Contents (Elt Ideal)) (x4 : (⟨Cert.ReferenceIdeal.S256, .f32⟩ : BufTy).Contents (Elt Ideal)) (x5 : (⟨Cert.ReferenceIdeal.S256x232, .f32⟩ : BufTy).Contents (Elt Ideal)) (x14 : (⟨Cert.ReferenceIdeal.S2x131072, .i32⟩ : BufTy).Contents (Elt Ideal))
    (A29 A27 : S4096x232.Idx → EReal) (A30 A31 : S232x256.Idx → EReal) (A32 : S1x256.Idx → EReal)
    (e29 : A29 = V c main_v29) (e27 : A27 = V c main_v27) (e30 : A30 = V c main_v30) (e31 : A31 = V c main_v31) (e32 : A32 = V c main_v32)
    (hagg : A29 = Cert.ReferenceIdeal.Read.val_main_v28 (F := Ideal) x0 x1 x2 x14) (hx : A27 = Cert.ReferenceIdeal.Read.val_main_v5 (F := Ideal) x0 x1 x2)
    (h30 : ∀ (d : Fin 232) (q : Fin 256), A30 (ix2 d q) = x3 (ix2 q d)) (h31 : ∀ (d : Fin 232) (q : Fin 256), A31 (ix2 d q) = x5 (ix2 q d))
    (h32 : ∀ q : Fin 256, A32 (ix2 (0 : Fin 1) q) = x4 (ix1 q)) :
    ((dat2 (F := Ideal) V c).arrAt 5 cfg2.N : S4096x256.Idx → EReal) = Cert.ReferenceIdeal.Read.val_main_v37 (F := Ideal) x0 x1 x2 x3 x4 x5 x14 := by
  funext i
  obtain ⟨p, q, rfl⟩ : ∃ (p : Fin 4096) (q : Fin 256), i = ix2 p q := ⟨i 0, i 1, eq_ix2 i⟩
  rw [Cert.ReferenceIdeal.Stages.ref37, arr2 V c p q A29 A27 A30 A31 A32 e29 e27 e30 e31 e32]
  subst hagg hx
  simp only [h30, h31, h32]
  rw [add_right_comm]

end Cert.Bridge
-- ==== Proof.IVal3.lean ====
import proofs.«426456_j87411174408700_1_alg».proof.Proof.IDef3
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic ValueIdx
open Idealize.ShloMosaic.TcCoe Idealize.SL.Sem
open Idealize.ShloMosaic.Pipeline (Dat)
open scoped BigOperators

theorem lhs3_0 (i : S1024x256.Idx) (k : dot_S1024x1024_S1024x256_S1024x256_1_0_0_1_n_n.contr.Idx) :
    (dot_S1024x1024_S1024x256_S1024x256_1_0_0_1_n_n.lhsIdx i k 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs3_1 (i : S1024x256.Idx) (k : dot_S1024x1024_S1024x256_S1024x256_1_0_0_1_n_n.contr.Idx) :
    (dot_S1024x1024_S1024x256_S1024x256_1_0_0_1_n_n.lhsIdx i k 1).val = (k ⟨0, by decide⟩).val :=
  dot_S1024x1024_S1024x256_S1024x256_1_0_0_1_n_n.lhsIdx_val_of_single rfl i k
theorem rhs3_0 (i : S1024x256.Idx) (k : dot_S1024x1024_S1024x256_S1024x256_1_0_0_1_n_n.contr.Idx) :
    (dot_S1024x1024_S1024x256_S1024x256_1_0_0_1_n_n.rhsIdx i k 0).val = (k ⟨0, by decide⟩).val :=
  dot_S1024x1024_S1024x256_S1024x256_1_0_0_1_n_n.rhsIdx_val_of_single rfl i k
theorem rhs3_1 (i : S1024x256.Idx) (k : dot_S1024x1024_S1024x256_S1024x256_1_0_0_1_n_n.contr.Idx) :
    (dot_S1024x1024_S1024x256_S1024x256_1_0_0_1_n_n.rhsIdx i k 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

theorem k3_pay2_apply (acc : Vec Ideal S1024x256 .f32) (a : Vec Ideal S1024x1024 .bf16) (b : Vec Ideal S1024x256 .bf16)
    (r : Fin 1024) (q : Fin 256) :
    (k3_pay2 acc a b : S1024x256.Idx → EReal) (ix2 r q)
      = (acc : S1024x256.Idx → EReal) (ix2 r q) + ∑ jj : Fin 1024, (a : S1024x1024.Idx → EReal) (ix2 r jj) * (b : S1024x256.Idx → EReal) (ix2 jj q) := by
  unfold k3_pay2
  simp only [shapeCast_self, matmul]
  rw [addf_apply, Ideal.matmul_constant_zero_apply,
    ← Equiv.sum_comp (contrEquiv1 dot_S1024x1024_S1024x256_S1024x256_1_0_0_1_n_n 1024 rfl rfl).symm]
  refine congrArg _ (Finset.sum_congr rfl fun k _ => ?_)
  have hk := contrEquiv1_symm_val dot_S1024x1024_S1024x256_S1024x256_1_0_0_1_n_n 1024 rfl rfl k
  have el : dot_S1024x1024_S1024x256_S1024x256_1_0_0_1_n_n.lhsIdx (ix2 r q) ((contrEquiv1 dot_S1024x1024_S1024x256_S1024x256_1_0_0_1_n_n 1024 rfl rfl).symm k) = ix2 r k := funext fun x => Fin.ext (by
    match x with
    | ⟨0, _⟩ => exact lhs3_0 _ _
    | ⟨1, _⟩ => exact (lhs3_1 _ _).trans hk)
  have er : dot_S1024x1024_S1024x256_S1024x256_1_0_0_1_n_n.rhsIdx (ix2 r q) ((contrEquiv1 dot_S1024x1024_S1024x256_S1024x256_1_0_0_1_n_n 1024 rfl rfl).symm k) = ix2 k q := funext fun x => Fin.ext (by
    match x with
    | ⟨0, _⟩ => exact (rhs3_0 _ _).trans hk
    | ⟨1, _⟩ => exact rhs3_1 _ _)
  rw [el, er]

theorem k3_pay1_apply (i : S1024x256.Idx) : (k3_pay1 (F := Ideal) : S1024x256.Idx → EReal) i = 0 := by
  unfold k3_pay1
  simp only [shapeCast_self]
  exact Ideal.ofBits_zero_f32

theorem sum_cols3 (f : Fin 4096 → EReal) :
    ∑ j : Fin 4096, f j = ∑ k : Fin 4, ∑ jj : Fin 1024, f ⟨1024 * k.val + jj.val, by omega⟩ := by
  rw [← Equiv.sum_comp (finProdFinEquiv (m := 4) (n := 1024)) f, Fintype.sum_prod_type]
  refine Finset.sum_congr rfl fun k _ => Finset.sum_congr rfl fun jj _ => congrArg f (Fin.ext ?_)
  show jj.val + 1024 * k.val = 1024 * k.val + jj.val
  omega

theorem idx_facts3 : ∀ t : Fin cfg3.N,
    win3_0.index t (0 : Fin 2) = t.val / 4 ∧ win3_0.index t (1 : Fin 2) = t.val % 4
    ∧ win3_1.index t (0 : Fin 2) = t.val % 4 ∧ win3_1.index t (1 : Fin 2) = 0
    ∧ win3_2.index t (0 : Fin 2) = t.val / 4 ∧ win3_2.index t (1 : Fin 2) = 0 :=
  (by decide +kernel : ∀ t : Fin grid3.N,
    win3_0.index t (0 : Fin 2) = t.val / 4 ∧ win3_0.index t (1 : Fin 2) = t.val % 4
    ∧ win3_1.index t (0 : Fin 2) = t.val % 4 ∧ win3_1.index t (1 : Fin 2) = 0
    ∧ win3_2.index t (0 : Fin 2) = t.val / 4 ∧ win3_2.index t (1 : Fin 2) = 0)

variable (V : (c : Dev nD) → (b : Ref sig .tc) → Buf (Elt Ideal) ((c : Thread nD τ).loc b))

abbrev arrA3 (c : Dev nD) : S4096x4096.Idx → EReal := V c main_v23
abbrev arrX3 (c : Dev nD) : S4096x256.Idx → EReal := V c main_v34

abbrev blkA3 (c : Dev nD) (t : Fin cfg3.N) : S1024x1024.Idx → EReal := iblk3 V c 0 t
abbrev blkX3 (c : Dev nD) (t : Fin cfg3.N) : S1024x256.Idx → EReal := iblk3 V c 1 t

theorem iblk3_0_apply (c : Dev nD) (t : Fin cfg3.N) (r jj : Fin 1024) (P J : Fin 4096)
    (hP : P.val = 1024 * (t.val / 4) + r.val) (hJ : J.val = 1024 * (t.val % 4) + jj.val) :
    blkA3 V c t (ix2 r jj) = arrA3 V c (ix2 P J) := by
  obtain ⟨e0, e1, -, -, -, -⟩ := idx_facts3 t
  show iblk3 V c _ t _ = _
  unfold iblk3
  rw [View.read_apply]
  show (V c main_v23 : S4096x4096.Idx → EReal) _ = _
  refine congrArg _ (funext fun a => Fin.ext ?_)
  match a with
  | ⟨0, _⟩ => show win3_0.index t (0 : Fin 2) * 1024 + 1 * r.val = P.val; rw [e0, hP]; omega
  | ⟨1, _⟩ => show win3_0.index t (1 : Fin 2) * 1024 + 1 * jj.val = J.val; rw [e1, hJ]; omega

theorem iblk3_1_apply (c : Dev nD) (t : Fin cfg3.N) (jj : Fin 1024) (q : Fin 256) (J : Fin 4096)
    (hJ : J.val = 1024 * (t.val % 4) + jj.val) :
    blkX3 V c t (ix2 jj q) = arrX3 V c (ix2 J q) := by
  obtain ⟨-, -, e2, e3, -, -⟩ := idx_facts3 t
  show iblk3 V c _ t _ = _
  unfold iblk3
  rw [View.read_apply]
  show (V c main_v34 : S4096x256.Idx → EReal) _ = _
  refine congrArg _ (funext fun a => Fin.ext ?_)
  match a with
  | ⟨0, _⟩ => show win3_1.index t (0 : Fin 2) * 1024 + 1 * jj.val = J.val; rw [e2, hJ]; omega
  | ⟨1, _⟩ => show win3_1.index t (1 : Fin 2) * 256 + 1 * q.val = q.val; rw [e3]; omega

theorem acc3_reset (c : Dev nD) (n : Nat) (h : n < cfg3.N) (hm : n % 4 = 0) :
    accAfter3 V c n h = k3_pay2 (k3_pay1 (F := Ideal)) (iblk3 V c 0 ⟨n, h⟩) (iblk3 V c 1 ⟨n, h⟩) := by
  cases n with
  | zero => rfl
  | succ n => rw [accAfter3, if_pos hm]

theorem acc3_step (c : Dev nD) (n : Nat) (h : n + 1 < cfg3.N) (hm : ¬(n + 1) % 4 = 0) :
    accAfter3 V c (n + 1) h
      = k3_pay2 (accAfter3 V c n (Nat.lt_of_succ_lt h)) (iblk3 V c 0 ⟨n + 1, h⟩) (iblk3 V c 1 ⟨n + 1, h⟩) := by
  rw [accAfter3, if_neg hm]

def term3 (c : Dev nD) (t : Fin cfg3.N) (r : Fin 1024) (q : Fin 256) : EReal :=
  ∑ jj : Fin 1024, blkA3 V c t (ix2 r jj) * blkX3 V c t (ix2 jj q)

theorem term3_eq (c : Dev nD) (t : Fin cfg3.N) (k : Fin 4) (hk : t.val % 4 = k.val) (r : Fin 1024) (q : Fin 256)
    (p : Fin 4096) (hp : p.val = 1024 * (t.val / 4) + r.val) :
    term3 V c t r q = ∑ jj : Fin 1024,
      arrA3 V c (ix2 p (⟨1024 * k.val + jj.val, by omega⟩ : Fin 4096))
        * arrX3 V c (ix2 (⟨1024 * k.val + jj.val, by omega⟩ : Fin 4096) q) := by
  unfold term3
  refine Finset.sum_congr rfl fun jj _ => ?_
  rw [iblk3_0_apply V c t r jj p ⟨1024 * k.val + jj.val, by omega⟩ hp (by rw [hk]),
    iblk3_1_apply V c t jj q ⟨1024 * k.val + jj.val, by omega⟩ (by rw [hk])]

theorem acc3_run (c : Dev nD) (b : Nat) (hb : b % 4 = 0) (h : b + 1 + 1 + 1 < cfg3.N) (r : Fin 1024) (q : Fin 256) :
    (accAfter3 V c (b + 1 + 1 + 1) h : S1024x256.Idx → EReal) (ix2 r q)
      = 0 + term3 V c ⟨b, by omega⟩ r q + term3 V c ⟨b + 1, by omega⟩ r q + term3 V c ⟨b + 1 + 1, by omega⟩ r q
          + term3 V c ⟨b + 1 + 1 + 1, h⟩ r q := by
  rw [acc3_step V c (b + 1 + 1) h (by omega), k3_pay2_apply, acc3_step V c (b + 1) (by omega) (by omega), k3_pay2_apply,
    acc3_step V c b (by omega) (by omega), k3_pay2_apply, acc3_reset V c b (by omega) hb, k3_pay2_apply, k3_pay1_apply]
  rfl

theorem acc3_flush (c : Dev nD) (t : Fin cfg3.N) (h3 : t.val % 4 = 3) (r : Fin 1024) (q : Fin 256)
    (p : Fin 4096) (hp : p.val = 1024 * (t.val / 4) + r.val) :
    (accAfter3 V c t.val t.isLt : S1024x256.Idx → EReal) (ix2 r q)
      = ∑ j : Fin 4096, arrA3 V c (ix2 p j) * arrX3 V c (ix2 j q) := by
  obtain ⟨n, hn⟩ := t
  obtain ⟨b, rfl⟩ : ∃ b, n = b + 1 + 1 + 1 := ⟨n - 3, by dsimp only at h3; omega⟩
  dsimp only at h3 hp ⊢
  have hN : cfg3.N = 16 := N_3
  rw [acc3_run V c b (by omega) hn r q,
    term3_eq V c ⟨b, by omega⟩ 0 (by dsimp only; omega) r q p (by dsimp only; omega),
    term3_eq V c ⟨b + 1, by omega⟩ 1 (by dsimp only; omega) r q p (by dsimp only; omega),
    term3_eq V c ⟨b + 1 + 1, by omega⟩ 2 (by dsimp only; omega) r q p (by dsimp only; omega),
    term3_eq V c ⟨b + 1 + 1 + 1, hn⟩ 3 (by dsimp only; omega) r q p (by dsimp only; omega),
    sum_cols3, Fin.sum_univ_four, zero_add]

def G3 (c : Dev nD) : S4096x256.Idx → EReal := fun i =>
  ∑ j : Fin 4096, arrA3 V c (ix2 (⟨(i 0).val, idx2_lt0 i⟩ : Fin 4096) j) * arrX3 V c (ix2 j (⟨(i 1).val, idx2_lt1 i⟩ : Fin 256))

variable {V} in

theorem flushed3_eq (c : Dev nD) (dat : Pipeline.Dat τ (Elt Ideal) Unit ℕ (UR sig nD τ) ℕ cfg3 c)
    (hafter : ∀ t : Fin cfg3.N, dat.after 2 t = accAfter3 V c t.val t.isLt)
    (t : Fin cfg3.N) (hf : (cfg3.win 2).flush t = true) :
    dat.flushed 2 t = ((cfg3.win 2).blk t).view.read (Elt Ideal) (G3 V c) := by
  have h3 : t.val % 4 = 3 := (flush3_2 t).mp hf
  have hN : cfg3.N = 16 := N_3
  have ht : t.val < 16 := hN ▸ t.isLt
  obtain ⟨-, -, -, -, e4, e5⟩ := idx_facts3 t
  show (cfg3.win 2).cut (grid3.coords t) (dat.after 2 t) = _
  rw [hafter]
  refine funext fun (y : S1024x256.Idx) => ?_
  obtain ⟨r, q, rfl⟩ : ∃ (r : Fin 1024) (q : Fin 256), y = ix2 r q := ⟨y 0, y 1, eq_ix2 y⟩
  rw [View.read_apply]
  have hemb : ((cfg3.win 2).blk t).view.emb (ix2 r q)
      = (ix2 (⟨1024 * (t.val / 4) + r.val, by omega⟩ : Fin 4096) q : S4096x256.Idx) := by
    refine funext fun a => Fin.ext ?_
    match a with
    | ⟨0, _⟩ => show win3_2.index t (0 : Fin 2) * 1024 + 1 * r.val = 1024 * (t.val / 4) + r.val; rw [e4]; omega
    | ⟨1, _⟩ => show win3_2.index t (1 : Fin 2) * 256 + 1 * q.val = q.val; rw [e5]; omega
  show (accAfter3 V c t.val t.isLt : S1024x256.Idx → EReal) (ix2 r q) = G3 V c (((cfg3.win 2).blk t).view.emb (ix2 r q))
  rw [hemb]
  exact acc3_flush V c t h3 r q ⟨1024 * (t.val / 4) + r.val, by omega⟩ rfl

theorem cover3 (i : S4096x256.Idx) :
    ∃ t : Fin cfg3.N, (cfg3.win 2).flush t = true ∧ i ∈ ((cfg3.win 2).blk t).view.set := by
  have hN : cfg3.N = 16 := N_3
  have h0 : (i 0).val < 4096 := idx2_lt0 i
  have h1 : (i 1).val < 256 := idx2_lt1 i
  obtain ⟨t, ht⟩ : ∃ t : Fin cfg3.N, t.val = 4 * ((i 0).val / 1024) + 3 := ⟨⟨4 * ((i 0).val / 1024) + 3, by omega⟩, rfl⟩
  refine ⟨t, (flush3_2 t).mpr (by omega), ?_⟩
  obtain ⟨-, -, -, -, e4, e5⟩ := idx_facts3 t
  show i ∈ ((View.whole main_v35).slice (win3_2.rect t)).set
  rw [View.set_slice_whole, Rect.mem_set_unit]
  intro a
  match a with
  | ⟨0, _⟩ =>
    show win3_2.index t (0 : Fin 2) * 1024 ≤ (i 0).val ∧ (i 0).val < win3_2.index t (0 : Fin 2) * 1024 + 1024
    rw [e4]; omega
  | ⟨1, _⟩ =>
    show win3_2.index t (1 : Fin 2) * 256 ≤ (i 1).val ∧ (i 1).val < win3_2.index t (1 : Fin 2) * 256 + 256
    rw [e5]; omega

variable {V} in

theorem arr3_of (c : Dev nD) (dat : Pipeline.Dat τ (Elt Ideal) Unit ℕ (UR sig nD τ) ℕ cfg3 c)
    (hA : ∀ w, dat.A w = V c (Pipeline.arrRef spec3 w))
    (hafter : ∀ t : Fin cfg3.N, dat.after 2 t = accAfter3 V c t.val t.isLt)
    (A : S4096x4096.Idx → EReal) (X : S4096x256.Idx → EReal) (hadj : A = V c main_v23) (hx : X = V c main_v34)
    (p : Fin 4096) (q : Fin 256) :
    (dat.arrAt 2 cfg3.N : S4096x256.Idx → EReal) (ix2 p q) = ∑ j : Fin 4096, A (ix2 p j) * X (ix2 j q) := by
  subst hadj hx
  rw [dat.arrAt_eq_of_cover 2 (G3 V c) (fun t hf => flushed3_eq c dat hafter t hf) cover3]
  rfl

end Cert.KernelIdeal.Val

end
-- ==== Proof.Stage3.lean ====
import proofs.«426456_j87411174408700_1_alg».proof.Proof.IVal3
import proofs.«426456_j87411174408700_1_alg».proof.Proof.RefStages
import proofs.«426456_j87411174408700_1_alg».proof.Proof.AggLaw
import proofs.«426456_j87411174408700_1_alg».proof.Proof.AggBridge
set_option maxRecDepth 16384

noncomputable section

open scoped BigOperators

namespace Cert.Bridge

open Idealize.ShloMosaic Idealize.ShloMosaic.TcCoe ValueIdx Cert.KernelIdeal Cert.KernelIdeal.Gen Cert.KernelIdeal.Val

theorem stage3 {V : (c : Dev nD) → (b : Ref sig .tc) → Buf (Elt Ideal) ((c : Thread nD τ).loc b)} (c : Dev nD)
    (dat : Pipeline.Dat τ (Elt Ideal) Unit ℕ (UR sig nD τ) ℕ cfg3 c)
    (hA : ∀ w, dat.A w = V c (Pipeline.arrRef spec3 w))
    (hafter : ∀ t : Fin cfg3.N, dat.after 2 t = accAfter3 V c t.val t.isLt)
    (x0 : (⟨Cert.ReferenceIdeal.S5000x1024, .f32⟩ : BufTy).Contents (Elt Ideal))
    (x1 : (⟨Cert.ReferenceIdeal.S232x1024, .f32⟩ : BufTy).Contents (Elt Ideal))
    (x2 : (⟨Cert.ReferenceIdeal.S232, .f32⟩ : BufTy).Contents (Elt Ideal))
    (x3 : (⟨Cert.ReferenceIdeal.S256x232, .f32⟩ : BufTy).Contents (Elt Ideal))
    (x4 : (⟨Cert.ReferenceIdeal.S256, .f32⟩ : BufTy).Contents (Elt Ideal))
    (x5 : (⟨Cert.ReferenceIdeal.S256x232, .f32⟩ : BufTy).Contents (Elt Ideal))
    (x14 : (⟨Cert.ReferenceIdeal.S2x131072, .i32⟩ : BufTy).Contents (Elt Ideal))
    (A23 : S4096x4096.Idx → EReal) (A34 : S4096x256.Idx → EReal) (e23 : A23 = V c main_v23) (e34 : A34 = V c main_v34)
    (hx : A34 = Cert.ReferenceIdeal.Read.val_main_v37 x0 x1 x2 x3 x4 x5 x14)
    (hr : ∀ (r : Fin 2) (e : Fin 131072), 0 ≤ (x14 (ix2 r e)).toInt ∧ (x14 (ix2 r e)).toInt < 4096)
    (hadj : ∀ p j : Fin 4096, A23 (ix2 p j)
      = Ideal.div (cnt x14 p j) (max ((0 : EReal) + ∑ j' : Fin 4096, cnt x14 p j') 1)) :
    (dat.arrAt 2 cfg3.N : S4096x256.Idx → EReal) = Cert.ReferenceIdeal.Read.val_main_v60 x0 x1 x2 x3 x4 x5 x14 := by
  funext i
  obtain ⟨p, q, rfl⟩ : ∃ (p : Fin 4096) (q : Fin 256), i = ix2 p q := ⟨i 0, i 1, eq_ix2 i⟩
  rw [arr3_of c dat hA hafter A23 A34 e23 e34 p q]
  refine Eq.trans ?_ (Cert.ReferenceIdeal.Stages.ref60_01 x0 x1 x2 x3 x4 x5 x14 p q).symm
  simp only [hadj]
  rw [hx]
  exact agg_bridge x14 hr (fun j => Cert.ReferenceIdeal.Read.val_main_v37 x0 x1 x2 x3 x4 x5 x14 (ix2 j q)) p

end Cert.Bridge

end
-- ==== Proof.IVal4.lean ====
import proofs.«426456_j87411174408700_1_alg».proof.Proof.IReg4
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

theorem mm4_apply {φ₁ φ₂ : FTy} (A : FVec Ideal S1024x256 φ₁) (B : FVec Ideal S256x232 φ₂) (a : Fin 1024) (b : Fin 232) :
    matmul dot_S1024x256_S256x232_S1024x232_1_0_0_1_n_n none A B (constant S1024x232 .f32 0x00000000#32) (ix2 a b)
      = ∑ d : Fin 256, A (ix2 a d) * B (ix2 d b) := by
  show FloatOps.matmul _ none A B _ (ix2 a b) = _
  rw [Ideal.matmul_constant_zero_apply,
    ← Equiv.sum_comp (contrEquiv1 dot_S1024x256_S256x232_S1024x232_1_0_0_1_n_n 256 rfl rfl).symm]
  refine Finset.sum_congr rfl fun d _ => ?_
  have c2 := contrEquiv1_symm_val dot_S1024x256_S256x232_S1024x232_1_0_0_1_n_n 256 rfl rfl d
  have l2 : dot_S1024x256_S256x232_S1024x232_1_0_0_1_n_n.lhsIdx (ix2 a b) ((contrEquiv1 _ 256 rfl rfl).symm d) = ix2 a d := by
    funext ax; apply Fin.ext
    match ax with
    | ⟨0, _⟩ => simp [DotDims.lhsIdx, dot_S1024x256_S256x232_S1024x232_1_0_0_1_n_n]; rfl
    | ⟨1, _⟩ => simp [DotDims.lhsIdx, dot_S1024x256_S256x232_S1024x232_1_0_0_1_n_n]; exact c2
  have r2 : dot_S1024x256_S256x232_S1024x232_1_0_0_1_n_n.rhsIdx (ix2 a b) ((contrEquiv1 _ 256 rfl rfl).symm d) = ix2 d b := by
    funext ax; apply Fin.ext
    match ax with
    | ⟨0, _⟩ => simp [DotDims.rhsIdx, dot_S1024x256_S256x232_S1024x232_1_0_0_1_n_n]; exact c2
    | ⟨1, _⟩ => simp [DotDims.rhsIdx, dot_S1024x256_S256x232_S1024x232_1_0_0_1_n_n]; rfl
  rw [l2, r2]

theorem pay4_apply (x0 x1 : Vec Ideal S1024x256 .f32) (x2 x3 : Vec Ideal S256x232 .f32) (x4 : Vec Ideal S1x232 .f32)
    (a : Fin 1024) (b : Fin 232) :
    k4_pay1 (F := Ideal) x0 x1 x2 x3 x4 (ix2 a b)
      = ((∑ d : Fin 256, x0 (ix2 a d) * x2 (ix2 d b)) + (∑ d : Fin 256, x1 (ix2 a d) * x3 (ix2 d b))) + x4 (ix2 0 b) := by
  unfold k4_pay1
  rw [addf_apply, addf_apply, mm4_apply, mm4_apply]
  simp only [shapeCast_self, truncf_apply]
  rw [broadcastTo_apply (k := ix2 0 b)]
  intro ax
  match ax with
  | ⟨0, _⟩ => rfl
  | ⟨1, _⟩ => rfl

theorem hz4 : (![0, 0] : Fin 2 → Nat) = fun _ => 0 := funext fun a => by fin_cases a <;> rfl

theorem idx_facts4 : ∀ t : Fin cfg4.N, win4_0.index t (0 : Fin 2) = win4_5.index t (0 : Fin 2)
    ∧ win4_0.index t (1 : Fin 2) = 0
    ∧ win4_1.index t (0 : Fin 2) = win4_5.index t (0 : Fin 2)
    ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) ≤ 3 ∧ win4_5.index t (1 : Fin 2) = 0 :=
  (by decide +kernel : ∀ t : Fin grid4.N, _)

theorem idx_onto4 : ∀ (q0 : Fin 4), ∃ t : Fin cfg4.N, win4_5.index t = ![q0.val, 0] :=
  (by decide +kernel : ∀ (q0 : Fin 4), ∃ t : Fin grid4.N, win4_5.index t = ![q0.val, 0])

theorem mem_blk4 (t : Fin cfg4.N) (i : S4096x232.Idx) :
    i ∈ ((cfg4.win 5).blk t).view.set ↔ ∀ a : Fin 2, win4_5.index t a * S1024x232.size a ≤ (i a).val ∧ (i a).val < win4_5.index t a * S1024x232.size a + S1024x232.size a := by
  show i ∈ ((View.whole main_v39).slice (win4_5.rect t)).set ↔ _
  rw [View.set_slice_whole, Rect.mem_set_unit]
  exact Iff.rfl

theorem cover4 (i : S4096x232.Idx) : ∃ t : Fin cfg4.N, (cfg4.win 5).flush t = true ∧ i ∈ ((cfg4.win 5).blk t).view.set := by
  have hi0 : (i 0).val < 4096 := (i 0).isLt
  have hi1 : (i 1).val < 232 := (i 1).isLt
  obtain ⟨t, ht⟩ := idx_onto4 ⟨(i 0).val / 1024, by omega⟩
  have q0 : win4_5.index t (0 : Fin 2) = (i 0).val / 1024 := congrFun ht 0
  have q1 : win4_5.index t (1 : Fin 2) = 0 := congrFun ht 1
  refine ⟨t, flush4_5 t, ?_⟩
  rw [mem_blk4]
  intro a
  match a with
  | ⟨0, _⟩ => show win4_5.index t (0 : Fin 2) * 1024 ≤ (i 0).val ∧ (i 0).val < win4_5.index t (0 : Fin 2) * 1024 + 1024; omega
  | ⟨1, _⟩ => show win4_5.index t (1 : Fin 2) * 232 ≤ (i 1).val ∧ (i 1).val < win4_5.index t (1 : Fin 2) * 232 + 232; omega

variable (V : (c : Dev nD) → (b : Ref sig .tc) → Buf (Elt Ideal) ((c : Thread nD τ).loc b))

def G4 (x0 x1 : S4096x256.Idx → EReal) (w0 w1 : S256x232.Idx → EReal) (bs : S1x232.Idx → EReal) : S4096x232.Idx → EReal := fun i =>
  ((∑ d : Fin 256, x0 (ix2 (i 0) d) * w0 (ix2 d (i 1))) + (∑ d : Fin 256, x1 (ix2 (i 0) d) * w1 (ix2 d (i 1)))) + bs (ix2 0 (i 1))

theorem G4_apply (x0 x1 : S4096x256.Idx → EReal) (w0 w1 : S256x232.Idx → EReal) (bs : S1x232.Idx → EReal) (p : Fin 4096) (q : Fin 232) :
    G4 x0 x1 w0 w1 bs (ix2 p q)
      = ((∑ d : Fin 256, x0 (ix2 p d) * w0 (ix2 d q)) + (∑ d : Fin 256, x1 (ix2 p d) * w1 (ix2 d q))) + bs (ix2 0 q) := rfl

set_option maxHeartbeats 2000000 in
theorem flushed4_eq (c : Dev nD) (t : Fin cfg4.N) :
    (dat4 (F := Ideal) V c).flushed 5 t = ((cfg4.win 5).blk t).view.read (Elt Ideal) (G4 (V c main_v35) (V c main_v33) (V c main_v36) (V c main_v37) (V c main_v38)) := by
  show (cfg4.win 5).cut (grid4.coords t) ((dat4 (F := Ideal) V c).after 5 t) = _
  rw [after4_5]
  unfold out4_5
  rw [View.canon_unit_zero hz4]
  simp only [View.ld_unit_zero (S := S1024x256) hz4, View.ld_unit_zero (S := S256x232) hz4, View.ld_unit_zero (S := S1x232) hz4]
  obtain ⟨e0, e1, e2, e3, e4, e5, e6, e7, e8, e9, e10, e11⟩ := idx_facts4 t
  funext j
  obtain ⟨a, b, rfl⟩ : ∃ (a : Fin 1024) (b : Fin 232), j = ix2 a b := ⟨j 0, j 1, eq_ix2 j⟩
  show k4_pay1 (F := Ideal) (iblk4 V c 0 t) (iblk4 V c 1 t) (iblk4 V c 2 t) (iblk4 V c 3 t) (iblk4 V c 4 t) (ix2 a b)
    = G4 (V c main_v35) (V c main_v33) (V c main_v36) (V c main_v37) (V c main_v38) (((cfg4.win 5).blk t).view.emb (ix2 a b))
  rw [pay4_apply]
  have r0 : ∀ d : Fin 256, (iblk4 V c 0 t : S1024x256.Idx → EReal) (ix2 a d)
      = (V c main_v35 : S4096x256.Idx → EReal) (ix2 ((((cfg4.win 5).blk t).view.emb (ix2 a b)) 0) d) := by
    intro d
    show (V c main_v35 : S4096x256.Idx → EReal) (((cfg4.win 0).blk t).view.emb (ix2 a d)) = _
    refine congrArg _ (funext fun ax => Fin.ext ?_)
    match ax with
    | ⟨0, _⟩ => show win4_0.index t (0 : Fin 2) * 1024 + 1 * a.val = win4_5.index t (0 : Fin 2) * 1024 + 1 * a.val; omega
    | ⟨1, _⟩ => show win4_0.index t (1 : Fin 2) * 256 + 1 * d.val = d.val; omega
  have r1 : ∀ d : Fin 256, (iblk4 V c 1 t : S1024x256.Idx → EReal) (ix2 a d)
      = (V c main_v33 : S4096x256.Idx → EReal) (ix2 ((((cfg4.win 5).blk t).view.emb (ix2 a b)) 0) d) := by
    intro d
    show (V c main_v33 : S4096x256.Idx → EReal) (((cfg4.win 1).blk t).view.emb (ix2 a d)) = _
    refine congrArg _ (funext fun ax => Fin.ext ?_)
    match ax with
    | ⟨0, _⟩ => show win4_1.index t (0 : Fin 2) * 1024 + 1 * a.val = win4_5.index t (0 : Fin 2) * 1024 + 1 * a.val; omega
    | ⟨1, _⟩ => show win4_1.index t (1 : Fin 2) * 256 + 1 * d.val = d.val; omega
  have r2 : ∀ d : Fin 256, (iblk4 V c 2 t : S256x232.Idx → EReal) (ix2 d b)
      = (V c main_v36 : S256x232.Idx → EReal) (ix2 d ((((cfg4.win 5).blk t).view.emb (ix2 a b)) 1)) := by
    intro d
    show (V c main_v36 : S256x232.Idx → EReal) (((cfg4.win 2).blk t).view.emb (ix2 d b)) = _
    refine congrArg _ (funext fun ax => Fin.ext ?_)
    match ax with
    | ⟨0, _⟩ => show win4_2.index t (0 : Fin 2) * 256 + 1 * d.val = d.val; omega
    | ⟨1, _⟩ => show win4_2.index t (1 : Fin 2) * 232 + 1 * b.val = win4_5.index t (1 : Fin 2) * 232 + 1 * b.val; omega
  have r3 : ∀ d : Fin 256, (iblk4 V c 3 t : S256x232.Idx → EReal) (ix2 d b)
      = (V c main_v37 : S256x232.Idx → EReal) (ix2 d ((((cfg4.win 5).blk t).view.emb (ix2 a b)) 1)) := by
    intro d
    show (V c main_v37 : S256x232.Idx → EReal) (((cfg4.win 3).blk t).view.emb (ix2 d b)) = _
    refine congrArg _ (funext fun ax => Fin.ext ?_)
    match ax with
    | ⟨0, _⟩ => show win4_3.index t (0 : Fin 2) * 256 + 1 * d.val = d.val; omega
    | ⟨1, _⟩ => show win4_3.index t (1 : Fin 2) * 232 + 1 * b.val = win4_5.index t (1 : Fin 2) * 232 + 1 * b.val; omega
  have r4 : (iblk4 V c 4 t : S1x232.Idx → EReal) (ix2 0 b)
      = (V c main_v38 : S1x232.Idx → EReal) (ix2 0 ((((cfg4.win 5).blk t).view.emb (ix2 a b)) 1)) := by
    show (V c main_v38 : S1x232.Idx → EReal) (((cfg4.win 4).blk t).view.emb (ix2 0 b)) = _
    refine congrArg _ (funext fun ax => Fin.ext ?_)
    match ax with
    | ⟨0, _⟩ => show win4_4.index t (0 : Fin 2) * 1 + 1 * 0 = 0; omega
    | ⟨1, _⟩ => show win4_4.index t (1 : Fin 2) * 232 + 1 * b.val = win4_5.index t (1 : Fin 2) * 232 + 1 * b.val; omega
  simp only [r0, r1, r2, r3, r4]
  unfold G4
  rfl

theorem arr4_eq (c : Dev nD) : (dat4 (F := Ideal) V c).arrAt 5 cfg4.N = G4 (V c main_v35) (V c main_v33) (V c main_v36) (V c main_v37) (V c main_v38) :=
  (dat4 (F := Ideal) V c).arrAt_eq_of_cover 5 (G4 (V c main_v35) (V c main_v33) (V c main_v36) (V c main_v37) (V c main_v38)) (fun t _ => flushed4_eq V c t) cover4

theorem arr4 (c : Dev nD) (p : Fin 4096) (q : Fin 232)
    (x0 x1 : S4096x256.Idx → EReal) (w0 w1 : S256x232.Idx → EReal) (bs : S1x232.Idx → EReal)
    (h0 : x0 = V c main_v35) (h1 : x1 = V c main_v33) (h2 : w0 = V c main_v36) (h3 : w1 = V c main_v37) (h4 : bs = V c main_v38) :
    ((dat4 (F := Ideal) V c).arrAt 5 cfg4.N : S4096x232.Idx → EReal) (ix2 p q)
      = ((∑ d : Fin 256, x0 (ix2 p d) * w0 (ix2 d q)) + (∑ d : Fin 256, x1 (ix2 p d) * w1 (ix2 d q))) + bs (ix2 0 q) := by
  subst h0 h1 h2 h3 h4
  rw [arr4_eq]
  rfl

end Cert.KernelIdeal.Val
-- ==== Proof.Stage4.lean ====
import proofs.«426456_j87411174408700_1_alg».proof.Proof.IVal4
import proofs.«426456_j87411174408700_1_alg».proof.Proof.RefStages

set_option maxRecDepth 16384

noncomputable section

open scoped BigOperators

namespace Cert.Bridge

open Idealize.ShloMosaic Idealize.ShloMosaic.TcCoe Idealize.ShloMosaic.ValueIdx Cert.KernelIdeal Cert.KernelIdeal.Gen Cert.KernelIdeal.Val

theorem stage4 (V : (c : Dev nD) → (b : Ref sig .tc) → Buf (Elt Ideal) ((c : Thread nD τ).loc b)) (c : Dev nD)
    (x0 : (⟨Cert.ReferenceIdeal.S5000x1024, .f32⟩ : BufTy).Contents (Elt Ideal)) (x1 : (⟨Cert.ReferenceIdeal.S232x1024, .f32⟩ : BufTy).Contents (Elt Ideal)) (x2 : (⟨Cert.ReferenceIdeal.S232, .f32⟩ : BufTy).Contents (Elt Ideal)) (x3 : (⟨Cert.ReferenceIdeal.S256x232, .f32⟩ : BufTy).Contents (Elt Ideal)) (x4 : (⟨Cert.ReferenceIdeal.S256, .f32⟩ : BufTy).Contents (Elt Ideal)) (x5 : (⟨Cert.ReferenceIdeal.S256x232, .f32⟩ : BufTy).Contents (Elt Ideal)) (x6 : (⟨Cert.ReferenceIdeal.S232x256, .f32⟩ : BufTy).Contents (Elt Ideal)) (x7 : (⟨Cert.ReferenceIdeal.S232, .f32⟩ : BufTy).Contents (Elt Ideal)) (x8 : (⟨Cert.ReferenceIdeal.S232x256, .f32⟩ : BufTy).Contents (Elt Ideal)) (x14 : (⟨Cert.ReferenceIdeal.S2x131072, .i32⟩ : BufTy).Contents (Elt Ideal))
    (A35 A33 : S4096x256.Idx → EReal) (A36 A37 : S256x232.Idx → EReal) (A38 : S1x232.Idx → EReal)
    (e35 : A35 = V c main_v35) (e33 : A33 = V c main_v33) (e36 : A36 = V c main_v36) (e37 : A37 = V c main_v37) (e38 : A38 = V c main_v38)
    (hagg : A35 = Cert.ReferenceIdeal.Read.val_main_v60 (F := Ideal) x0 x1 x2 x3 x4 x5 x14) (hx : A33 = Cert.ReferenceIdeal.Read.val_main_v37 (F := Ideal) x0 x1 x2 x3 x4 x5 x14)
    (h36 : ∀ (d : Fin 256) (q : Fin 232), A36 (ix2 d q) = x6 (ix2 q d)) (h37 : ∀ (d : Fin 256) (q : Fin 232), A37 (ix2 d q) = x8 (ix2 q d))
    (h38 : ∀ q : Fin 232, A38 (ix2 (0 : Fin 1) q) = x7 (ix1 q)) :
    ((dat4 (F := Ideal) V c).arrAt 5 cfg4.N : S4096x232.Idx → EReal) = Cert.ReferenceIdeal.Read.val_main_v68 (F := Ideal) x0 x1 x2 x3 x4 x5 x6 x7 x8 x14 := by
  funext i
  obtain ⟨p, q, rfl⟩ : ∃ (p : Fin 4096) (q : Fin 232), i = ix2 p q := ⟨i 0, i 1, eq_ix2 i⟩
  rw [Cert.ReferenceIdeal.Stages.ref68, arr4 V c p q A35 A33 A36 A37 A38 e35 e33 e36 e37 e38]
  subst hagg hx
  simp only [h36, h37, h38]
  rw [add_right_comm]

end Cert.Bridge
-- ==== Proof.IVal5.lean ====
import proofs.«426456_j87411174408700_1_alg».proof.Proof.IReg5
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem lhs5_0 (i : S1024x232.Idx) (q : dot_S1024x768_S768x232_S1024x232_1_0_0_1_n_n.contr.Idx) : (dot_S1024x768_S768x232_S1024x232_1_0_0_1_n_n.lhsIdx i q 0).val = (i 0).val := by
  unfold DotDims.lhsIdx
  rw [dif_neg (show ¬(0 : Fin S1024x768.rank) ∈ dot_S1024x768_S768x232_S1024x232_1_0_0_1_n_n.lhsBatch by decide), dif_pos (show (0 : Fin S1024x768.rank) ∈ dot_S1024x768_S768x232_S1024x232_1_0_0_1_n_n.lhsNonContracting by decide)]
  rfl
theorem lhs5_1 (i : S1024x232.Idx) (q : dot_S1024x768_S768x232_S1024x232_1_0_0_1_n_n.contr.Idx) : (dot_S1024x768_S768x232_S1024x232_1_0_0_1_n_n.lhsIdx i q 1).val = (q ⟨0, by decide⟩).val :=
  dot_S1024x768_S768x232_S1024x232_1_0_0_1_n_n.lhsIdx_val_of_single rfl i q
theorem rhs5_0 (i : S1024x232.Idx) (q : dot_S1024x768_S768x232_S1024x232_1_0_0_1_n_n.contr.Idx) : (dot_S1024x768_S768x232_S1024x232_1_0_0_1_n_n.rhsIdx i q 0).val = (q ⟨0, by decide⟩).val :=
  dot_S1024x768_S768x232_S1024x232_1_0_0_1_n_n.rhsIdx_val_of_single rfl i q
theorem rhs5_1 (i : S1024x232.Idx) (q : dot_S1024x768_S768x232_S1024x232_1_0_0_1_n_n.contr.Idx) : (dot_S1024x768_S768x232_S1024x232_1_0_0_1_n_n.rhsIdx i q 1).val = (i 1).val := by
  unfold DotDims.rhsIdx
  rw [dif_neg (show ¬(1 : Fin S768x232.rank) ∈ dot_S1024x768_S768x232_S1024x232_1_0_0_1_n_n.rhsBatch by decide), dif_pos (show (1 : Fin S768x232.rank) ∈ dot_S1024x768_S768x232_S1024x232_1_0_0_1_n_n.rhsNonContracting by decide)]
  rfl

theorem pay5_apply (x0 : S1024x768.Idx → EReal) (x1 : S768x232.Idx → EReal) (x2 : S1x232.Idx → EReal) (j : S1024x232.Idx) :
    k5_pay1 (F := Ideal) x0 x1 x2 j
      = (∑ k : Fin 768, x0 (ix2 (j 0 : Fin 1024) k) * x1 (ix2 k (j 1 : Fin 232))) + x2 (ix2 (0 : Fin 1) (j 1 : Fin 232)) := by
  obtain ⟨a, b, rfl⟩ : ∃ (a : Fin 1024) (b : Fin 232), j = ix2 a b := ⟨j 0, j 1, eq_ix2 j⟩
  unfold k5_pay1
  simp only [shapeCast_self]
  rw [addf_apply]
  congr 1
  · simp only [matmul]
    rw [Ideal.matmul_constant_zero_apply, ← Equiv.sum_comp (contrEquiv1 dot_S1024x768_S768x232_S1024x232_1_0_0_1_n_n 768 rfl rfl).symm]
    refine Finset.sum_congr rfl fun k _ => ?_
    have hk := contrEquiv1_symm_val dot_S1024x768_S768x232_S1024x232_1_0_0_1_n_n 768 rfl rfl k
    have el : dot_S1024x768_S768x232_S1024x232_1_0_0_1_n_n.lhsIdx (ix2 a b) ((contrEquiv1 dot_S1024x768_S768x232_S1024x232_1_0_0_1_n_n 768 rfl rfl).symm k) = ix2 a k := funext fun ax => Fin.ext (by
      match ax with
      | ⟨0, _⟩ => exact lhs5_0 _ _
      | ⟨1, _⟩ => exact (lhs5_1 _ _).trans hk)
    have er : dot_S1024x768_S768x232_S1024x232_1_0_0_1_n_n.rhsIdx (ix2 a b) ((contrEquiv1 dot_S1024x768_S768x232_S1024x232_1_0_0_1_n_n 768 rfl rfl).symm k) = ix2 k b := funext fun ax => Fin.ext (by
      match ax with
      | ⟨0, _⟩ => exact (rhs5_0 _ _).trans hk
      | ⟨1, _⟩ => exact rhs5_1 _ _)
    rw [truncf_apply, truncf_apply, el, er]
  · exact broadcastTo_apply x2 _ (ix2 a b) (ix2 (0 : Fin 1) b) (fun ax => by
      match ax with
      | ⟨0, _⟩ => rfl
      | ⟨1, _⟩ => rfl)

theorem hz5 : (![0, 0] : Fin 2 → Nat) = fun _ => 0 := funext fun a => by fin_cases a <;> rfl

abbrev G5 (A : S16384x768.Idx → EReal) (B : S768x232.Idx → EReal) (C : S1x232.Idx → EReal) : S16384x232.Idx → EReal := fun i =>
  (∑ k : Fin 768, A (ix2 (i 0 : Fin 16384) k) * B (ix2 k (i 1 : Fin 232))) + C (ix2 (0 : Fin 1) (i 1 : Fin 232))

theorem idx_facts5 : ∀ t : Fin cfg5.N, win5_0.index t (0 : Fin 2) = win5_3.index t (0 : Fin 2) ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (1 : Fin 2) = 0 ∧ win5_3.index t (0 : Fin 2) ≤ 15 :=
  (by decide +kernel : ∀ t : Fin grid5.N, _)

theorem idx_onto5 : ∀ (q0 : Fin 16), ∃ t : Fin cfg5.N, win5_3.index t = ![q0.val, 0] :=
  (by decide +kernel : ∀ (q0 : Fin 16), ∃ t : Fin grid5.N, win5_3.index t = ![q0.val, 0])

set_option maxHeartbeats 1000000 in
theorem flushed5_eq (c : Dev nD) (t : Fin cfg5.N) :
    (dat5 V c).flushed 3 t = ((cfg5.win 3).blk t).view.read (Elt Ideal) (G5 (V c main_v53) (V c main_v54) (V c main_v55)) := by
  show (cfg5.win 3).cut (grid5.coords t) ((dat5 V c).after 3 t) = _
  rw [after5_3]
  unfold out5_3
  rw [View.canon_unit_zero hz5]
  simp only [View.ld_unit_zero (S := S1024x768) hz5, View.ld_unit_zero (S := S768x232) hz5, View.ld_unit_zero (S := S1x232) hz5]
  obtain ⟨e0, e1, e2, e3, e4, e5, e6, e7⟩ := idx_facts5 t
  funext j
  refine (pay5_apply _ _ _ j).trans ?_
  show _ = G5 (V c main_v53) (V c main_v54) (V c main_v55) (((cfg5.win 3).blk t).view.emb j)
  dsimp only [G5]
  have hj0 : (j 0).val < 1024 := (j 0).isLt
  have hj1 : (j 1).val < 232 := (j 1).isLt
  have h0 : ∀ k : Fin 768, ((cfg5.win 0).blk t).view.emb (ix2 (j 0 : Fin 1024) k) = ix2 ((((cfg5.win 3).blk t).view.emb j) 0 : Fin 16384) k := fun k => by
    funext a; apply Fin.ext
    match a with
    | ⟨0, _⟩ => show win5_0.index t (0 : Fin 2) * 1024 + 1 * (j 0).val = win5_3.index t (0 : Fin 2) * 1024 + 1 * (j 0).val; omega
    | ⟨1, _⟩ => show win5_0.index t (1 : Fin 2) * 768 + 1 * k.val = k.val; omega
  have h1 : ∀ k : Fin 768, ((cfg5.win 1).blk t).view.emb (ix2 k (j 1 : Fin 232)) = ix2 k ((((cfg5.win 3).blk t).view.emb j) 1 : Fin 232) := fun k => by
    funext a; apply Fin.ext
    match a with
    | ⟨0, _⟩ => show win5_1.index t (0 : Fin 2) * 768 + 1 * k.val = k.val; omega
    | ⟨1, _⟩ => show win5_1.index t (1 : Fin 2) * 232 + 1 * (j 1).val = win5_3.index t (1 : Fin 2) * 232 + 1 * (j 1).val; omega
  have h2 : ((cfg5.win 2).blk t).view.emb (ix2 (0 : Fin 1) (j 1 : Fin 232)) = ix2 (0 : Fin 1) ((((cfg5.win 3).blk t).view.emb j) 1 : Fin 232) := by
    funext a; apply Fin.ext
    match a with
    | ⟨0, _⟩ => show win5_2.index t (0 : Fin 2) * 1 + 1 * 0 = 0; omega
    | ⟨1, _⟩ => show win5_2.index t (1 : Fin 2) * 232 + 1 * (j 1).val = win5_3.index t (1 : Fin 2) * 232 + 1 * (j 1).val; omega
  refine congrArg₂ (fun a b : EReal => a + b) (Finset.sum_congr rfl fun k _ => congrArg₂ (fun a b : EReal => a * b) ?_ ?_) ?_
  · exact congrArg (V c main_v53) (h0 k)
  · exact congrArg (V c main_v54) (h1 k)
  · exact congrArg (V c main_v55) h2

theorem mem_blk5 (t : Fin cfg5.N) (i : S16384x232.Idx) :
    i ∈ ((cfg5.win 3).blk t).view.set ↔ ∀ a : Fin 2, win5_3.index t a * S1024x232.size a ≤ (i a).val ∧ (i a).val < win5_3.index t a * S1024x232.size a + S1024x232.size a := by
  show i ∈ ((View.whole main_v56).slice (win5_3.rect t)).set ↔ _
  rw [View.set_slice_whole, Rect.mem_set_unit]
  exact Iff.rfl

theorem cover5 (i : S16384x232.Idx) : ∃ t : Fin cfg5.N, (cfg5.win 3).flush t = true ∧ i ∈ ((cfg5.win 3).blk t).view.set := by
  have hi0 : (i 0).val < 16384 := (i 0).isLt
  have hi1 : (i 1).val < 232 := (i 1).isLt
  obtain ⟨t, ht⟩ := idx_onto5 ⟨(i 0).val / 1024, by omega⟩
  have q0 : win5_3.index t (0 : Fin 2) = (i 0).val / 1024 := congrFun ht 0
  have q1 : win5_3.index t (1 : Fin 2) = 0 := congrFun ht 1
  refine ⟨t, flush5_3 t, ?_⟩
  rw [mem_blk5]
  intro a
  match a with
  | ⟨0, _⟩ => show win5_3.index t (0 : Fin 2) * 1024 ≤ (i 0).val ∧ (i 0).val < win5_3.index t (0 : Fin 2) * 1024 + 1024; omega
  | ⟨1, _⟩ => show win5_3.index t (1 : Fin 2) * 232 ≤ (i 1).val ∧ (i 1).val < win5_3.index t (1 : Fin 2) * 232 + 232; omega

theorem final5 (c : Dev nD) : (dat5 (F := Ideal) V c).arrAt 3 cfg5.N = G5 (V c main_v53) (V c main_v54) (V c main_v55) :=
  (dat5 V c).arrAt_eq_of_cover 3 (G5 (V c main_v53) (V c main_v54) (V c main_v55)) (fun t _ => flushed5_eq V c t) cover5

theorem arr5 (c : Dev nD) (p : Fin 16384) (q : Fin 232) :
    (dat5 (F := Ideal) V c).arrAt 3 cfg5.N (ix2 p q) = G5 (V c main_v53) (V c main_v54) (V c main_v55) (ix2 p q) := by
  rw [final5]

theorem G5_apply (A : S16384x768.Idx → EReal) (B : S768x232.Idx → EReal) (C : S1x232.Idx → EReal) (p : Fin 16384) (q : Fin 232) :
    G5 A B C (ix2 p q) = (∑ k : Fin 768, A (ix2 p k) * B (ix2 k q)) + C (ix2 (0 : Fin 1) q) := rfl

end Cert.KernelIdeal.Val
-- ==== Proof.Stage5.lean ====
import proofs.«426456_j87411174408700_1_alg».proof.Proof.IVal5
import proofs.«426456_j87411174408700_1_alg».proof.Proof.RefStages

set_option maxRecDepth 16384

noncomputable section

namespace Cert.Bridge

open Idealize.ShloMosaic Idealize.ShloMosaic.TcCoe Idealize.ShloMosaic.ValueIdx
open Cert.KernelIdeal Cert.KernelIdeal.Gen Cert.KernelIdeal.Val

theorem stage5 (V : (c : Dev nD) → (b : Ref sig .tc) → Buf (Elt Ideal) ((c : Thread nD τ).loc b)) (c : Dev nD)
    (x9 : (⟨Cert.ReferenceIdeal.S100000x768, .f32⟩ : BufTy).Contents (Elt Ideal))
    (x10 : (⟨Cert.ReferenceIdeal.S232x768, .f32⟩ : BufTy).Contents (Elt Ideal))
    (x11 : (⟨Cert.ReferenceIdeal.S232, .f32⟩ : BufTy).Contents (Elt Ideal))
    (x16 : (⟨Cert.ReferenceIdeal.S16384, .i32⟩ : BufTy).Contents (Elt Ideal))
    (A53 : S16384x768.Idx → EReal) (A54 : S768x232.Idx → EReal) (A55 : S1x232.Idx → EReal)
    (e53 : A53 = V c main_v53) (e54 : A54 = V c main_v54) (e55 : A55 = V c main_v55)
    (h53 : A53 = Cert.ReferenceIdeal.Read.val_main_v82 (F := Ideal) x9 x16)
    (h54 : ∀ (k : Fin 768) (q : Fin 232), A54 (ix2 k q) = x10 (ix2 q k))
    (h55 : ∀ q : Fin 232, A55 (ix2 (0 : Fin 1) q) = x11 (ix1 q)) :
    ((dat5 (F := Ideal) V c).arrAt 3 cfg5.N : S16384x232.Idx → EReal) = Cert.ReferenceIdeal.Read.val_main_v87 (F := Ideal) x9 x10 x11 x16 := by
  funext i
  obtain ⟨p, q, rfl⟩ : ∃ (p : Fin 16384) (q : Fin 232), i = ix2 p q := ⟨i 0, i 1, eq_ix2 i⟩
  subst e53 e54 e55
  rw [arr5 V c p q, G5_apply, Cert.ReferenceIdeal.Stages.ref87]
  exact congrArg₂ (fun a b : EReal => a + b)
    (Finset.sum_congr rfl fun k _ => congrArg₂ (fun a b : EReal => a * b) (congrFun h53 (ix2 p k)) (h54 k q)) (h55 q)

end Cert.Bridge
-- ==== Proof.IVal6.lean ====
import proofs.«426456_j87411174408700_1_alg».proof.Proof.IReg6
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

abbrev D6 : DotDims S2048x232 S232x2 S2048x2 := dot_S2048x232_S232x2_S2048x2_1_0_0_1_n_n

theorem D6_lhs (r : Fin 2048) (o : Fin 2) (d : Fin 232) :
    D6.lhsIdx (ix2 r o) ((contrEquiv1 D6 232 rfl rfl).symm d) = ix2 r d := by
  have c2 := contrEquiv1_symm_val D6 232 rfl rfl d
  funext ax; apply Fin.ext
  match ax with
  | ⟨0, _⟩ => simp [DotDims.lhsIdx, dot_S2048x232_S232x2_S2048x2_1_0_0_1_n_n]; rfl
  | ⟨1, _⟩ => simp [DotDims.lhsIdx, dot_S2048x232_S232x2_S2048x2_1_0_0_1_n_n]; exact c2

theorem D6_rhs (r : Fin 2048) (o : Fin 2) (d : Fin 232) :
    D6.rhsIdx (ix2 r o) ((contrEquiv1 D6 232 rfl rfl).symm d) = ix2 d o := by
  have c2 := contrEquiv1_symm_val D6 232 rfl rfl d
  funext ax; apply Fin.ext
  match ax with
  | ⟨0, _⟩ => simp [DotDims.rhsIdx, dot_S2048x232_S232x2_S2048x2_1_0_0_1_n_n]; exact c2
  | ⟨1, _⟩ => simp [DotDims.rhsIdx, dot_S2048x232_S232x2_S2048x2_1_0_0_1_n_n]; rfl

theorem pay6_apply (v0 v2 : Vec Ideal S2048x232 .f32) (v6 : Vec Ideal S232x2 .f32) (v10 : Vec Ideal S1x2 .f32)
    (r : Fin 2048) (o : Fin 2) :
    (k6_pay1 v0 v2 v6 v10 : S2048x2.Idx → EReal) (ix2 r o)
      = (∑ d : Fin 232, ((v0 : S2048x232.Idx → EReal) (ix2 r d) * (v2 : S2048x232.Idx → EReal) (ix2 r d)) * (v6 : S232x2.Idx → EReal) (ix2 d o))
        + (v10 : S1x2.Idx → EReal) (ix2 0 o) := by
  unfold k6_pay1
  simp only [shapeCast_self]
  rw [addf_apply]
  congr 1
  · show FloatOps.matmul D6 none _ _ (constant S2048x2 .f32 0x00000000#32) (ix2 r o) = _
    rw [Ideal.matmul_constant_zero_apply, ← Equiv.sum_comp (contrEquiv1 D6 232 rfl rfl).symm]
    refine Finset.sum_congr rfl fun d _ => ?_
    rw [D6_lhs, D6_rhs]
    rfl
  · exact broadcastTo_apply _ _ _ _ (fun a => by
      match a with
      | ⟨0, _⟩ => rfl
      | ⟨1, _⟩ => rfl)

theorem hz6 : (![0, 0] : Fin 2 → Nat) = fun _ => 0 := funext fun a => by fin_cases a <;> rfl

theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

theorem iblk6_0_apply (c : Dev nD) (t : Fin cfg6.N) (x : S2048x232.Idx) (k : S16384x232.Idx)
    (hk0 : (k 0).val = 2048 * t.val + (x 0).val) (hk1 : (k 1).val = (x 1).val) :
    (iblk6 V c 0 t : Vec Ideal S2048x232 .f32) x = (V c main_v46 : S16384x232.Idx → EReal) k := by
  obtain ⟨e0, e1, -⟩ := idx_facts6 t
  unfold iblk6
  rw [View.read_apply]
  show V c main_v46 _ = V c main_v46 _
  congr 1
  funext a
  apply Fin.ext
  match a with
  | ⟨0, _⟩ => show win6_0.index t 0 * 2048 + 1 * (x 0).val = (k 0).val; rw [e0, hk0]; omega
  | ⟨1, _⟩ => show win6_0.index t 1 * 232 + 1 * (x 1).val = (k 1).val; rw [e1, hk1]; omega

theorem iblk6_1_apply (c : Dev nD) (t : Fin cfg6.N) (x : S2048x232.Idx) (k : S16384x232.Idx)
    (hk0 : (k 0).val = 2048 * t.val + (x 0).val) (hk1 : (k 1).val = (x 1).val) :
    (iblk6 V c 1 t : Vec Ideal S2048x232 .f32) x = (V c main_v56 : S16384x232.Idx → EReal) k := by
  obtain ⟨-, -, e0, e1, -⟩ := idx_facts6 t
  unfold iblk6
  rw [View.read_apply]
  show V c main_v56 _ = V c main_v56 _
  congr 1
  funext a
  apply Fin.ext
  match a with
  | ⟨0, _⟩ => show win6_1.index t 0 * 2048 + 1 * (x 0).val = (k 0).val; rw [e0, hk0]; omega
  | ⟨1, _⟩ => show win6_1.index t 1 * 232 + 1 * (x 1).val = (k 1).val; rw [e1, hk1]; omega

theorem iblk6_2_apply (c : Dev nD) (t : Fin cfg6.N) (x : S232x2.Idx) :
    (iblk6 V c 2 t : Vec Ideal S232x2 .f32) x = (V c main_v57 : S232x2.Idx → EReal) x := by
  obtain ⟨-, -, -, -, e0, e1, -⟩ := idx_facts6 t
  unfold iblk6
  rw [View.read_apply]
  show V c main_v57 _ = V c main_v57 _
  congr 1
  funext a
  apply Fin.ext
  match a with
  | ⟨0, _⟩ => show win6_2.index t 0 * 232 + 1 * (x 0).val = (x 0).val; rw [e0]; omega
  | ⟨1, _⟩ => show win6_2.index t 1 * 2 + 1 * (x 1).val = (x 1).val; rw [e1]; omega

theorem iblk6_3_apply (c : Dev nD) (t : Fin cfg6.N) (x : S1x2.Idx) :
    (iblk6 V c 3 t : Vec Ideal S1x2 .f32) x = (V c main_v58 : S1x2.Idx → EReal) x := by
  obtain ⟨-, -, -, -, -, -, e0, e1, -⟩ := idx_facts6 t
  unfold iblk6
  rw [View.read_apply]
  show V c main_v58 _ = V c main_v58 _
  congr 1
  funext a
  apply Fin.ext
  match a with
  | ⟨0, _⟩ => show win6_3.index t 0 * 1 + 1 * (x 0).val = (x 0).val; rw [e0]; omega
  | ⟨1, _⟩ => show win6_3.index t 1 * 2 + 1 * (x 1).val = (x 1).val; rw [e1]; omega

def G6 (a46 a56 : S16384x232.Idx → EReal) (a57 : S232x2.Idx → EReal) (a58 : S1x2.Idx → EReal) : S16384x2.Idx → EReal := fun i =>
  (∑ d : Fin 232, (a46 (ix2 (i 0 : Fin 16384) d) * a56 (ix2 (i 0 : Fin 16384) d)) * a57 (ix2 d (i 1 : Fin 2)))
    + a58 (ix2 0 (i 1 : Fin 2))

theorem G6_apply (a46 a56 : S16384x232.Idx → EReal) (a57 : S232x2.Idx → EReal) (a58 : S1x2.Idx → EReal)
    (i : S16384x2.Idx) (p : Fin 16384) (o : Fin 2) (hp : (i 0).val = p.val) (ho : (i 1).val = o.val) :
    G6 a46 a56 a57 a58 i = (∑ d : Fin 232, (a46 (ix2 p d) * a56 (ix2 p d)) * a57 (ix2 d o)) + a58 (ix2 0 o) := by
  obtain rfl : i = ix2 p o := by
    funext a; apply Fin.ext
    match a with
    | ⟨0, _⟩ => exact hp
    | ⟨1, _⟩ => exact ho
  rfl

theorem flushed6_eq (c : Dev nD) (t : Fin cfg6.N) :
    (dat6 V c).flushed 4 t = ((cfg6.win 4).blk t).view.read (Elt Ideal) (G6 (V c main_v46) (V c main_v56) (V c main_v57) (V c main_v58)) := by
  show (cfg6.win 4).cut (grid6.coords t) ((dat6 V c).after 4 t) = _
  rw [after6_4]
  unfold out6_4
  rw [View.canon_unit_zero hz6]
  simp only [View.ld_unit_zero (S := S2048x232) hz6, View.ld_unit_zero (S := S232x2) hz6, View.ld_unit_zero (S := S1x2) hz6]
  obtain ⟨-, -, -, -, -, -, -, -, e40, e41⟩ := idx_facts6 t
  have hN : cfg6.N = 8 := N_6
  have ht : t.val < 8 := hN ▸ t.isLt
  funext j
  obtain ⟨r, o, rfl⟩ : ∃ (r : Fin 2048) (o : Fin 2), j = ix2 r o := ⟨j 0, j 1, eq_ix2 j⟩
  show (k6_pay1 (iblk6 V c 0 t) (iblk6 V c 1 t) (iblk6 V c 2 t) (iblk6 V c 3 t) : S2048x2.Idx → EReal) (ix2 r o)
    = G6 (V c main_v46) (V c main_v56) (V c main_v57) (V c main_v58) (((cfg6.win 4).blk t).view.emb (ix2 r o))
  have hr : ((((cfg6.win 4).blk t).view.emb (ix2 r o) 0 : Fin 16384) : ℕ) = 2048 * t.val + r.val := by
    show win6_4.index t 0 * 2048 + 1 * r.val = _; rw [e40]; omega
  have ho : ((((cfg6.win 4).blk t).view.emb (ix2 r o) 1 : Fin 2) : ℕ) = o.val := by
    show win6_4.index t 1 * 2 + 1 * o.val = _; rw [e41]; omega
  have hp : 2048 * t.val + r.val < 16384 := by have := r.isLt; omega
  rw [pay6_apply, G6_apply _ _ _ _ _ ⟨2048 * t.val + r.val, hp⟩ o hr ho]
  have h0 : ∀ d : Fin 232, (iblk6 V c 0 t : Vec Ideal S2048x232 .f32) (ix2 r d)
      = (V c main_v46 : S16384x232.Idx → EReal) (ix2 (⟨2048 * t.val + r.val, hp⟩ : Fin 16384) d) :=
    fun d => iblk6_0_apply V c t _ _ rfl rfl
  have h1 : ∀ d : Fin 232, (iblk6 V c 1 t : Vec Ideal S2048x232 .f32) (ix2 r d)
      = (V c main_v56 : S16384x232.Idx → EReal) (ix2 (⟨2048 * t.val + r.val, hp⟩ : Fin 16384) d) :=
    fun d => iblk6_1_apply V c t _ _ rfl rfl
  refine congrArg₂ (f := fun x y : EReal => x + y) (Finset.sum_congr rfl fun d _ => ?_) (iblk6_3_apply V c t (ix2 0 o))
  rw [h0 d, h1 d, iblk6_2_apply V c t (ix2 d o)]

theorem mem_blk6 (t : Fin cfg6.N) (i : S16384x2.Idx) :
    i ∈ ((cfg6.win 4).blk t).view.set ↔ ∀ a : Fin 2, win6_4.index t a * S2048x2.size a ≤ (i a).val ∧ (i a).val < win6_4.index t a * S2048x2.size a + S2048x2.size a := by
  show i ∈ ((View.whole main_v59).slice (win6_4.rect t)).set ↔ _
  rw [View.set_slice_whole, Rect.mem_set_unit]
  exact Iff.rfl

theorem cover6 (i : S16384x2.Idx) : ∃ t : Fin cfg6.N, (cfg6.win 4).flush t = true ∧ i ∈ ((cfg6.win 4).blk t).view.set := by
  have hi0 : (i 0).val < 16384 := (i 0).isLt
  have hi1 : (i 1).val < 2 := (i 1).isLt
  have hN : cfg6.N = 8 := N_6
  obtain ⟨t, ht⟩ : ∃ t : Fin cfg6.N, t.val = (i 0).val / 2048 := ⟨⟨(i 0).val / 2048, by rw [hN]; omega⟩, rfl⟩
  obtain ⟨-, -, -, -, -, -, -, -, e40, e41⟩ := idx_facts6 t
  refine ⟨t, flush6_4 t, ?_⟩
  rw [mem_blk6]
  intro a
  match a with
  | ⟨0, _⟩ => show win6_4.index t (0 : Fin 2) * 2048 ≤ (i 0).val ∧ (i 0).val < win6_4.index t (0 : Fin 2) * 2048 + 2048; rw [e40, ht]; omega
  | ⟨1, _⟩ => show win6_4.index t (1 : Fin 2) * 2 ≤ (i 1).val ∧ (i 1).val < win6_4.index t (1 : Fin 2) * 2 + 2; rw [e41]; omega

theorem final6 (c : Dev nD) : (dat6 V c).arrAt 4 cfg6.N = G6 (V c main_v46) (V c main_v56) (V c main_v57) (V c main_v58) :=
  (dat6 V c).arrAt_eq_of_cover 4 (G6 (V c main_v46) (V c main_v56) (V c main_v57) (V c main_v58)) (fun t _ => flushed6_eq V c t) cover6

theorem arr6 (c : Dev nD) (a46 a56 : S16384x232.Idx → EReal) (a57 : S232x2.Idx → EReal) (a58 : S1x2.Idx → EReal)
    (h46 : a46 = V c main_v46) (h56 : a56 = V c main_v56) (h57 : a57 = V c main_v57) (h58 : a58 = V c main_v58)
    (p : Fin 16384) (o : Fin 2) :
    ((dat6 (F := Ideal) V c).arrAt 4 cfg6.N : S16384x2.Idx → EReal) (ix2 p o)
      = (∑ d : Fin 232, (a46 (ix2 p d) * a56 (ix2 p d)) * a57 (ix2 d o)) + a58 (ix2 0 o) := by
  subst h46 h56 h57 h58
  rw [final6]
  rfl

end Cert.KernelIdeal.Val

end
-- ==== Proof.Stage6.lean ====
import proofs.«426456_j87411174408700_1_alg».proof.Proof.IVal6
import proofs.«426456_j87411174408700_1_alg».proof.Proof.RefStages

set_option maxRecDepth 16384

noncomputable section

open scoped BigOperators

namespace Cert.Bridge

open Idealize.ShloMosaic ValueIdx Cert.KernelIdeal Cert.KernelIdeal.Gen Cert.KernelIdeal.Val
open Idealize.ShloMosaic.TcCoe Idealize.SL.Sem

theorem gatherP_eq (X : S4096x232.Idx → EReal) (I : IVec S16384x1 32) :
    Host.gather Cert.KernelIdeal.gather_S4096x232_S16384x1_S16384x232_1_0_n_n_0_1_1232 X I
      = Host.gather Cert.ReferenceIdeal.gather_S4096x232_S16384x1_S16384x232_1_0_n_n_0_1_1232 X I := rfl

theorem gatherQ_eq (X : S100000x768.Idx → EReal) (I : IVec S16384x1 32) :
    Host.gather Cert.KernelIdeal.gather_S100000x768_S16384x1_S16384x768_1_0_n_n_0_1_1768 X I
      = Host.gather Cert.ReferenceIdeal.gather_S100000x768_S16384x1_S16384x768_1_0_n_n_0_1_1768 X I := rfl

theorem stage6
    (V : (c : Dev nD) → (b : Ref sig .tc) → Buf (Elt Ideal) ((c : Thread nD τ).loc b)) (c : Dev nD)
    (x0 : (⟨Cert.ReferenceIdeal.S5000x1024, .f32⟩ : BufTy).Contents (Elt Ideal))
    (x1 : (⟨Cert.ReferenceIdeal.S232x1024, .f32⟩ : BufTy).Contents (Elt Ideal))
    (x2 : (⟨Cert.ReferenceIdeal.S232, .f32⟩ : BufTy).Contents (Elt Ideal))
    (x3 : (⟨Cert.ReferenceIdeal.S256x232, .f32⟩ : BufTy).Contents (Elt Ideal))
    (x4 : (⟨Cert.ReferenceIdeal.S256, .f32⟩ : BufTy).Contents (Elt Ideal))
    (x5 : (⟨Cert.ReferenceIdeal.S256x232, .f32⟩ : BufTy).Contents (Elt Ideal))
    (x6 : (⟨Cert.ReferenceIdeal.S232x256, .f32⟩ : BufTy).Contents (Elt Ideal))
    (x7 : (⟨Cert.ReferenceIdeal.S232, .f32⟩ : BufTy).Contents (Elt Ideal))
    (x8 : (⟨Cert.ReferenceIdeal.S232x256, .f32⟩ : BufTy).Contents (Elt Ideal))
    (x9 : (⟨Cert.ReferenceIdeal.S100000x768, .f32⟩ : BufTy).Contents (Elt Ideal))
    (x10 : (⟨Cert.ReferenceIdeal.S232x768, .f32⟩ : BufTy).Contents (Elt Ideal))
    (x11 : (⟨Cert.ReferenceIdeal.S232, .f32⟩ : BufTy).Contents (Elt Ideal))
    (x12 : (⟨Cert.ReferenceIdeal.S2x232, .f32⟩ : BufTy).Contents (Elt Ideal))
    (x13 : (⟨Cert.ReferenceIdeal.S2, .f32⟩ : BufTy).Contents (Elt Ideal))
    (x14 : (⟨Cert.ReferenceIdeal.S2x131072, .i32⟩ : BufTy).Contents (Elt Ideal))
    (x15 x16 : (⟨Cert.ReferenceIdeal.S16384, .i32⟩ : BufTy).Contents (Elt Ideal))
    (A46 A56 : S16384x232.Idx → EReal) (A57 : S232x2.Idx → EReal) (A58 : S1x2.Idx → EReal)
    (e46 : A46 = V c main_v46) (e56 : A56 = V c main_v56) (e57 : A57 = V c main_v57) (e58 : A58 = V c main_v58)
    (hp : A46 = Cert.ReferenceIdeal.Read.val_main_v75 (F := Ideal) x0 x1 x2 x3 x4 x5 x6 x7 x8 x14 x15)
    (hq : A56 = Cert.ReferenceIdeal.Read.val_main_v87 (F := Ideal) x9 x10 x11 x16)
    (h57 : ∀ (d : Fin 232) (o : Fin 2), A57 (ix2 d o) = x12 (ix2 o d))
    (h58 : ∀ o : Fin 2, A58 (ix2 (0 : Fin 1) o) = x13 (ix1 o)) :
    ((dat6 (F := Ideal) V c).arrAt 4 cfg6.N : S16384x2.Idx → EReal)
      = Cert.ReferenceIdeal.Read.val_main_v93 (F := Ideal) x0 x1 x2 x3 x4 x5 x6 x7 x8 x9 x10 x11 x12 x13 x14 x15 x16 := by
  funext i
  obtain ⟨p, o, rfl⟩ : ∃ (p : Fin 16384) (o : Fin 2), i = ix2 p o := ⟨i 0, i 1, eq_ix2 i⟩
  refine (arr6 V c A46 A56 A57 A58 e46 e56 e57 e58 p o).trans ?_
  rw [Cert.ReferenceIdeal.Stages.ref93, ← hp, ← hq]
  refine congrArg₂ (· + ·) (Finset.sum_congr rfl fun d _ => ?_) (h58 o)
  rw [h57]

end Cert.Bridge

end
-- ==== Proof.IValue.lean ====
import proofs.«426456_j87411174408700_1_alg».proof.Proof.IRun
import proofs.«426456_j87411174408700_1_alg».proof.Proof.IGlue
import proofs.«426456_j87411174408700_1_alg».proof.Proof.IGlueAdj
import proofs.«426456_j87411174408700_1_alg».proof.Proof.AggBridge
import proofs.«426456_j87411174408700_1_alg».proof.Proof.Stage0
import proofs.«426456_j87411174408700_1_alg».proof.Proof.Stage1
import proofs.«426456_j87411174408700_1_alg».proof.Proof.Stage2
import proofs.«426456_j87411174408700_1_alg».proof.Proof.Stage3
import proofs.«426456_j87411174408700_1_alg».proof.Proof.Stage4
import proofs.«426456_j87411174408700_1_alg».proof.Proof.Stage5
import proofs.«426456_j87411174408700_1_alg».proof.Proof.Stage6

set_option maxRecDepth 16384

noncomputable section

namespace Cert.Bridge

open Idealize.ShloMosaic Idealize.ShloMosaic.TcCoe Idealize.ShloMosaic.StableHlo ValueIdx
open Cert.KernelIdeal Cert.KernelIdeal.Gen Cert.KernelIdeal.Val

variable (m : (ℓ : Loc nD τ sig) → Buf (Elt Ideal) ℓ) (c : Dev nD)

abbrev argRefs : List (Ref sig .tc) :=
  [main_arg3, main_arg4, main_arg5, main_arg6, main_arg7, main_arg8, main_arg9, main_arg10, main_arg11, main_arg12, main_arg13, main_arg15, main_arg16]

-- No host stretch and no region writes an argument's buffer: at every boundary it holds its launch contents.
theorem B1_arg {r : Ref sig .tc} (h : r ∈ argRefs) : B1 m c r = m ((c.tc : Thread nD τ).loc r) :=
  (B1_of m c r ((by decide : ∀ r ∈ argRefs, r ∉ (hostOps0_W : List (Ref sig .tc))) r h))
theorem B2_arg {r : Ref sig .tc} (h : r ∈ argRefs) : B2 m c r = m ((c.tc : Thread nD τ).loc r) :=
  (B2_of m c r ((by decide : ∀ r ∈ argRefs, r ∉ ([main_v27] : List (Ref sig .tc))) r h)).trans (B1_arg m c h)
theorem B3_arg {r : Ref sig .tc} (h : r ∈ argRefs) : B3 m c r = m ((c.tc : Thread nD τ).loc r) :=
  (B3_of m c r ((by decide : ∀ r ∈ argRefs, r ∉ (hostOps1_W : List (Ref sig .tc))) r h)).trans (B2_arg m c h)
theorem B4_arg {r : Ref sig .tc} (h : r ∈ argRefs) : B4 m c r = m ((c.tc : Thread nD τ).loc r) :=
  (B4_of m c r ((by decide : ∀ r ∈ argRefs, r ∉ ([main_v29] : List (Ref sig .tc))) r h)).trans (B3_arg m c h)
theorem B5_arg {r : Ref sig .tc} (h : r ∈ argRefs) : B5 m c r = m ((c.tc : Thread nD τ).loc r) :=
  (B5_of m c r ((by decide : ∀ r ∈ argRefs, r ∉ (hostOps2_W : List (Ref sig .tc))) r h)).trans (B4_arg m c h)
theorem B6_arg {r : Ref sig .tc} (h : r ∈ argRefs) : B6 m c r = m ((c.tc : Thread nD τ).loc r) :=
  (B6_of m c r ((by decide : ∀ r ∈ argRefs, r ∉ ([main_v33] : List (Ref sig .tc))) r h)).trans (B5_arg m c h)
theorem B7_arg {r : Ref sig .tc} (h : r ∈ argRefs) : B7 m c r = m ((c.tc : Thread nD τ).loc r) :=
  (B7_of m c r ((by decide : ∀ r ∈ argRefs, r ∉ (hostOps3_W : List (Ref sig .tc))) r h)).trans (B6_arg m c h)
theorem B8_arg {r : Ref sig .tc} (h : r ∈ argRefs) : B8 m c r = m ((c.tc : Thread nD τ).loc r) :=
  (B8_of m c r ((by decide : ∀ r ∈ argRefs, r ∉ ([main_v35] : List (Ref sig .tc))) r h)).trans (B7_arg m c h)
theorem B9_arg {r : Ref sig .tc} (h : r ∈ argRefs) : B9 m c r = m ((c.tc : Thread nD τ).loc r) :=
  (B9_of m c r ((by decide : ∀ r ∈ argRefs, r ∉ (hostOps4_W : List (Ref sig .tc))) r h)).trans (B8_arg m c h)
theorem B10_arg {r : Ref sig .tc} (h : r ∈ argRefs) : B10 m c r = m ((c.tc : Thread nD τ).loc r) :=
  (B10_of m c r ((by decide : ∀ r ∈ argRefs, r ∉ ([main_v39] : List (Ref sig .tc))) r h)).trans (B9_arg m c h)
theorem B11_arg {r : Ref sig .tc} (h : r ∈ argRefs) : B11 m c r = m ((c.tc : Thread nD τ).loc r) :=
  (B11_of m c r ((by decide : ∀ r ∈ argRefs, r ∉ (hostOps5_W : List (Ref sig .tc))) r h)).trans (B10_arg m c h)
theorem B12_arg {r : Ref sig .tc} (h : r ∈ argRefs) : B12 m c r = m ((c.tc : Thread nD τ).loc r) :=
  (B12_of m c r ((by decide : ∀ r ∈ argRefs, r ∉ ([main_v56] : List (Ref sig .tc))) r h)).trans (B11_arg m c h)

theorem B2_v27 : B2 m c main_v27 = o2 m c := B2_out m c
theorem B4_v29 : B4 m c main_v29 = o4 m c := B4_out m c
theorem B6_v33 : B6 m c main_v33 = o6 m c := B6_out m c
theorem B8_v35 : B8 m c main_v35 = o8 m c := B8_out m c
theorem B10_v39 : B10 m c main_v39 = o10 m c := B10_out m c
theorem B12_v56 : B12 m c main_v56 = o12 m c := B12_out m c
theorem B3_v23 : B3 m c main_v23 = B1 m c main_v23 := (B3_of m c main_v23 (by decide)).trans (B2_of m c main_v23 (by decide))
theorem B7_v23 : B7 m c main_v23 = B1 m c main_v23 :=
  (B7_of m c main_v23 (by decide)).trans ((B6_of m c main_v23 (by decide)).trans ((B5_of m c main_v23 (by decide)).trans ((B4_of m c main_v23 (by decide)).trans (B3_v23 m c))))
theorem B5_v29 : B5 m c main_v29 = o4 m c := (B5_of m c main_v29 (by decide)).trans (B4_v29 m c)
theorem B5_v27 : B5 m c main_v27 = o2 m c :=
  (B5_of m c main_v27 (by decide)).trans ((B4_of m c main_v27 (by decide)).trans ((B3_of m c main_v27 (by decide)).trans (B2_v27 m c)))
theorem B9_v35 : B9 m c main_v35 = o8 m c := (B9_of m c main_v35 (by decide)).trans (B8_v35 m c)
theorem B9_v33 : B9 m c main_v33 = o6 m c :=
  (B9_of m c main_v33 (by decide)).trans ((B8_of m c main_v33 (by decide)).trans ((B7_of m c main_v33 (by decide)).trans (B6_v33 m c)))
theorem B13_v56 : B13 m c main_v56 = o12 m c := (B13_of m c main_v56 (by decide)).trans (B12_v56 m c)
theorem B13_v46 : B13 m c main_v46 = B11 m c main_v46 := (B13_of m c main_v46 (by decide)).trans (B12_of m c main_v46 (by decide))

set_option maxHeartbeats 4000000 in
theorem kernel_value
    (hr : ∀ (r : Fin 2) (e : Fin 131072), 0 ≤ ((m ((c.tc : Thread nD τ).loc main_arg14) : S2x131072.Idx → BitVec 32) (ix2 r e)).toInt
      ∧ ((m ((c.tc : Thread nD τ).loc main_arg14) : S2x131072.Idx → BitVec 32) (ix2 r e)).toInt < 4096) :
    o14 (F := Ideal) m c = Cert.ReferenceIdeal.Read.val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by

  have s0 : (o2 m c : S4096x232.Idx → EReal) = Cert.ReferenceIdeal.Read.val_main_v5 (F := Ideal) (m ((c.tc : Thread nD τ).loc main_arg0)) (m ((c.tc : Thread nD τ).loc main_arg1)) (m ((c.tc : Thread nD τ).loc main_arg2)) :=
    stage0 (R1 m) c (m ((c.tc : Thread nD τ).loc main_arg0)) (m ((c.tc : Thread nD τ).loc main_arg1)) (m ((c.tc : Thread nD τ).loc main_arg2)) (R1 m c main_v24) (R1 m c main_v25) (R1 m c main_v26) rfl rfl rfl
      (fun p k => v24_apply (B0 m c) p k) (fun k q => v25_apply (B0 m c) k q) (fun q => v26_apply (B0 m c) q)

  have hadj : ∀ p j : Fin 4096, (B1 m c main_v23 : S4096x4096.Idx → EReal) (ix2 p j)
      = Ideal.div (cnt (m ((c.tc : Thread nD τ).loc main_arg14)) p j) (max ((0 : EReal) + ∑ j' : Fin 4096, cnt (m ((c.tc : Thread nD τ).loc main_arg14)) p j') 1) :=
    fun p j => adj_apply_inrange (B0 m c) hr p j
  have s1 : (o4 m c : S4096x232.Idx → EReal) = Cert.ReferenceIdeal.Read.val_main_v28 (F := Ideal) (m ((c.tc : Thread nD τ).loc main_arg0)) (m ((c.tc : Thread nD τ).loc main_arg1)) (m ((c.tc : Thread nD τ).loc main_arg2)) (m ((c.tc : Thread nD τ).loc main_arg14)) :=
    stage1 c (dat1 (R3 m) c) (A_eq1 (R3 m) c) (after1_2 (R3 m) c) (m ((c.tc : Thread nD τ).loc main_arg0)) (m ((c.tc : Thread nD τ).loc main_arg1)) (m ((c.tc : Thread nD τ).loc main_arg2)) (m ((c.tc : Thread nD τ).loc main_arg14)) (R3 m c main_v23) (R3 m c main_v28) rfl rfl
      ((v28_eq (B2 m c)).trans ((B2_v27 m c).trans s0)) hr
      (fun p j => (congrFun (B3_v23 m c) (ix2 p j)).trans (hadj p j))

  have s2 : (o6 m c : S4096x256.Idx → EReal) = Cert.ReferenceIdeal.Read.val_main_v37 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg14)) :=
    stage2 (R5 m) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg14)) (R5 m c main_v29) (R5 m c main_v27) (R5 m c main_v30) (R5 m c main_v31) (R5 m c main_v32) rfl rfl rfl rfl rfl
      ((B5_v29 m c).trans s1) ((B5_v27 m c).trans s0)
      (fun d q => (v30_apply (B4 m c) d q).trans (by rw [B4_arg m c (r := main_arg3) (by decide)]))
      (fun d q => (v31_apply (B4 m c) d q).trans (by rw [B4_arg m c (r := main_arg5) (by decide)]))
      (fun q => (v32_apply (B4 m c) q).trans (by rw [B4_arg m c (r := main_arg4) (by decide)]))

  have s3 : (o8 m c : S4096x256.Idx → EReal) = Cert.ReferenceIdeal.Read.val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg14)) :=
    stage3 c (dat3 (R7 m) c) (A_eq3 (R7 m) c) (after3_2 (R7 m) c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg14)) (R7 m c main_v23) (R7 m c main_v34) rfl rfl
      ((v34_eq (B6 m c)).trans ((B6_v33 m c).trans s2)) hr
      (fun p j => (congrFun (B7_v23 m c) (ix2 p j)).trans (hadj p j))

  have s4 : (o10 m c : S4096x232.Idx → EReal) = Cert.ReferenceIdeal.Read.val_main_v68 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg14)) :=
    stage4 (R9 m) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg14)) (R9 m c main_v35) (R9 m c main_v33) (R9 m c main_v36) (R9 m c main_v37) (R9 m c main_v38) rfl rfl rfl rfl rfl
      ((B9_v35 m c).trans s3) ((B9_v33 m c).trans s2)
      (fun d q => (v36_apply (B8 m c) d q).trans (by rw [B8_arg m c (r := main_arg6) (by decide)]))
      (fun d q => (v37_apply (B8 m c) d q).trans (by rw [B8_arg m c (r := main_arg8) (by decide)]))
      (fun q => (v38_apply (B8 m c) q).trans (by rw [B8_arg m c (r := main_arg7) (by decide)]))

  have hp : (B11 m c main_v46 : S16384x232.Idx → EReal)
      = Cert.ReferenceIdeal.Read.val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg14)) (m ((c.tc : Thread nD τ).loc main_arg15)) := by
    refine (v46_eq (B10 m c)).trans ?_
    rw [B10_v39, s4, B10_arg m c (r := main_arg15) (by decide), Cert.ReferenceIdeal.Stages.ref75]
    exact gatherP_eq _ _
  have hq0 : (B11 m c main_v53 : S16384x768.Idx → EReal) = Cert.ReferenceIdeal.Read.val_main_v82 (F := Ideal) (m ((c.tc : Thread nD τ).loc main_arg9)) (m ((c.tc : Thread nD τ).loc main_arg16)) := by
    refine (v53_eq (B10 m c)).trans ?_
    rw [B10_arg m c (r := main_arg9) (by decide), B10_arg m c (r := main_arg16) (by decide), Cert.ReferenceIdeal.Stages.ref82]
    exact gatherQ_eq _ _

  have h54 : ∀ (k : Fin 768) (q : Fin 232), (B11 m c main_v54 : S768x232.Idx → EReal) (ix2 k q) = (m ((c.tc : Thread nD τ).loc main_arg10)) (ix2 q k) :=
    fun k q => (v54_apply (B10 m c) k q).trans (by rw [B10_arg m c (r := main_arg10) (by decide)])
  have h55 : ∀ q : Fin 232, (B11 m c main_v55 : S1x232.Idx → EReal) (ix2 (0 : Fin 1) q) = (m ((c.tc : Thread nD τ).loc main_arg11)) (ix1 q) :=
    fun q => (v55_apply (B10 m c) q).trans (by rw [B10_arg m c (r := main_arg11) (by decide)])
  have s5 : (o12 m c : S16384x232.Idx → EReal) = Cert.ReferenceIdeal.Read.val_main_v87 (F := Ideal) (m ((c.tc : Thread nD τ).loc main_arg9)) (m ((c.tc : Thread nD τ).loc main_arg10)) (m ((c.tc : Thread nD τ).loc main_arg11)) (m ((c.tc : Thread nD τ).loc main_arg16)) :=
    stage5 (R11 m) c (m ((c.tc : Thread nD τ).loc main_arg9)) (m ((c.tc : Thread nD τ).loc main_arg10)) (m ((c.tc : Thread nD τ).loc main_arg11)) (m ((c.tc : Thread nD τ).loc main_arg16)) (R11 m c main_v53) (R11 m c main_v54) (R11 m c main_v55) rfl rfl rfl hq0 h54 h55

  have s6 : (o14 m c : S16384x2.Idx → EReal) = Cert.ReferenceIdeal.Read.val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
    stage6 (R13 m) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (R13 m c main_v46) (R13 m c main_v56) (R13 m c main_v57) (R13 m c main_v58) rfl rfl rfl rfl
    ((B13_v46 m c).trans hp) ((B13_v56 m c).trans s5)
    (fun d o => (v57_apply (B12 m c) d o).trans (by rw [B12_arg m c (r := main_arg12) (by decide)]))
    (fun o => (v58_apply (B12 m c) o).trans (by rw [B12_arg m c (r := main_arg13) (by decide)]))
  exact s6

end Cert.Bridge

end
-- ==== Proof.PreRange.lean ====
import proofs.«426456_j87411174408700_1_alg».proof.Pre_finite_inputs
import Idealize.ShloMosaic.Lib.ReduceAll
import Idealize.ShloMosaic.Lib.StableHlo.Predicate
import Idealize.ShloMosaic.Lib.ValueIdx

set_option maxRecDepth 16384

namespace Cert.PreRange

open Idealize.ShloMosaic Idealize.ShloMosaic.ValueIdx Cert.Pre_finite_inputs

instance : Subsingleton S_.Idx := ⟨fun _ _ => funext fun d => d.elim0⟩

theorem range_of_fn {F : FTy → Type} [FloatOps F] [Cert.Pre_finite_inputs.Facts]
    (a0 : FVec F S5000x1024 .f32) (a1 : FVec F S232x1024 .f32) (a2 : FVec F S232 .f32) (a3 : FVec F S256x232 .f32) (a4 : FVec F S256 .f32) (a5 : FVec F S256x232 .f32) (a6 : FVec F S232x256 .f32) (a7 : FVec F S232 .f32) (a8 : FVec F S232x256 .f32) (a9 : FVec F S100000x768 .f32) (a10 : FVec F S232x768 .f32) (a11 : FVec F S232 .f32) (a12 : FVec F S2x232 .f32) (a13 : FVec F S2 .f32) (a14 : IVec S2x131072 32) (a15 : IVec S16384 32) (a16 : IVec S16384 32)
    (h : Cert.Pre_finite_inputs.fn (F := F) a0 a1 a2 a3 a4 a5 a6 a7 a8 a9 a10 a11 a12 a13 a14 a15 a16 = (fun _ => 1#1)) :
    ∀ (r : Fin 2) (e : Fin 131072), 0 ≤ (a14 (ix2 r e)).toInt ∧ (a14 (ix2 r e)).toInt < 4096 := by
  intro r e
  have h0 : Cert.Pre_finite_inputs.fn (F := F) a0 a1 a2 a3 a4 a5 a6 a7 a8 a9 a10 a11 a12 a13 a14 a15 a16 ix0 = 1#1 := congrFun h ix0
  obtain ⟨h72, h75⟩ := IntOp.andi_eq_one.1 h0
  obtain ⟨_, h71⟩ := IntOp.andi_eq_one.1 h72
  have hge := IntOp.cmpi_sge.1 (Host.reduce_andi_all _ _ _ _ ix0 h71 (ix2 r e))
  have hlt := IntOp.cmpi_slt.1 (Host.reduce_andi_all _ _ _ _ ix0 h75 (ix2 r e))
  have e0 : (0#32 : BitVec 32).toInt = 0 := by decide
  have e1 : (4096#32 : BitVec 32).toInt = 4096 := by decide
  exact ⟨e0 ▸ hge, e1 ▸ hlt⟩

end Cert.PreRange
-- ==== Proof.lean ====
import proofs.«426456_j87411174408700_1_alg».proof.Defs
import proofs.«426456_j87411174408700_1_alg».proof.Proof.Gen.Kernel
import proofs.«426456_j87411174408700_1_alg».proof.Proof.Gen.KernelIdeal
import proofs.«426456_j87411174408700_1_alg».proof.Proof.Gen.ReferenceIdeal
import proofs.«426456_j87411174408700_1_alg».proof.Proof.Gen.Pre_finite_inputs
import proofs.«426456_j87411174408700_1_alg».proof.Proof.SameText
import proofs.«426456_j87411174408700_1_alg».proof.Proof.IRun
import proofs.«426456_j87411174408700_1_alg».proof.Proof.IValue
import proofs.«426456_j87411174408700_1_alg».proof.Proof.PreRange
import Idealize.ShloMosaic.Adequacy
import Idealize.ShloMosaic.Init

set_option maxRecDepth 16384

noncomputable section

namespace Cert.Proof

open Idealize.ShloMosaic Idealize.ShloMosaic.TcCoe Idealize.SL.Sem

set_option maxHeartbeats 4000000 in
-- Both programs are one text, so the frame of the program as printed is the idealized text's run, read at the printed program's instance.
theorem frame_k [Cert.Kernel.Facts] [Cert.Pre_finite_inputs.Facts] : Cert.frame_Kernel := fun m ρ _ => by
  haveI := Cert.KernelIdeal.Gen.facts
  rw [SameText.defs_eq (hI := Cert.KernelIdeal.Gen.facts)]
  exact (θ_run Cert.KernelIdeal.defs _ _).mono (fun _ h c => (h c).2) (Cert.KernelIdeal.Gen.run_main (F := Bits) m ρ)

theorem frame_ki [Cert.KernelIdeal.Facts] [Cert.Pre_finite_inputs.Facts] : Cert.frame_KernelIdeal := fun m ρ _ =>
  (θ_run Cert.KernelIdeal.defs _ _).mono (fun _ h c => (h c).2) (Cert.KernelIdeal.Gen.run_main (F := Ideal) m ρ)

theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

-- The kernel program's run names its result; under the precondition it is the reference's result term of the same arguments.
theorem algebraic [Cert.KernelIdeal.Facts] [Cert.ReferenceIdeal.Facts] [Cert.Pre_finite_inputs.Facts] :
    Cert.algebraic_KernelIdeal_ReferenceIdeal := by
  intro m ρ m' ρ' hpre hagree
  refine ⟨Cert.KernelIdeal.Gen.o14 (F := Ideal) m, Cert.KernelIdeal.Gen.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16⟩ := hagree c
  rw [Cert.ReferenceIdeal.Read.val_main_v93_eq, h0, h1, h2, h3, h4, h5, h6, h7, h8, h9, h10, h11, h12, h13, h14, h15, h16]
  exact (Cert.Bridge.kernel_value m c
    (Cert.PreRange.range_of_fn (F := Ideal) _ _ _ _ _ _ _ _ _ _ _ _ _ _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
